-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x10 : Shape := ⟨2, ![500000, 10]⟩
abbrev S2x8000000 : Shape := ⟨2, ![2, 8000000]⟩
abbrev S8000000 : Shape := ⟨1, ![8000000]⟩
abbrev S500000 : Shape := ⟨1, ![500000]⟩
abbrev S10x10 : Shape := ⟨2, ![10, 10]⟩
abbrev S10 : Shape := ⟨1, ![10]⟩
abbrev S1x10 : Shape := ⟨2, ![1, 10]⟩
abbrev S1 : Shape := ⟨1, ![1]⟩
abbrev S_ : Shape := ⟨0, ![]⟩

class Facts : Prop where
  bcast_S_S500000x10 : S_.BroadcastsInDim S500000x10 (![] : Fin 0 → Fin S500000x10.rank)
  reducesTo_S500000x10_S_d0_1 : S500000x10.ReducesTo [0, 1] S_
  h_S_ : 0 < S_.numel
  bcast_S_S8000000 : S_.BroadcastsInDim S8000000 (![] : Fin 0 → Fin S8000000.rank)
  reducesTo_S8000000_S_d0 : S8000000.ReducesTo [0] S_
  bcast_S_S10x10 : S_.BroadcastsInDim S10x10 (![] : Fin 0 → Fin S10x10.rank)
  reducesTo_S10x10_S_d0_1 : S10x10.ReducesTo [0, 1] S_
  bcast_S_S10 : S_.BroadcastsInDim S10 (![] : Fin 0 → Fin S10.rank)
  reducesTo_S10_S_d0 : S10.ReducesTo [0] S_
  bcast_S_S1x10 : S_.BroadcastsInDim S1x10 (![] : Fin 0 → Fin S1x10.rank)
  reducesTo_S1x10_S_d0_1 : S1x10.ReducesTo [0, 1] S_
  bcast_S_S1 : S_.BroadcastsInDim S1 (![] : Fin 0 → Fin S1.rank)
  reducesTo_S1_S_d0 : S1.ReducesTo [0] S_
  bcast_S_S2x8000000 : S_.BroadcastsInDim S2x8000000 (![] : Fin 0 → Fin S2x8000000.rank)
  reducesTo_S2x8000000_S_d0_1 : S2x8000000.ReducesTo [0, 1] S_

variable [Facts]

def fn_part6 {F : FTy → Type} [FloatOps F] (main_arg1 : IVec S2x8000000 32) (main_v98 : IVec S_ 1) (main_v100 : IVec S2x8000000 1) (main_v101 : IVec S2x8000000 32) : IVec S_ 1 :=
  let main_v102 : IVec S2x8000000 1 := cmpi .slt main_arg1 main_v101
  let main_v103 : IVec S2x8000000 1 := andi main_v100 main_v102
  let main_c_40 : IVec S_ 1 := constantI S_ 1 1#1
  let main_v104 : IVec S_ 1 := (fun x v => Host.reduce IntOp.andi x v reducesTo_S2x8000000_S_d0_1 h_S_) main_v103 main_c_40
  let main_v105 : IVec S_ 1 := andi main_v98 main_v104
  main_v105

def fn_part5 {F : FTy → Type} [FloatOps F] (main_arg1 : IVec S2x8000000 32) (main_arg20 : FVec F S10 .f32) (main_arg21 : FVec F S10 .f32) (main_v83 : IVec S_ 1) (main_v84 : FVec F S10 .f32) (main_cst_32 : FVec F S_ .f32) : IVec S_ 1 :=
  let main_v85 : FVec F S10 .f32 := broadcastInDim S10 ![] bcast_S_S10 main_cst_32
  let main_v86 : IVec S10 1 := cmpf .olt main_v84 main_v85
  let main_c_33 : IVec S_ 1 := constantI S_ 1 1#1
  let main_v87 : IVec S_ 1 := (fun x v => Host.reduce IntOp.andi x v reducesTo_S10_S_d0 h_S_) main_v86 main_c_33
  let main_v88 : IVec S_ 1 := andi main_v83 main_v87
  let main_v89 : FVec F S10 .f32 := Host.absf main_arg20
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_v94 : FVec F S10 .f32 := Host.absf main_arg21
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_c_38 : IVec S_ 32 := constantI S_ 32 0#32
  let main_v99 : IVec S2x8000000 32 := broadcastInDim S2x8000000 ![] bcast_S_S2x8000000 main_c_38
  let main_v100 : IVec S2x8000000 1 := cmpi .sge main_arg1 main_v99
  let main_c_39 : IVec S_ 32 := constantI S_ 32 500000#32
  let main_v101 : IVec S2x8000000 32 := broadcastInDim S2x8000000 ![] bcast_S_S2x8000000 main_c_39
  fn_part6 (F := F) main_arg1 main_v98 main_v100 main_v101

def fn_part4 {F : FTy → Type} [FloatOps F] (main_arg1 : IVec S2x8000000 32) (main_arg16 : FVec F S10 .f32) (main_arg17 : FVec F S10 .f32) (main_arg18 : FVec F S10 .f32) (main_arg19 : FVec F S10 .f32) (main_arg20 : FVec F S10 .f32) (main_arg21 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S10 .f32 := Host.absf main_arg17
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S10 .f32 := Host.absf main_arg19
  let main_cst_32 : FVec F S_ .f32 := constant S_ .f32 0x7F800000#32
  fn_part5 (F := F) main_arg1 main_arg20 main_arg21 main_v83 main_v84 main_cst_32

def fn_part3 {F : FTy → Type} [FloatOps F] (main_arg1 : IVec S2x8000000 32) (main_arg13 : FVec F S1 .f32) (main_arg14 : FVec F S10 .f32) (main_arg15 : FVec F S10 .f32) (main_arg16 : FVec F S10 .f32) (main_arg17 : FVec F S10 .f32) (main_arg18 : FVec F S10 .f32) (main_arg19 : FVec F S10 .f32) (main_arg20 : FVec F S10 .f32) (main_arg21 : FVec F S10 .f32) (main_v48 : IVec S_ 1) (main_v49 : FVec F S1x10 .f32) (main_v50 : FVec F S1x10 .f32) : IVec S_ 1 :=
  let main_v51 : IVec S1x10 1 := cmpf .olt main_v49 main_v50
  let main_c_19 : IVec S_ 1 := constantI S_ 1 1#1
  let main_v52 : IVec S_ 1 := (fun x v => Host.reduce IntOp.andi x v reducesTo_S1x10_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg1 main_arg16 main_arg17 main_arg18 main_arg19 main_arg20 main_arg21 main_v63 main_v67

def fn_part2 {F : FTy → Type} [FloatOps F] (main_arg1 : IVec S2x8000000 32) (main_arg9 : FVec F S10 .f32) (main_arg10 : FVec F S10x10 .f32) (main_arg11 : FVec F S10 .f32) (main_arg12 : FVec F S1x10 .f32) (main_arg13 : FVec F S1 .f32) (main_arg14 : FVec F S10 .f32) (main_arg15 : FVec F S10 .f32) (main_arg16 : FVec F S10 .f32) (main_arg17 : FVec F S10 .f32) (main_arg18 : FVec F S10 .f32) (main_arg19 : FVec F S10 .f32) (main_arg20 : FVec F S10 .f32) (main_arg21 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10x10 .f32 := Host.absf main_arg10
  let main_cst_14 : FVec F S_ .f32 := constant S_ .f32 0x7F800000#32
  let main_v40 : FVec F S10x10 .f32 := broadcastInDim S10x10 ![] bcast_S_S10x10 main_cst_14
  let main_v41 : IVec S10x10 1 := cmpf .olt main_v39 main_v40
  let main_c_15 : IVec S_ 1 := constantI S_ 1 1#1
  let main_v42 : IVec S_ 1 := (fun x v => Host.reduce IntOp.andi x v reducesTo_S10x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S1x10 .f32 := Host.absf main_arg12
  let main_cst_18 : FVec F S_ .f32 := constant S_ .f32 0x7F800000#32
  let main_v50 : FVec F S1x10 .f32 := broadcastInDim S1x10 ![] bcast_S_S1x10 main_cst_18
  fn_part3 (F := F) main_arg1 main_arg13 main_arg14 main_arg15 main_arg16 main_arg17 main_arg18 main_arg19 main_arg20 main_arg21 main_v48 main_v49 main_v50

def fn_part1 {F : FTy → Type} [FloatOps F] (main_arg1 : IVec S2x8000000 32) (main_arg6 : FVec F S10x10 .f32) (main_arg7 : FVec F S10 .f32) (main_arg8 : FVec F S10x10 .f32) (main_arg9 : FVec F S10 .f32) (main_arg10 : FVec F S10x10 .f32) (main_arg11 : FVec F S10 .f32) (main_arg12 : FVec F S1x10 .f32) (main_arg13 : FVec F S1 .f32) (main_arg14 : FVec F S10 .f32) (main_arg15 : FVec F S10 .f32) (main_arg16 : FVec F S10 .f32) (main_arg17 : FVec F S10 .f32) (main_arg18 : FVec F S10 .f32) (main_arg19 : FVec F S10 .f32) (main_arg20 : FVec F S10 .f32) (main_arg21 : FVec F S10 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x10 .f32 := Host.absf main_arg6
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x10 .f32 := Host.absf main_arg8
  let main_cst_10 : FVec F S_ .f32 := constant S_ .f32 0x7F800000#32
  let main_v30 : FVec F S10x10 .f32 := broadcastInDim S10x10 ![] bcast_S_S10x10 main_cst_10
  let main_v31 : IVec S10x10 1 := cmpf .olt main_v29 main_v30
  let main_c_11 : IVec S_ 1 := constantI S_ 1 1#1
  let main_v32 : IVec S_ 1 := (fun x v => Host.reduce IntOp.andi x v reducesTo_S10x10_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_v33

def fn {F : FTy → Type} [FloatOps F] (main_arg0 : FVec F S500000x10 .f32) (main_arg1 : IVec S2x8000000 32) (main_arg2 : FVec F S8000000 .f32) (main_arg3 : IVec S500000 32) (main_arg4 : FVec F S10x10 .f32) (main_arg5 : FVec F S10 .f32) (main_arg6 : FVec F S10x10 .f32) (main_arg7 : FVec F S10 .f32) (main_arg8 : FVec F S10x10 .f32) (main_arg9 : FVec F S10 .f32) (main_arg10 : FVec F S10x10 .f32) (main_arg11 : FVec F S10 .f32) (main_arg12 : FVec F S1x10 .f32) (main_arg13 : FVec F S1 .f32) (main_arg14 : FVec F S10 .f32) (main_arg15 : FVec F S10 .f32) (main_arg16 : FVec F S10 .f32) (main_arg17 : FVec F S10 .f32) (main_arg18 : FVec F S10 .f32) (main_arg19 : FVec F S10 .f32) (main_arg20 : FVec F S10 .f32) (main_arg21 : FVec F S10 .f32) : IVec S_ 1 :=
  let main_v0 : FVec F S500000x10 .f32 := Host.absf main_arg0
  let main_cst : FVec F S_ .f32 := constant S_ .f32 0x7F800000#32
  let main_v1 : FVec F S500000x10 .f32 := broadcastInDim S500000x10 ![] bcast_S_S500000x10 main_cst
  let main_v2 : IVec S500000x10 1 := cmpf .olt main_v0 main_v1
  let main_c : IVec S_ 1 := constantI S_ 1 1#1
  let main_v3 : IVec S_ 1 := (fun x v => Host.reduce IntOp.andi x v reducesTo_S500000x10_S_d0_1 h_S_) main_v2 main_c
  let main_v4 : FVec F S8000000 .f32 := Host.absf main_arg2
  let main_cst_0 : FVec F S_ .f32 := constant S_ .f32 0x7F800000#32
  let main_v5 : FVec F S8000000 .f32 := broadcastInDim S8000000 ![] bcast_S_S8000000 main_cst_0
  let main_v6 : IVec S8000000 1 := cmpf .olt main_v4 main_v5
  let main_c_1 : IVec S_ 1 := constantI S_ 1 1#1
  let main_v7 : IVec S_ 1 := (fun x v => Host.reduce IntOp.andi x v reducesTo_S8000000_S_d0 h_S_) main_v6 main_c_1
  let main_v8 : IVec S_ 1 := andi main_v3 main_v7
  let main_v9 : FVec F S10x10 .f32 := Host.absf main_arg4
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  let main_v14 : FVec F S10 .f32 := Host.absf main_arg5
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S500000x10 : Shape := ⟨2, ![500000, 10]⟩
abbrev S2x8000000 : Shape := ⟨2, ![2, 8000000]⟩
abbrev S8000000 : Shape := ⟨1, ![8000000]⟩
abbrev S500000 : Shape := ⟨1, ![500000]⟩
abbrev S10x10 : Shape := ⟨2, ![10, 10]⟩
abbrev S10 : Shape := ⟨1, ![10]⟩
abbrev S1x10 : Shape := ⟨2, ![1, 10]⟩
abbrev S1 : Shape := ⟨1, ![1]⟩
abbrev S1x8000000 : Shape := ⟨2, ![1, 8000000]⟩
abbrev S_ : Shape := ⟨0, ![]⟩
abbrev S8000000x1 : Shape := ⟨2, ![8000000, 1]⟩
abbrev S1x1 : Shape := ⟨2, ![1, 1]⟩
abbrev S8000000x10 : Shape := ⟨2, ![8000000, 10]⟩
abbrev S500000x1 : Shape := ⟨2, ![500000, 1]⟩
abbrev S5000x1 : Shape := ⟨2, ![5000, 1]⟩
abbrev S5000x10 : Shape := ⟨2, ![5000, 10]⟩
abbrev S1x640 : Shape := ⟨2, ![1, 640]⟩
abbrev S640x10 : Shape := ⟨2, ![640, 10]⟩
abbrev S5000x640 : Shape := ⟨2, ![5000, 640]⟩
abbrev S640x1 : Shape := ⟨2, ![640, 1]⟩
abbrev S5000 : Shape := ⟨1, ![5000]⟩

abbrev nBuf : Space → Nat
  | .hbm => 94
  | .vmem => 29
  | .smem => 0
  | _ => 0

abbrev bufTy : (tb : Table) → Fin (tcTables nBuf tb) → BufTy
  | .hbm, ⟨0, _⟩ => ⟨S500000x10, .f32⟩
  | .hbm, ⟨1, _⟩ => ⟨S2x8000000, .i32⟩
  | .hbm, ⟨2, _⟩ => ⟨S8000000, .f32⟩
  | .hbm, ⟨3, _⟩ => ⟨S500000, .i32⟩
  | .hbm, ⟨4, _⟩ => ⟨S10x10, .f32⟩
  | .hbm, ⟨5, _⟩ => ⟨S10, .f32⟩
  | .hbm, ⟨6, _⟩ => ⟨S10x10, .f32⟩
  | .hbm, ⟨7, _⟩ => ⟨S10, .f32⟩
  | .hbm, ⟨8, _⟩ => ⟨S10x10, .f32⟩
  | .hbm, ⟨9, _⟩ => ⟨S10, .f32⟩
  | .hbm, ⟨10, _⟩ => ⟨S10x10, .f32⟩
  | .hbm, ⟨11, _⟩ => ⟨S10, .f32⟩
  | .hbm, ⟨12, _⟩ => ⟨S1x10, .f32⟩
  | .hbm, ⟨13, _⟩ => ⟨S1, .f32⟩
  | .hbm, ⟨14, _⟩ => ⟨S10, .f32⟩
  | .hbm, ⟨15, _⟩ => ⟨S10, .f32⟩
  | .hbm, ⟨16, _⟩ => ⟨S10, .f32⟩
  | .hbm, ⟨17, _⟩ => ⟨S10, .f32⟩
  | .hbm, ⟨18, _⟩ => ⟨S10, .f32⟩
  | .hbm, ⟨19, _⟩ => ⟨S10, .f32⟩
  | .hbm, ⟨20, _⟩ => ⟨S10, .f32⟩
  | .hbm, ⟨21, _⟩ => ⟨S10, .f32⟩
  | .hbm, ⟨22, _⟩ => ⟨S1x8000000, .i32⟩
  | .hbm, ⟨23, _⟩ => ⟨S8000000, .i32⟩
  | .hbm, ⟨24, _⟩ => ⟨S1x8000000, .i32⟩
  | .hbm, ⟨25, _⟩ => ⟨S8000000, .i32⟩
  | .hbm, ⟨26, _⟩ => ⟨S_, .i32⟩
  | .hbm, ⟨27, _⟩ => ⟨S8000000, .i32⟩
  | .hbm, ⟨28, _⟩ => ⟨S8000000, .i1⟩
  | .hbm, ⟨29, _⟩ => ⟨S_, .i32⟩
  | .hbm, ⟨30, _⟩ => ⟨S8000000, .i32⟩
  | .hbm, ⟨31, _⟩ => ⟨S8000000, .i32⟩
  | .hbm, ⟨32, _⟩ => ⟨S8000000, .i32⟩
  | .hbm, ⟨33, _⟩ => ⟨S8000000x1, .i32⟩
  | .hbm, ⟨34, _⟩ => ⟨S1, .i32⟩
  | .hbm, ⟨35, _⟩ => ⟨S_, .i32⟩
  | .hbm, ⟨36, _⟩ => ⟨S8000000x1, .i32⟩
  | .hbm, ⟨37, _⟩ => ⟨S8000000x1, .i1⟩
  | .hbm, ⟨38, _⟩ => ⟨S1x1, .i32⟩
  | .hbm, ⟨39, _⟩ => ⟨S8000000x1, .i32⟩
  | .hbm, ⟨40, _⟩ => ⟨S8000000x1, .i1⟩
  | .hbm, ⟨41, _⟩ => ⟨S8000000x1, .i1⟩
  | .hbm, ⟨42, _⟩ => ⟨S_, .i1⟩
  | .hbm, ⟨43, _⟩ => ⟨S8000000, .i1⟩
  | .hbm, ⟨44, _⟩ => ⟨S8000000x10, .f32⟩
  | .hbm, ⟨45, _⟩ => ⟨S8000000x10, .i1⟩
  | .hbm, ⟨46, _⟩ => ⟨S_, .f32⟩
  | .hbm, ⟨47, _⟩ => ⟨S8000000x10, .f32⟩
  | .hbm, ⟨48, _⟩ => ⟨S8000000x10, .f32⟩
  | .hbm, ⟨49, _⟩ => ⟨S_, .i32⟩
  | .hbm, ⟨50, _⟩ => ⟨S8000000, .i32⟩
  | .hbm, ⟨51, _⟩ => ⟨S8000000, .i1⟩
  | .hbm, ⟨52, _⟩ => ⟨S_, .i32⟩
  | .hbm, ⟨53, _⟩ => ⟨S8000000, .i32⟩
  | .hbm, ⟨54, _⟩ => ⟨S8000000, .i32⟩
  | .hbm, ⟨55, _⟩ => ⟨S8000000, .i32⟩
  | .hbm, ⟨56, _⟩ => ⟨S8000000x1, .i32⟩
  | .hbm, ⟨57, _⟩ => ⟨S1, .i32⟩
  | .hbm, ⟨58, _⟩ => ⟨S_, .i32⟩
  | .hbm, ⟨59, _⟩ => ⟨S8000000x1, .i32⟩
  | .hbm, ⟨60, _⟩ => ⟨S8000000x1, .i1⟩
  | .hbm, ⟨61, _⟩ => ⟨S1x1, .i32⟩
  | .hbm, ⟨62, _⟩ => ⟨S8000000x1, .i32⟩
  | .hbm, ⟨63, _⟩ => ⟨S8000000x1, .i1⟩
  | .hbm, ⟨64, _⟩ => ⟨S8000000x1, .i1⟩
  | .hbm, ⟨65, _⟩ => ⟨S_, .i1⟩
  | .hbm, ⟨66, _⟩ => ⟨S8000000, .i1⟩
  | .hbm, ⟨67, _⟩ => ⟨S8000000, .i32⟩
  | .hbm, ⟨68, _⟩ => ⟨S_, .i32⟩
  | .hbm, ⟨69, _⟩ => ⟨S8000000, .i32⟩
  | .hbm, ⟨70, _⟩ => ⟨S8000000, .i32⟩
  | .hbm, ⟨71, _⟩ => ⟨S_, .f32⟩
  | .hbm, ⟨72, _⟩ => ⟨S500000x1, .f32⟩
  | .hbm, ⟨73, _⟩ => ⟨S_, .f32⟩
  | .hbm, ⟨74, _⟩ => ⟨S5000x1, .f32⟩
  | .hbm, ⟨75, _⟩ => ⟨S500000x1, .i32⟩
  | .hbm, ⟨76, _⟩ => ⟨S5000x1, .f32⟩
  | .hbm, ⟨77, _⟩ => ⟨S1x8000000, .i32⟩
  | .hbm, ⟨78, _⟩ => ⟨S1x8000000, .f32⟩
  | .hbm, ⟨79, _⟩ => ⟨S5000x10, .f32⟩
  | .hbm, ⟨80, _⟩ => ⟨S1x10, .f32⟩
  | .hbm, ⟨81, _⟩ => ⟨S1x10, .f32⟩
  | .hbm, ⟨82, _⟩ => ⟨S1x10, .f32⟩
  | .hbm, ⟨83, _⟩ => ⟨S1x10, .f32⟩
  | .hbm, ⟨84, _⟩ => ⟨S1x1, .f32⟩
  | .hbm, ⟨85, _⟩ => ⟨S1x10, .f32⟩
  | .hbm, ⟨86, _⟩ => ⟨S1x10, .f32⟩
  | .hbm, ⟨87, _⟩ => ⟨S1x10, .f32⟩
  | .hbm, ⟨88, _⟩ => ⟨S1x10, .f32⟩
  | .hbm, ⟨89, _⟩ => ⟨S1x10, .f32⟩
  | .hbm, ⟨90, _⟩ => ⟨S1x10, .f32⟩
  | .hbm, ⟨91, _⟩ => ⟨S1x10, .f32⟩
  | .hbm, ⟨92, _⟩ => ⟨S1x10, .f32⟩
  | .hbm, ⟨93, _⟩ => ⟨S5000x1, .f32⟩
  | .local _ .vmem, ⟨0, _⟩ => ⟨S1x640, .i32⟩
  | .local _ .vmem, ⟨1, _⟩ => ⟨S1x640, .i32⟩
  | .local _ .vmem, ⟨2, _⟩ => ⟨S1x640, .f32⟩
  | .local _ .vmem, ⟨3, _⟩ => ⟨S1x640, .f32⟩
  | .local _ .vmem, ⟨4, _⟩ => ⟨S640x10, .f32⟩
  | .local _ .vmem, ⟨5, _⟩ => ⟨S640x10, .f32⟩
  | .local _ .vmem, ⟨6, _⟩ => ⟨S5000x10, .f32⟩
  | .local _ .vmem, ⟨7, _⟩ => ⟨S5000x10, .f32⟩
  | .local _ .vmem, ⟨8, _⟩ => ⟨S5000x10, .f32⟩
  | .local _ .vmem, ⟨9, _⟩ => ⟨S5000x1, .f32⟩
  | .local _ .vmem, ⟨10, _⟩ => ⟨S10x10, .f32⟩
  | .local _ .vmem, ⟨11, _⟩ => ⟨S1x10, .f32⟩
  | .local _ .vmem, ⟨12, _⟩ => ⟨S10x10, .f32⟩
  | .local _ .vmem, ⟨13, _⟩ => ⟨S1x10, .f32⟩
  | .local _ .vmem, ⟨14, _⟩ => ⟨S10x10, .f32⟩
  | .local _ .vmem, ⟨15, _⟩ => ⟨S1x10, .f32⟩
  | .local _ .vmem, ⟨16, _⟩ => ⟨S10x10, .f32⟩
  | .local _ .vmem, ⟨17, _⟩ => ⟨S1x10, .f32⟩
  | .local _ .vmem, ⟨18, _⟩ => ⟨S1x10, .f32⟩
  | .local _ .vmem, ⟨19, _⟩ => ⟨S1x1, .f32⟩
  | .local _ .vmem, ⟨20, _⟩ => ⟨S1x10, .f32⟩
  | .local _ .vmem, ⟨21, _⟩ => ⟨S1x10, .f32⟩
  | .local _ .vmem, ⟨22, _⟩ => ⟨S1x10, .f32⟩
  | .local _ .vmem, ⟨23, _⟩ => ⟨S1x10, .f32⟩
  | .local _ .vmem, ⟨24, _⟩ => ⟨S1x10, .f32⟩
  | .local _ .vmem, ⟨25, _⟩ => ⟨S1x10, .f32⟩
  | .local _ .vmem, ⟨26, _⟩ => ⟨S1x10, .f32⟩
  | .local _ .vmem, ⟨27, _⟩ => ⟨S1x10, .f32⟩
  | .local _ .vmem, ⟨28, _⟩ => ⟨S5000x1, .f32⟩
  | _, _ => ⟨S500000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v4 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_c_4 : Ref sig .tc := ⟨.hbm, 68, rfl⟩
abbrev main_call1_v14 : Ref sig .tc := ⟨.hbm, 69, rfl⟩
abbrev main_v5 : Ref sig .tc := ⟨.hbm, 70, rfl⟩
abbrev main_cst : Ref sig .tc := ⟨.hbm, 71, rfl⟩
abbrev main_v6 : Ref sig .tc := ⟨.hbm, 72, rfl⟩
abbrev main_cst_0 : Ref sig .tc := ⟨.hbm, 73, rfl⟩
abbrev main_v7 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc1_stg15_0 : Ref sig .tc := ⟨.vmem, 23, rfl⟩
abbrev cc1_stg16_0 : Ref sig .tc := ⟨.vmem, 24, rfl⟩
abbrev cc1_stg17_0 : Ref sig .tc := ⟨.vmem, 25, rfl⟩
abbrev cc1_stg18_0 : Ref sig .tc := ⟨.vmem, 26, rfl⟩
abbrev cc1_stg19_0 : Ref sig .tc := ⟨.vmem, 27, rfl⟩
abbrev cc1_stg20_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem20_0 : DmaSem sig := 27

abbrev nD : Nat := 1
abbrev τ : Topo := Topo.v7x

variable {F : FTy → Type} [FloatOps F]

abbrev grid0 : Pipeline.Grid := ⟨1, ![12500], ![false]⟩

def k0_cond2 (i : grid0.Coords) : BitVec 1 :=
  let arg0 : BitVec 32 := BitVec.ofNat 32 (i 0).val
  let c12499_i32 : BitVec 32 := 12499#32
  let v25 : BitVec 1 := Scalar.cmpi .eq arg0 c12499_i32
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5000x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S5000x10 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S5000x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S10x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S10x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x10 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x10 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x10 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x10 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x10 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x10 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x10 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x10 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x10 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x10 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S5000x1 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S8000000x1 : S_.BroadcastsInDim S8000000x1 (![] : Fin 0 → Fin S8000000x1.rank)
  bcast_S1_S1x1_1 : S1.BroadcastsInDim S1x1 (![1] : Fin 1 → Fin S1x1.rank)
  bcast_S1x1_S8000000x1_0_1 : S1x1.BroadcastsInDim S8000000x1 (![0, 1] : Fin 2 → Fin S8000000x1.rank)
  reducesTo_S8000000x1_S8000000_d1 : S8000000x1.ReducesTo [1] S8000000
  h_S_ : 0 < S_.numel
  bcast_S8000000_S8000000x10_0 : S8000000.BroadcastsInDim S8000000x10 (![0] : Fin 1 → Fin S8000000x10.rank)
  bcast_S_S8000000x10 : S_.BroadcastsInDim S8000000x10 (![] : Fin 0 → Fin S8000000x10.rank)
  bcast_S_S500000x1 : S_.BroadcastsInDim S500000x1 (![] : Fin 0 → Fin S500000x1.rank)
  bcast_S_S5000x1 : S_.BroadcastsInDim S5000x1 (![] : Fin 0 → Fin S5000x1.rank)
  bcast_S500000_S500000x1_0 : S500000.BroadcastsInDim S500000x1 (![0] : Fin 1 → Fin S500000x1.rank)
  shapeCasts_S8000000_S1x8000000 : S8000000.ShapeCasts S1x8000000
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  inb_S1x640_S1x640_0_0 : ∀ a, (![0, 0] : Fin 2 → Nat) a + S1x640.size a ≤ S1x640.size a
  h_S1x640 : 0 < S1x640.numel
  shapeCasts_S1x640_S1x640 : S1x640.ShapeCasts S1x640
  iota_S5000x640_d0_w32 : S5000x640.Iotas .tc 32 [0]
  broadcasts_S1x640_S5000x640 : S1x640.Broadcasts S5000x640
  natLt_1_32 : 1 < 32
  bitsLt_bf16_f32 : FTy.bits .bf16 < FTy.bits .f32
  shapeCasts_S1x640_S640x1 : S1x640.ShapeCasts S640x1
  inb_S640x10_S640x10_0_0 : ∀ a, (![0, 0] : Fin 2 → Nat) a + S640x10.size a ≤ S640x10.size a
  h_S640x10 : 0 < S640x10.numel
  shapeCasts_S640x10_S640x10 : S640x10.ShapeCasts S640x10
  broadcasts_S640x1_S640x10 : S640x1.Broadcasts S640x10
  shapeCasts_S10_S1x10 : S10.ShapeCasts S1x10
  shapeCasts_S1_S1x1 : S1.ShapeCasts S1x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x10 : S5000x1.Broadcasts S5000x10
  inb_S10x10_S10x10_0_0 : ∀ a, (![0, 0] : Fin 2 → Nat) a + S10x10.size a ≤ S10x10.size a
  h_S10x10 : 0 < S10x10.numel
  transposes_S10x10_p1_0_S10x10 : S10x10.Transposes [1, 0] S10x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S10 : S5000x10.Reduces [0] S10
  reduces_S5000x10_S5000 : S5000x10.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  gather_S500000x10_S8000000x1_S8000000x10_1_0_n_n_0_1_110_wf : GatherDims.WF S500000x10 S8000000x1 S8000000x10 [1] [0] [] [0] [] 1 ![1, 10]
  gather_S500000_S8000000x1_S8000000_n_0_n_n_0_1_1_wf : GatherDims.WF S500000 S8000000x1 S8000000 [] [0] [] [0] [] 1 ![1]
  scatter_S5000x1_S500000x1_S500000x1_1_0_0_1_wf : ScatterDims.WF S5000x1 S500000x1 S500000x1 [1] [0] [0] 1
  dot_S5000x640_S640x10_S5000x10_1_0_0_1_n_n_wf : DotDims.WF S5000x640 S640x10 S5000x10 [1] [0] [0] [1] [] []
  dot_S5000x10_S10x10_S5000x10_1_0_0_1_n_n_wf : DotDims.WF S5000x10 S10x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x640.size a ≤ S1x8000000.size a
  hwx0_0 : ∀ i : grid0.Coords, EltTy.bits .i32 = 32 ∨ (Rect.block (s := S1x8000000) S1x640.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x640.size a ≤ S1x8000000.size a
  hwx0_1 : ∀ i : grid0.Coords, EltTy.bits .f32 = 32 ∨ (Rect.block (s := S1x8000000) S1x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S640x10.size a ≤ S8000000x10.size a
  hwx0_2 : ∀ i : grid0.Coords, EltTy.bits .f32 = 32 ∨ (Rect.block (s := S8000000x10) S640x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5000x10.size a ≤ S5000x10.size a
  hwx0_3 : ∀ i : grid0.Coords, EltTy.bits .f32 = 32 ∨ (Rect.block (s := S5000x10) S5000x10.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S5000x10.size a ≤ S5000x10.size a
  hwx1_0 : ∀ i : grid1.Coords, EltTy.bits .f32 = 32 ∨ (Rect.block (s := S5000x10) S5000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S5000x1.size a
  hwx1_1 : ∀ i : grid1.Coords, EltTy.bits .f32 = 32 ∨ (Rect.block (s := S5000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10x10.size a ≤ S10x10.size a
  hwx1_2 : ∀ i : grid1.Coords, EltTy.bits .f32 = 32 ∨ (Rect.block (s := S10x10) S10x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10.size a ≤ S1x10.size a
  hwx1_3 : ∀ i : grid1.Coords, EltTy.bits .f32 = 32 ∨ (Rect.block (s := S1x10) S1x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S10x10.size a ≤ S10x10.size a
  hwx1_4 : ∀ i : grid1.Coords, EltTy.bits .f32 = 32 ∨ (Rect.block (s := S10x10) S10x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x10.size a ≤ S1x10.size a
  hwx1_5 : ∀ i : grid1.Coords, EltTy.bits .f32 = 32 ∨ (Rect.block (s := S1x10) S1x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S10x10.size a ≤ S10x10.size a
  hwx1_6 : ∀ i : grid1.Coords, EltTy.bits .f32 = 32 ∨ (Rect.block (s := S10x10) S10x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x10.size a ≤ S1x10.size a
  hwx1_7 : ∀ i : grid1.Coords, EltTy.bits .f32 = 32 ∨ (Rect.block (s := S1x10) S1x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S10x10.size a ≤ S10x10.size a
  hwx1_8 : ∀ i : grid1.Coords, EltTy.bits .f32 = 32 ∨ (Rect.block (s := S10x10) S10x10.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x10.size a ≤ S1x10.size a
  hwx1_9 : ∀ i : grid1.Coords, EltTy.bits .f32 = 32 ∨ (Rect.block (s := S1x10) S1x10.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x10.size a ≤ S1x10.size a
  hwx1_10 : ∀ i : grid1.Coords, EltTy.bits .f32 = 32 ∨ (Rect.block (s := S1x10) S1x10.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x10.size a ≤ S1x10.size a
  hwx1_12 : ∀ i : grid1.Coords, EltTy.bits .f32 = 32 ∨ (Rect.block (s := S1x10) S1x10.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x10.size a ≤ S1x10.size a
  hwx1_13 : ∀ i : grid1.Coords, EltTy.bits .f32 = 32 ∨ (Rect.block (s := S1x10) S1x10.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x10.size a ≤ S1x10.size a
  hwx1_14 : ∀ i : grid1.Coords, EltTy.bits .f32 = 32 ∨ (Rect.block (s := S1x10) S1x10.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x10.size a ≤ S1x10.size a
  hwx1_15 : ∀ i : grid1.Coords, EltTy.bits .f32 = 32 ∨ (Rect.block (s := S1x10) S1x10.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x10.size a ≤ S1x10.size a
  hwx1_16 : ∀ i : grid1.Coords, EltTy.bits .f32 = 32 ∨ (Rect.block (s := S1x10) S1x10.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x10.size a ≤ S1x10.size a
  hwx1_17 : ∀ i : grid1.Coords, EltTy.bits .f32 = 32 ∨ (Rect.block (s := S1x10) S1x10.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x10.size a ≤ S1x10.size a
  hwx1_18 : ∀ i : grid1.Coords, EltTy.bits .f32 = 32 ∨ (Rect.block (s := S1x10) S1x10.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S1x10.size a ≤ S1x10.size a
  hwx1_19 : ∀ i : grid1.Coords, EltTy.bits .f32 = 32 ∨ (Rect.block (s := S1x10) S1x10.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S5000x1.size a ≤ S5000x1.size a
  hwx1_20 : ∀ i : grid1.Coords, EltTy.bits .f32 = 32 ∨ (Rect.block (s := S5000x1) S5000x1.size (cc1_transform_20 i) (hinb1_20 i)).WholeWords (EltTy.packing .f32)

variable [Facts₀]

def gather_S500000x10_S8000000x1_S8000000x10_1_0_n_n_0_1_110 : GatherDims S500000x10 S8000000x1 S8000000x10 where
  offsetDims := [1]
  collapsedSliceDims := [0]
  operandBatchingDims := []
  startIndicesBatchingDims := []
  startIndexMap := [0]
  indexVectorDim := 1
  sliceSizes := ![1, 10]
  wf := gather_S500000x10_S8000000x1_S8000000x10_1_0_n_n_0_1_110_wf
def gather_S500000_S8000000x1_S8000000_n_0_n_n_0_1_1 : GatherDims S500000 S8000000x1 S8000000 where
  offsetDims := []
  collapsedSliceDims := [0]
  operandBatchingDims := []
  startIndicesBatchingDims := []
  startIndexMap := [0]
  indexVectorDim := 1
  sliceSizes := ![1]
  wf := gather_S500000_S8000000x1_S8000000_n_0_n_n_0_1_1_wf
def scatter_S5000x1_S500000x1_S500000x1_1_0_0_1 : ScatterDims S5000x1 S500000x1 S500000x1 where
  updateWindowDims := [1]
  insertedWindowDims := [0]
  scatterDimsToOperandDims := [0]
  indexVectorDim := 1
  wf := scatter_S5000x1_S500000x1_S500000x1_1_0_0_1_wf
def dot_S5000x640_S640x10_S5000x10_1_0_0_1_n_n : DotDims S5000x640 S640x10 S5000x10 where
  lhsContracting := [1]
  rhsContracting := [0]
  lhsNonContracting := [0]
  rhsNonContracting := [1]
  lhsBatch := []
  rhsBatch := []
  wf := dot_S5000x640_S640x10_S5000x10_1_0_0_1_n_n_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf

abbrev win0_0 : Pipeline.Window sig grid0 :=
  Pipeline.Window.ofSpec (Memref.whole main_v10) S1x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S640x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x10.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v12) S5000x10.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S10x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S10x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S10x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S10x10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16) S1x10.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg12) S1x10.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v17) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v18) S1x10.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v19) S1x10.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v20) S1x10.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v21) S1x10.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v22) S1x10.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v23) S1x10.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v24) S1x10.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v25) S1x10.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v26) S5000x1.size cc1_transform_20 reads1_20 true true 1 stage1_20 sem1_20
    hrank1 hreads1_20 hinb1_20 nbuf1_20 (Memref.isWhole_whole _) hwx1_20 hstage1_20

abbrev win1 : Fin 21 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | ⟨_ + 21, h⟩ => absurd h (Nat.not_lt.2 (Nat.le_add_left _ _))
abbrev spec1 : Fin 21 → Pipeline.WinSpec sig grid1.rank := fun w => (win1 w).toWinSpec

class Facts : Prop extends Facts₀ where

variable [Facts]
-- ==== ReferenceIdeal.lean ====
abbrev S500000x10 : Shape := ⟨2, ![500000, 10]⟩
abbrev S2x8000000 : Shape := ⟨2, ![2, 8000000]⟩
abbrev S8000000 : Shape := ⟨1, ![8000000]⟩
abbrev S500000 : Shape := ⟨1, ![500000]⟩
abbrev S10x10 : Shape := ⟨2, ![10, 10]⟩
abbrev S10 : Shape := ⟨1, ![10]⟩
abbrev S1x10 : Shape := ⟨2, ![1, 10]⟩
abbrev S1 : Shape := ⟨1, ![1]⟩
abbrev S1x8000000 : Shape := ⟨2, ![1, 8000000]⟩
abbrev S_ : Shape := ⟨0, ![]⟩
abbrev S8000000x1 : Shape := ⟨2, ![8000000, 1]⟩
abbrev S8000000x10 : Shape := ⟨2, ![8000000, 10]⟩
abbrev S5000x10 : Shape := ⟨2, ![5000, 10]⟩
abbrev S500000x1 : Shape := ⟨2, ![500000, 1]⟩
abbrev S5000x1 : Shape := ⟨2, ![5000, 1]⟩
abbrev S10x1 : Shape := ⟨2, ![10, 1]⟩
abbrev S1x1 : Shape := ⟨2, ![1, 1]⟩

abbrev nBuf : Space → Nat
  | .hbm => 271
  | .vmem => 0
  | .smem => 0
  | _ => 0

abbrev hbmTy0_0 (i : Nat) : BufTy := match i % 128 with
  | 0 => ⟨S500000x10, .f32⟩
  | 1 => ⟨S2x8000000, .i32⟩
  | 2 => ⟨S8000000, .f32⟩
  | 3 => ⟨S500000, .i32⟩
  | 4 => ⟨S10x10, .f32⟩
  | 5 => ⟨S10, .f32⟩
  | 6 => ⟨S10x10, .f32⟩
  | 7 => ⟨S10, .f32⟩
  | 8 => ⟨S10x10, .f32⟩
  | 9 => ⟨S10, .f32⟩
  | 10 => ⟨S10x10, .f32⟩
  | 11 => ⟨S10, .f32⟩
  | 12 => ⟨S1x10, .f32⟩
  | 13 => ⟨S1, .f32⟩
  | 14 => ⟨S10, .f32⟩
  | 15 => ⟨S10, .f32⟩
  | 16 => ⟨S10, .f32⟩
  | 17 => ⟨S10, .f32⟩
  | 18 => ⟨S10, .f32⟩
  | 19 => ⟨S10, .f32⟩
  | 20 => ⟨S10, .f32⟩
  | 21 => ⟨S10, .f32⟩
  | 22 => ⟨S1x8000000, .i32⟩
  | 23 => ⟨S8000000, .i32⟩
  | 24 => ⟨S1x8000000, .i32⟩
  | 25 => ⟨S8000000, .i32⟩
  | 26 => ⟨S_, .i32⟩
  | 27 => ⟨S8000000, .i32⟩
  | 28 => ⟨S8000000, .i1⟩
  | 29 => ⟨S_, .i32⟩
  | 30 => ⟨S8000000, .i32⟩
  | 31 => ⟨S8000000, .i32⟩
  | 32 => ⟨S8000000, .i32⟩
  | 33 => ⟨S8000000x1, .i32⟩
  | 34 => ⟨S8000000x10, .f32⟩
  | 35 => ⟨S8000000x1, .f32⟩
  | 36 => ⟨S8000000x10, .f32⟩
  | 37 => ⟨S8000000x10, .f32⟩
  | 38 => ⟨S_, .f32⟩
  | 39 => ⟨S500000x10, .f32⟩
  | 40 => ⟨S8000000x1, .i32⟩
  | 41 => ⟨S500000x10, .f32⟩
  | 42 => ⟨S_, .f32⟩
  | 43 => ⟨S5000x10, .f32⟩
  | 44 => ⟨S500000x1, .i32⟩
  | 45 => ⟨S5000x10, .f32⟩
  | 46 => ⟨S_, .f32⟩
  | 47 => ⟨S500000x1, .f32⟩
  | 48 => ⟨S_, .f32⟩
  | 49 => ⟨S5000x1, .f32⟩
  | 50 => ⟨S500000x1, .i32⟩
  | 51 => ⟨S5000x1, .f32⟩
  | 52 => ⟨S_, .f32⟩
  | 53 => ⟨S5000x1, .f32⟩
  | 54 => ⟨S5000x1, .f32⟩
  | 55 => ⟨S5000x10, .f32⟩
  | 56 => ⟨S5000x10, .f32⟩
  | 57 => ⟨S10x10, .f32⟩
  | 58 => ⟨S5000x10, .f32⟩
  | 59 => ⟨S1x10, .f32⟩
  | 60 => ⟨S5000x10, .f32⟩
  | 61 => ⟨S5000x10, .f32⟩
  | 62 => ⟨S_, .f32⟩
  | 63 => ⟨S10, .f32⟩
  | 64 => ⟨S_, .f32⟩
  | 65 => ⟨S10, .f32⟩
  | 66 => ⟨S10, .f32⟩
  | 67 => ⟨S_, .i32⟩
  | 68 => ⟨S_, .f32⟩
  | 69 => ⟨S10, .f32⟩
  | 70 => ⟨S1x10, .f32⟩
  | 71 => ⟨S_, .f32⟩
  | 72 => ⟨S1x10, .f32⟩
  | 73 => ⟨S1x10, .f32⟩
  | 74 => ⟨S5000x10, .f32⟩
  | 75 => ⟨S5000x10, .f32⟩
  | 76 => ⟨S5000x10, .f32⟩
  | 77 => ⟨S_, .f32⟩
  | 78 => ⟨S_, .f32⟩
  | 79 => ⟨S_, .f32⟩
  | 80 => ⟨S_, .f32⟩
  | 81 => ⟨S10, .f32⟩
  | 82 => ⟨S10, .f32⟩
  | 83 => ⟨S10, .f32⟩
  | 84 => ⟨S_, .f32⟩
  | 85 => ⟨S_, .i1⟩
  | 86 => ⟨S_, .f32⟩
  | 87 => ⟨S_, .f32⟩
  | 88 => ⟨S10, .f32⟩
  | 89 => ⟨S10, .f32⟩
  | 90 => ⟨S1x10, .f32⟩
  | 91 => ⟨S5000x10, .f32⟩
  | 92 => ⟨S5000x10, .f32⟩
  | 93 => ⟨S1x10, .f32⟩
  | 94 => ⟨S5000x10, .f32⟩
  | 95 => ⟨S5000x10, .f32⟩
  | 96 => ⟨S_, .f32⟩
  | 97 => ⟨S10, .f32⟩
  | 98 => ⟨S10, .f32⟩
  | 99 => ⟨S10, .f32⟩
  | 100 => ⟨S1x10, .f32⟩
  | 101 => ⟨S5000x10, .f32⟩
  | 102 => ⟨S5000x10, .f32⟩
  | 103 => ⟨S1x10, .f32⟩
  | 104 => ⟨S5000x10, .f32⟩
  | 105 => ⟨S5000x10, .f32⟩
  | 106 => ⟨S_, .f32⟩
  | 107 => ⟨S5000x10, .f32⟩
  | 108 => ⟨S5000x10, .f32⟩
  | 109 => ⟨S10x10, .f32⟩
  | 110 => ⟨S5000x10, .f32⟩
  | 111 => ⟨S1x10, .f32⟩
  | 112 => ⟨S5000x10, .f32⟩
  | 113 => ⟨S5000x10, .f32⟩
  | 114 => ⟨S_, .f32⟩
  | 115 => ⟨S10, .f32⟩
  | 116 => ⟨S_, .f32⟩
  | 117 => ⟨S10, .f32⟩
  | 118 => ⟨S10, .f32⟩
  | 119 => ⟨S_, .i32⟩
  | 120 => ⟨S_, .f32⟩
  | 121 => ⟨S10, .f32⟩
  | 122 => ⟨S1x10, .f32⟩
  | 123 => ⟨S_, .f32⟩
  | 124 => ⟨S1x10, .f32⟩
  | 125 => ⟨S1x10, .f32⟩
  | 126 => ⟨S5000x10, .f32⟩
  | 127 => ⟨S5000x10, .f32⟩
  | _ => ⟨S500000x10, .f32⟩

abbrev hbmTy0_1 (i : Nat) : BufTy := match i % 128 with
  | 0 => ⟨S5000x10, .f32⟩
  | 1 => ⟨S_, .f32⟩
  | 2 => ⟨S_, .f32⟩
  | 3 => ⟨S_, .f32⟩
  | 4 => ⟨S_, .f32⟩
  | 5 => ⟨S10, .f32⟩
  | 6 => ⟨S10, .f32⟩
  | 7 => ⟨S10, .f32⟩
  | 8 => ⟨S_, .f32⟩
  | 9 => ⟨S_, .i1⟩
  | 10 => ⟨S_, .f32⟩
  | 11 => ⟨S_, .f32⟩
  | 12 => ⟨S10, .f32⟩
  | 13 => ⟨S10, .f32⟩
  | 14 => ⟨S1x10, .f32⟩
  | 15 => ⟨S5000x10, .f32⟩
  | 16 => ⟨S5000x10, .f32⟩
  | 17 => ⟨S1x10, .f32⟩
  | 18 => ⟨S5000x10, .f32⟩
  | 19 => ⟨S5000x10, .f32⟩
  | 20 => ⟨S_, .f32⟩
  | 21 => ⟨S10, .f32⟩
  | 22 => ⟨S10, .f32⟩
  | 23 => ⟨S10, .f32⟩
  | 24 => ⟨S1x10, .f32⟩
  | 25 => ⟨S5000x10, .f32⟩
  | 26 => ⟨S5000x10, .f32⟩
  | 27 => ⟨S1x10, .f32⟩
  | 28 => ⟨S5000x10, .f32⟩
  | 29 => ⟨S5000x10, .f32⟩
  | 30 => ⟨S_, .f32⟩
  | 31 => ⟨S5000x10, .f32⟩
  | 32 => ⟨S5000x10, .f32⟩
  | 33 => ⟨S10x10, .f32⟩
  | 34 => ⟨S5000x10, .f32⟩
  | 35 => ⟨S1x10, .f32⟩
  | 36 => ⟨S5000x10, .f32⟩
  | 37 => ⟨S5000x10, .f32⟩
  | 38 => ⟨S_, .f32⟩
  | 39 => ⟨S10, .f32⟩
  | 40 => ⟨S_, .f32⟩
  | 41 => ⟨S10, .f32⟩
  | 42 => ⟨S10, .f32⟩
  | 43 => ⟨S_, .i32⟩
  | 44 => ⟨S_, .f32⟩
  | 45 => ⟨S10, .f32⟩
  | 46 => ⟨S1x10, .f32⟩
  | 47 => ⟨S_, .f32⟩
  | 48 => ⟨S1x10, .f32⟩
  | 49 => ⟨S1x10, .f32⟩
  | 50 => ⟨S5000x10, .f32⟩
  | 51 => ⟨S5000x10, .f32⟩
  | 52 => ⟨S5000x10, .f32⟩
  | 53 => ⟨S_, .f32⟩
  | 54 => ⟨S_, .f32⟩
  | 55 => ⟨S_, .f32⟩
  | 56 => ⟨S_, .f32⟩
  | 57 => ⟨S10, .f32⟩
  | 58 => ⟨S10, .f32⟩
  | 59 => ⟨S10, .f32⟩
  | 60 => ⟨S_, .f32⟩
  | 61 => ⟨S_, .i1⟩
  | 62 => ⟨S_, .f32⟩
  | 63 => ⟨S_, .f32⟩
  | 64 => ⟨S10, .f32⟩
  | 65 => ⟨S10, .f32⟩
  | 66 => ⟨S1x10, .f32⟩
  | 67 => ⟨S5000x10, .f32⟩
  | 68 => ⟨S5000x10, .f32⟩
  | 69 => ⟨S1x10, .f32⟩
  | 70 => ⟨S5000x10, .f32⟩
  | 71 => ⟨S5000x10, .f32⟩
  | 72 => ⟨S_, .f32⟩
  | 73 => ⟨S10, .f32⟩
  | 74 => ⟨S10, .f32⟩
  | 75 => ⟨S10, .f32⟩
  | 76 => ⟨S1x10, .f32⟩
  | 77 => ⟨S5000x10, .f32⟩
  | 78 => ⟨S5000x10, .f32⟩
  | 79 => ⟨S1x10, .f32⟩
  | 80 => ⟨S5000x10, .f32⟩
  | 81 => ⟨S5000x10, .f32⟩
  | 82 => ⟨S_, .f32⟩
  | 83 => ⟨S5000x10, .f32⟩
  | 84 => ⟨S5000x10, .f32⟩
  | 85 => ⟨S10x10, .f32⟩
  | 86 => ⟨S5000x10, .f32⟩
  | 87 => ⟨S1x10, .f32⟩
  | 88 => ⟨S5000x10, .f32⟩
  | 89 => ⟨S5000x10, .f32⟩
  | 90 => ⟨S_, .f32⟩
  | 91 => ⟨S10, .f32⟩
  | 92 => ⟨S_, .f32⟩
  | 93 => ⟨S10, .f32⟩
  | 94 => ⟨S10, .f32⟩
  | 95 => ⟨S_, .i32⟩
  | 96 => ⟨S_, .f32⟩
  | 97 => ⟨S10, .f32⟩
  | 98 => ⟨S1x10, .f32⟩
  | 99 => ⟨S_, .f32⟩
  | 100 => ⟨S1x10, .f32⟩
  | 101 => ⟨S1x10, .f32⟩
  | 102 => ⟨S5000x10, .f32⟩
  | 103 => ⟨S5000x10, .f32⟩
  | 104 => ⟨S5000x10, .f32⟩
  | 105 => ⟨S_, .f32⟩
  | 106 => ⟨S_, .f32⟩
  | 107 => ⟨S_, .f32⟩
  | 108 => ⟨S_, .f32⟩
  | 109 => ⟨S10, .f32⟩
  | 110 => ⟨S10, .f32⟩
  | 111 => ⟨S10, .f32⟩
  | 112 => ⟨S_, .f32⟩
  | 113 => ⟨S_, .i1⟩
  | 114 => ⟨S_, .f32⟩
  | 115 => ⟨S_, .f32⟩
  | 116 => ⟨S10, .f32⟩
  | 117 => ⟨S10, .f32⟩
  | 118 => ⟨S1x10, .f32⟩
  | 119 => ⟨S5000x10, .f32⟩
  | 120 => ⟨S5000x10, .f32⟩
  | 121 => ⟨S1x10, .f32⟩
  | 122 => ⟨S5000x10, .f32⟩
  | 123 => ⟨S5000x10, .f32⟩
  | 124 => ⟨S_, .f32⟩
  | 125 => ⟨S10, .f32⟩
  | 126 => ⟨S10, .f32⟩
  | 127 => ⟨S10, .f32⟩
  | _ => ⟨S500000x10, .f32⟩

abbrev hbmTy0_2 (i : Nat) : BufTy := match i % 128 with
  | 0 => ⟨S1x10, .f32⟩
  | 1 => ⟨S5000x10, .f32⟩
  | 2 => ⟨S5000x10, .f32⟩
  | 3 => ⟨S1x10, .f32⟩
  | 4 => ⟨S5000x10, .f32⟩
  | 5 => ⟨S5000x10, .f32⟩
  | 6 => ⟨S5000x10, .f32⟩
  | 7 => ⟨S_, .f32⟩
  | 8 => ⟨S5000x10, .f32⟩
  | 9 => ⟨S5000x10, .f32⟩
  | 10 => ⟨S10x1, .f32⟩
  | 11 => ⟨S5000x1, .f32⟩
  | 12 => ⟨S1x1, .f32⟩
  | 13 => ⟨S5000x1, .f32⟩
  | 14 => ⟨S5000x1, .f32⟩
  | _ => ⟨S500000x10, .f32⟩

abbrev hbmTy (i : Nat) : BufTy := match i / 128 with
  | 0 => hbmTy0_0 i
  | 1 => hbmTy0_1 i
  | 2 => hbmTy0_2 i
  | _ => ⟨S500000x10, .f32⟩

abbrev bufTy : (tb : Table) → Fin (tcTables nBuf tb) → BufTy
  | .hbm, ⟨i, _⟩ => hbmTy i
  | _, _ => ⟨S500000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_4 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_cst_3 : Ref sig .tc := ⟨.hbm, 84, rfl⟩
abbrev main_call0_v12 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_8 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_call1_cst : Ref sig .tc := ⟨.hbm, 106, rfl⟩
abbrev main_call1_v0 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_9 : Ref sig .tc := ⟨.hbm, 114, rfl⟩
abbrev main_v58 : Ref sig .tc := ⟨.hbm, 115, rfl⟩
abbrev main_cst_10 : Ref sig .tc := ⟨.hbm, 116, rfl⟩
abbrev main_v59 : Ref sig .tc := ⟨.hbm, 117, rfl⟩
abbrev main_v60 : Ref sig .tc := ⟨.hbm, 118, rfl⟩
abbrev main_c_11 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_cst_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_cst_1 : Ref sig .tc := ⟨.hbm, 130, rfl⟩
abbrev main_call2_v8 : Ref sig .tc := ⟨.hbm, 131, rfl⟩
abbrev main_call2_cst_2 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_cst_3 : Ref sig .tc := ⟨.hbm, 136, rfl⟩
abbrev main_call2_v12 : Ref sig .tc := ⟨.hbm, 137, rfl⟩
abbrev main_call2_cst_4 : Ref sig .tc := ⟨.hbm, 138, rfl⟩
abbrev main_call2_call0_v0 : Ref sig .tc := ⟨.hbm, 139, rfl⟩
abbrev main_call2_call0_v1 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_cst_12 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_call3_cst : Ref sig .tc := ⟨.hbm, 158, rfl⟩
abbrev main_call3_v0 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_13 : Ref sig .tc := ⟨.hbm, 166, rfl⟩
abbrev main_v83 : Ref sig .tc := ⟨.hbm, 167, rfl⟩
abbrev main_cst_14 : Ref sig .tc := ⟨.hbm, 168, rfl⟩
abbrev main_v84 : Ref sig .tc := ⟨.hbm, 169, rfl⟩
abbrev main_v85 : Ref sig .tc := ⟨.hbm, 170, rfl⟩
abbrev main_c_15 : Ref sig .tc := ⟨.hbm, 171, rfl⟩
abbrev main_call4_cst : Ref sig .tc := ⟨.hbm, 172, rfl⟩
abbrev main_call4_v0 : Ref sig .tc := ⟨.hbm, 173, rfl⟩
abbrev main_call4_v1 : Ref sig .tc := ⟨.hbm, 174, rfl⟩
abbrev main_call4_cst_0 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_call4_v5 : Ref sig .tc := ⟨.hbm, 179, rfl⟩
abbrev main_call4_v6 : Ref sig .tc := ⟨.hbm, 180, rfl⟩
abbrev main_call4_v7 : Ref sig .tc := ⟨.hbm, 181, rfl⟩
abbrev main_call4_cst_1 : Ref sig .tc := ⟨.hbm, 182, rfl⟩
abbrev main_call4_v8 : Ref sig .tc := ⟨.hbm, 183, rfl⟩
abbrev main_call4_cst_2 : Ref sig .tc := ⟨.hbm, 184, rfl⟩
abbrev main_call4_v9 : Ref sig .tc := ⟨.hbm, 185, rfl⟩
abbrev main_call4_v10 : Ref sig .tc := ⟨.hbm, 186, rfl⟩
abbrev main_call4_v11 : Ref sig .tc := ⟨.hbm, 187, rfl⟩
abbrev main_call4_cst_3 : Ref sig .tc := ⟨.hbm, 188, rfl⟩
abbrev main_call4_v12 : Ref sig .tc := ⟨.hbm, 189, rfl⟩
abbrev main_call4_cst_4 : Ref sig .tc := ⟨.hbm, 190, rfl⟩
abbrev main_call4_call0_v0 : Ref sig .tc := ⟨.hbm, 191, rfl⟩
abbrev main_call4_call0_v1 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_cst_16 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_call5_cst : Ref sig .tc := ⟨.hbm, 210, rfl⟩
abbrev main_call5_v0 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_cst_17 : Ref sig .tc := ⟨.hbm, 218, rfl⟩
abbrev main_v108 : Ref sig .tc := ⟨.hbm, 219, rfl⟩
abbrev main_cst_18 : Ref sig .tc := ⟨.hbm, 220, rfl⟩
abbrev main_v109 : Ref sig .tc := ⟨.hbm, 221, rfl⟩
abbrev main_v110 : Ref sig .tc := ⟨.hbm, 222, rfl⟩
abbrev main_c_19 : Ref sig .tc := ⟨.hbm, 223, rfl⟩
abbrev main_call6_cst : Ref sig .tc := ⟨.hbm, 224, rfl⟩
abbrev main_call6_v0 : Ref sig .tc := ⟨.hbm, 225, rfl⟩
abbrev main_call6_v1 : Ref sig .tc := ⟨.hbm, 226, rfl⟩
abbrev main_call6_cst_0 : Ref sig .tc := ⟨.hbm, 227, rfl⟩
abbrev main_call6_v2 : Ref sig .tc := ⟨.hbm, 228, rfl⟩
abbrev main_call6_v3 : Ref sig .tc := ⟨.hbm, 229, rfl⟩
abbrev main_call6_v4 : Ref sig .tc := ⟨.hbm, 230, rfl⟩
abbrev main_call6_v5 : Ref sig .tc := ⟨.hbm, 231, rfl⟩
abbrev main_call6_v6 : Ref sig .tc := ⟨.hbm, 232, rfl⟩
abbrev main_call6_v7 : Ref sig .tc := ⟨.hbm, 233, rfl⟩
abbrev main_call6_cst_1 : Ref sig .tc := ⟨.hbm, 234, rfl⟩
abbrev main_call6_v8 : Ref sig .tc := ⟨.hbm, 235, rfl⟩
abbrev main_call6_cst_2 : Ref sig .tc := ⟨.hbm, 236, rfl⟩
abbrev main_call6_v9 : Ref sig .tc := ⟨.hbm, 237, rfl⟩
abbrev main_call6_v10 : Ref sig .tc := ⟨.hbm, 238, rfl⟩
abbrev main_call6_v11 : Ref sig .tc := ⟨.hbm, 239, rfl⟩
abbrev main_call6_cst_3 : Ref sig .tc := ⟨.hbm, 240, rfl⟩
abbrev main_call6_v12 : Ref sig .tc := ⟨.hbm, 241, rfl⟩
abbrev main_call6_cst_4 : Ref sig .tc := ⟨.hbm, 242, rfl⟩
abbrev main_call6_call0_v0 : Ref sig .tc := ⟨.hbm, 243, rfl⟩
abbrev main_call6_call0_v1 : Ref sig .tc := ⟨.hbm, 244, rfl⟩
abbrev main_v111 : Ref sig .tc := ⟨.hbm, 245, rfl⟩
abbrev main_v112 : Ref sig .tc := ⟨.hbm, 246, rfl⟩
abbrev main_v113 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_v117 : Ref sig .tc := ⟨.hbm, 251, rfl⟩
abbrev main_cst_20 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_v126 : Ref sig .tc := ⟨.hbm, 261, rfl⟩
abbrev main_v127 : Ref sig .tc := ⟨.hbm, 262, rfl⟩
abbrev main_call7_cst : Ref sig .tc := ⟨.hbm, 263, rfl⟩
abbrev main_call7_v0 : Ref sig .tc := ⟨.hbm, 264, rfl⟩
abbrev main_v128 : Ref sig .tc := ⟨.hbm, 265, rfl⟩
abbrev main_v129 : Ref sig .tc := ⟨.hbm, 266, rfl⟩
abbrev main_v130 : Ref sig .tc := ⟨.hbm, 267, rfl⟩
abbrev main_v131 : Ref sig .tc := ⟨.hbm, 268, rfl⟩
abbrev main_v132 : Ref sig .tc := ⟨.hbm, 269, rfl⟩
abbrev main_v133 : Ref sig .tc := ⟨.hbm, 270, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S8000000x1_S8000000x10_0_1 : S8000000x1.BroadcastsInDim S8000000x10 (![0, 1] : Fin 2 → Fin S8000000x10.rank)
  bcast_S_S500000x10 : S_.BroadcastsInDim S500000x10 (![] : Fin 0 → Fin S500000x10.rank)
  bcast_S_S5000x10 : S_.BroadcastsInDim S5000x10 (![] : Fin 0 → Fin S5000x10.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S5000x1 : S_.BroadcastsInDim S5000x1 (![] : Fin 0 → Fin S5000x1.rank)
  bcast_S5000x1_S5000x10_0_1 : S5000x1.BroadcastsInDim S5000x10 (![0, 1] : Fin 2 → Fin S5000x10.rank)
  transposes_S10x10_S10x10_1_0 : S10x10.Transposes [1, 0] S10x10
  bcast_S10_S1x10_1 : S10.BroadcastsInDim S1x10 (![1] : Fin 1 → Fin S1x10.rank)
  bcast_S1x10_S5000x10_0_1 : S1x10.BroadcastsInDim S5000x10 (![0, 1] : Fin 2 → Fin S5000x10.rank)
  reducesTo_S5000x10_S10_d0 : S5000x10.ReducesTo [0] S10
  h_S_ : 0 < S_.numel
  bcast_S_S10 : S_.BroadcastsInDim S10 (![] : Fin 0 → Fin S10.rank)
  bcast_S_S1x10 : S_.BroadcastsInDim S1x10 (![] : Fin 0 → Fin S1x10.rank)
  transposes_S1x10_S10x1_1_0 : S1x10.Transposes [1, 0] S10x1
  bcast_S1_S1x1_1 : S1.BroadcastsInDim S1x1 (![1] : Fin 1 → Fin S1x1.rank)
  bcast_S1x1_S5000x1_0_1 : S1x1.BroadcastsInDim S5000x1 (![0, 1] : Fin 2 → Fin S5000x1.rank)
  gather_S500000x10_S8000000x1_S8000000x10_1_0_n_n_0_1_110_wf : GatherDims.WF S500000x10 S8000000x1 S8000000x10 [1] [0] [] [0] [] 1 ![1, 10]
  scatter_S500000x10_S8000000x1_S8000000x10_1_0_0_1_wf : ScatterDims.WF S500000x10 S8000000x1 S8000000x10 [1] [0] [0] 1
  scatter_S5000x10_S500000x1_S500000x10_1_0_0_1_wf : ScatterDims.WF S5000x10 S500000x1 S500000x10 [1] [0] [0] 1
  scatter_S5000x1_S500000x1_S500000x1_1_0_0_1_wf : ScatterDims.WF S5000x1 S500000x1 S500000x1 [1] [0] [0] 1
  dot_S5000x10_S10x10_S5000x10_1_0_0_1_n_n_wf : DotDims.WF S5000x10 S10x10 S5000x10 [1] [0] [0] [1] [] []
  dot_S5000x10_S10x1_S5000x1_1_0_0_1_n_n_wf : DotDims.WF S5000x10 S10x1 S5000x1 [1] [0] [0] [1] [] []

variable [Facts₀]

def gather_S500000x10_S8000000x1_S8000000x10_1_0_n_n_0_1_110 : GatherDims S500000x10 S8000000x1 S8000000x10 where
  offsetDims := [1]
  collapsedSliceDims := [0]
  operandBatchingDims := []
  startIndicesBatchingDims := []
  startIndexMap := [0]
  indexVectorDim := 1
  sliceSizes := ![1, 10]
  wf := gather_S500000x10_S8000000x1_S8000000x10_1_0_n_n_0_1_110_wf
def scatter_S500000x10_S8000000x1_S8000000x10_1_0_0_1 : ScatterDims S500000x10 S8000000x1 S8000000x10 where
  updateWindowDims := [1]
  insertedWindowDims := [0]
  scatterDimsToOperandDims := [0]
  indexVectorDim := 1
  wf := scatter_S500000x10_S8000000x1_S8000000x10_1_0_0_1_wf
def scatter_S5000x10_S500000x1_S500000x10_1_0_0_1 : ScatterDims S5000x10 S500000x1 S500000x10 where
  updateWindowDims := [1]
  insertedWindowDims := [0]
  scatterDimsToOperandDims := [0]
  indexVectorDim := 1
  wf := scatter_S5000x10_S500000x1_S500000x10_1_0_0_1_wf
def scatter_S5000x1_S500000x1_S500000x1_1_0_0_1 : ScatterDims S5000x1 S500000x1 S500000x1 where
  updateWindowDims := [1]
  insertedWindowDims := [0]
  scatterDimsToOperandDims := [0]
  indexVectorDim := 1
  wf := scatter_S5000x1_S500000x1_S500000x1_1_0_0_1_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf
def dot_S5000x10_S10x1_S5000x1_1_0_0_1_n_n : DotDims S5000x10 S10x1 S5000x1 where
  lhsContracting := [1]
  rhsContracting := [0]
  lhsNonContracting := [0]
  rhsNonContracting := [1]
  lhsBatch := []
  rhsBatch := []
  wf := dot_S5000x10_S10x1_S5000x1_1_0_0_1_n_n_wf

class Facts : Prop extends Facts₀ where

variable [Facts]
-- ==== Proof.K.RunCond.lean ====
import proofs.«404605_j2911987826902_2_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

theorem V7_main_v26 (c : Dev nD) : V7 m outs c main_v26 = outs 7 main_v26 c := by
  simp only [V7, Function.update_self]

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
-- The assertion carried from one item of the chain to the next: the unscoped buffers at `V`, beside `R`.
abbrev T (V : Valuation τ sig (Elt F)) (c : Dev nD) : sProp 𝕄 := iprop(StableHlo.held (c : Thread nD τ) (Pipeline.ucRefs τ sig) V ∗ R c)

set_option backward.isDefEq.respectTransparency.types false in
-- The chain of items from the two regions' records: at the end every unscoped buffer holds the last valuation.
theorem run_cond (pdats : (p : Fin 2) → (c : Dev nD) → Dat τ (Elt F) Unit ℕ (UR sig nD τ) ℕ (cfgs p) c)
    (R0 : RegionSeg (pcfgs (F := F)) adm pdats () defs₀ 𝒱₀ L lv 0) (R1 : RegionSeg (pcfgs (F := F)) adm pdats () defs₀ 𝒱₀ L lv 1)
    (h0 : ∀ c, T (V4 m c) c ⊢ R0.pre c) (h0' : ∀ c, R0.post c ⊢ T (V5 m outs c) c)
    (h1 : ∀ c, T (V6 m outs c) c ⊢ R1.pre c) (h1' : ∀ c, R1.post c ⊢ T (V7 m outs c) c) :
    θ_run defs (onTc (τ := τ) (main (F := F))) ⟨m, fun _ => 0, ρ⟩ fun r => ∀ (c : Dev nD), ∀ b ∈ Pipeline.ucRefs τ sig,
      r.2.mem ((c : Thread nD τ).1, b) = V7 m outs c b := by
  refine Pipeline.θ_run_regions_kit_dev (pcfgs (F := F)) adm pdats () cellOf_inj emb₁ defs₀ 𝒱₀ L lv m ρ main
    (segs m outs 𝒱₀ L lv (fun _ => R) () pdats R0 R1)
    (fun c Q => by
      rewrite [main_chain c, Seg.run_eq_chain,
        show (segs m outs 𝒱₀ L lv (fun _ => R) () pdats R0 R1 c).map Seg.prog = [
          StableHlo.seq hostOps0, StableHlo.seq hostOps0_1, StableHlo.seq hostOps0_2, StableHlo.seq hostOps0_3,
          Prog.lift (.customCall (Pipeline.entry 0) ()), StableHlo.seq hostOps1, Prog.lift (.customCall (Pipeline.entry 1) ())] from rfl]
      exact .rfl)
    (fun c => by simp only [segs, Seg.pipes_host, Seg.pipes_region, Seg.pipes_nil]; decide) 0 (fun _ _ => rfl) (fun _ => BI.emp)
    (initOf (Pipeline.cells cfgs cellOf_inj) (Pipeline.launchToks cfgs cellOf_inj)) ?_
    (T₀ := fun c => T (V0 m c) c)
    (Tₙ := fun c => StableHlo.held (c : Thread nD τ) (Pipeline.ucRefs τ sig) (V7 m outs c))
    (hch := fun c => ⟨.rfl, .rfl, .rfl, .rfl, h0 c, h0' c, h1 c, (h1' c).trans (sep_mono .rfl (by iintro ⟨-, HO⟩; iexact HO))⟩)
    (hinit := Pipeline.initEach L lv fun c => ?_)
    (QY := fun c s => ∀ b ∈ Pipeline.ucRefs τ sig, s.mem ((c : Thread nD τ).1, b) = V7 m outs c b)
    (hfin := fun c s' => (pointsTo_read_all (Pipeline.ucRefs τ sig) (fun b => ((c : Thread nD τ).1, b)) (V7 m outs c) s').trans fupd_intro)
    (hQ := fun _ h => h)
  · rw [BI.bigSep_emp_const, ownU_emb₁]
    iintro Hu; imodintro
    isplitl [Hu]; · iexact Hu
    iempintro
  · rw [T, ← Pipeline.unscopedBufs_held c (V0 m c)]
    iintro ⟨⟨Hb, -, HO, -, Hp, -⟩, -⟩
    imodintro
    isplitl [Hb]; · iexact Hb
    isplitl [Hp]; · iexists _; iexact Hp
    iexists ∅; iexact HO

end Cert.Kernel.Hand

end
-- ==== Proof.K.Region0Runs.lean ====
import proofs.«404605_j2911987826902_2_alg».proof.Proof.Gen.Kernel.Launch
import proofs.«404605_j2911987826902_2_alg».proof.Proof.Gen.Kernel.Skeleton
import proofs.«404605_j2911987826902_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

theorem lt0 (t : Fin cfg0.N) : t.val < 12500 := lt_of_lt_of_eq t.isLt (show cfg0.N = 12500 from N_0)

theorem coords0_val (t : Fin cfg0.N) : (grid0.coords t 0).val = t.val := by
  have hN := lt0 t
  show t.val / grid0.stride 0 % 12500 = t.val
  rw [show grid0.stride 0 = 1 from by decide, Nat.div_one, Nat.mod_eq_of_lt hN]

-- Two naturals below 2 ^ 32 are equal exactly when the comparison word built from them is set.
theorem cmp_chain_iff (n k : ℕ) (hn : n < 2 ^ 32) (hk : k < 2 ^ 32) :
    (Scalar.cmpi .ne (Scalar.extui (Scalar.cmpi .eq (BitVec.ofNat 32 n) (BitVec.ofNat 32 k))) 0#32) = 1#1 ↔ n = k := by
  rw [Scalar.guard_iff, Scalar.cmpi, IntOp.cmpi_eq, ← BitVec.toNat_inj, BitVec.toNat_ofNat, BitVec.toNat_ofNat,
    Nat.mod_eq_of_lt hn, Nat.mod_eq_of_lt hk]

abbrev cond0_0 (i : grid0.Coords) : Prop := (Scalar.cmpi .ne (Scalar.extui (Scalar.cmpi .eq (BitVec.ofNat 32 (i 0).val) 0#32)) 0#32) = 1#1
theorem hcond0_0 (t : Fin cfg0.N) : cond0_0 (grid0.coords t) ↔ t.val = 0 := by
  have hN := lt0 t
  unfold cond0_0; rw [coords0_val]
  exact cmp_chain_iff t.val 0 (by omega) (by omega)

abbrev cond0_1 (i : grid0.Coords) : Prop := k0_cond2 i = 1#1
theorem hcond0_1 (t : Fin cfg0.N) : cond0_1 (grid0.coords t) ↔ t.val = 12499 := by
  have hN := lt0 t
  unfold cond0_1 k0_cond2; dsimp only; rw [coords0_val]
  exact cmp_chain_iff t.val 12499 (by omega) (by omega)

theorem idle0_3_iff (i : grid0.Coords) : cfg0.idle 3 i = true ↔ ¬cond0_1 i := by
  show (!(k0_cond2 i == 1#1)) = true ↔ ¬(k0_cond2 i = 1#1)
  simp

theorem noFlush0_3 (t : Fin cfg0.N) (h1 : ¬cond0_1 (grid0.coords t)) : (cfg0.win 3).flush t = false := by
  have hN := lt0 t
  exact Bool.not_eq_true _ ▸ fun hf => h1 ((hcond0_1 t).mpr (by have := (flush0_3 t).mp hf; omega))

abbrev ms0_0 (t : Fin cfg0.N) : Memref sig .tc .vmem S1x640 .i32 := win0_0.stage (cfg0.slots t 0)
abbrev ms0_1 (t : Fin cfg0.N) : Memref sig .tc .vmem S1x640 .f32 := win0_1.stage (cfg0.slots t 1)
abbrev ms0_2 (t : Fin cfg0.N) : Memref sig .tc .vmem S640x10 .f32 := win0_2.stage (cfg0.slots t 2)
abbrev ms0_3 (t : Fin cfg0.N) : Memref sig .tc .vmem S5000x10 .f32 := win0_3.stage (cfg0.slots t 3)
abbrev scM0_0 : Memref sig .tc .vmem S5000x10 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0_0, owns_whole]; try rfl

theorem hz2 : (![0, 0] : Fin 2 → ℕ) = fun _ => 0 := by
  funext a; fin_cases a <;> rfl

-- A store over the whole shape, made last, is what is read afterwards, whatever was stored before.
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ fun y => ⟨_, List.mem_cons.mpr (.inl rfl), View.mem_set_unit_zero h inb y⟩,
    View.canon_cons_unit_zero h]

section Body
variable (c : Dev nD) (i : grid0.Coords) {arg1 : Memref sig .tc .vmem S1x640 .i32} (harg1 : arg1.IsWhole)
  {arg2 : Memref sig .tc .vmem S1x640 .f32} (harg2 : arg2.IsWhole) {arg3 : Memref sig .tc .vmem S640x10 .f32} (harg3 : arg3.IsWhole)
  {arg4 arg5 : Memref sig .tc .vmem S5000x10 .f32} (harg4 : arg4.IsWhole) (harg5 : arg5.IsWhole)
  (x0 : Vec F S1x640 .i32) (x1 : Vec F S1x640 .f32) (x2 : Vec F S640x10 .f32) (xs0 xi3 : Vec F S5000x10 .f32)

set_option maxHeartbeats 1000000 in
-- The body updates the fifth buffer by `x0 x1 x2` (from zero where the first guard holds) and, where the second holds, copies it to the fourth.
theorem run0 (hi : ¬(cond0_0 i ∧ cond0_1 i)) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs0
        ∗ (iprop(owns (c : Thread nD τ) arg1 fullShare x0 ∗ owns (c : Thread nD τ) arg2 fullShare x1 ∗ owns (c : Thread nD τ) arg3 fullShare x2
            ∗ owns (c : Thread nD τ) arg4 fullShare (if cond0_1 i then k0_pay2 x0 x1 x2 (if cond0_0 i then k0_pay1 else xs0) else xi3)
            ∗ owns (c : Thread nD τ) arg5 fullShare (k0_pay2 x0 x1 x2 (if cond0_0 i then k0_pay1 else xs0))) -∗ K ⟨⟩))
      ⊢ wp frame (wpE (defs₀ (F := F)) Variants.none c none) E (cc0__edge_agg_kernel i arg1 harg1 arg2 harg2 arg3 harg3 arg4 harg4 arg5 harg5) K := by
  by_cases hc0 : cond0_0 i <;> by_cases hc1 : cond0_1 i
  · exact absurd ⟨hc0, hc1⟩ hi
  all_goals
    first | rw [if_pos hc0] | rw [if_neg hc0]
    first | rw [if_pos hc1] | rw [if_neg hc1]
    simp only [cc0__edge_agg_kernel_eq_skeleton]; unfold cc0__edge_agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      first
        | (sl_unfold_words; rw [read_store_whole _ _ hz2]
           simp only [View.readAt_eq_ld, Memref.IsWhole.read_unread, View.ld_unit_zero (S := S1x640) hz2, View.ld_unit_zero (S := S640x10) hz2,
    View.ld_unit_zero (S := S5000x10) hz2, View.readCov_unit_zero (S := S5000x10) _ hz2])
        | exact harg4.read_unread _
    iexists _; isplitr; swap; · iexact HS0
    ipureintro; sl_unfold_words; rw [read_store_whole _ _ hz2]
    simp only [View.readAt_eq_ld, Memref.IsWhole.read_unread, View.ld_unit_zero (S := S1x640) hz2, View.ld_unit_zero (S := S640x10) hz2,
    View.ld_unit_zero (S := S5000x10) hz2, View.readCov_unit_zero (S := S5000x10) _ hz2]

end Body

end Cert.Kernel.Hand

end
-- ==== Proof.K.Region0.lean ====
import proofs.«404605_j2911987826902_2_alg».proof.Proof.K.Region0Runs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def accAt0 (c : Dev nD) : (n : ℕ) → n < cfg0.N → Vec F S5000x10 .f32
  | 0, h => k0_pay2 (iblk0 V c 0 ⟨0, h⟩) (iblk0 V c 1 ⟨0, h⟩) (iblk0 V c 2 ⟨0, h⟩) (k0_pay1 (F := F))
  | n + 1, h => k0_pay2 (iblk0 V c 0 ⟨n + 1, h⟩) (iblk0 V c 1 ⟨n + 1, h⟩) (iblk0 V c 2 ⟨n + 1, h⟩) (accAt0 c n (Nat.lt_of_succ_lt h))

theorem accAt0_zero (c : Dev nD) (h : 0 < cfg0.N) :
    accAt0 V c 0 h = k0_pay2 (iblk0 V c 0 ⟨0, h⟩) (iblk0 V c 1 ⟨0, h⟩) (iblk0 V c 2 ⟨0, h⟩) (k0_pay1 (F := F)) := rfl

theorem accAt0_succ (c : Dev nD) (n : ℕ) (h : n + 1 < cfg0.N) :
    accAt0 V c (n + 1) h = k0_pay2 (iblk0 V c 0 ⟨n + 1, h⟩) (iblk0 V c 1 ⟨n + 1, h⟩) (iblk0 V c 2 ⟨n + 1, h⟩) (accAt0 V c n (Nat.lt_of_succ_lt h)) := rfl

-- One point's update, over the zero accumulator at the first point and over the previous point's otherwise, is the recursion's step.
theorem accAt0_step (c : Dev nD) (t : Fin cfg0.N) (xs0 : Vec F S5000x10 .f32) (hx : ∀ m (hm : m < cfg0.N), t.val = m + 1 → xs0 = accAt0 V c m hm) :
    k0_pay2 (iblk0 V c 0 t) (iblk0 V c 1 t) (iblk0 V c 2 t) (if cond0_0 (grid0.coords t) then k0_pay1 else xs0) = accAt0 V c t.val t.isLt := by
  obtain ⟨n, hn⟩ := t
  cases n with
  | zero => rw [if_pos ((hcond0_0 ⟨0, hn⟩).mpr rfl)]; rfl
  | succ n => rw [if_neg fun h => Nat.succ_ne_zero n ((hcond0_0 ⟨n + 1, hn⟩).mp h), hx n (Nat.lt_of_succ_lt hn) rfl]; rfl

-- Before position `n` the accumulator holds `accAt0` of `n - 1`; before the first it may hold anything.
def PhiS (c : Dev nD) (n : ℕ) (h : n ≤ cfg0.N) : sProp 𝕄 :=
  iprop(iprop((∃ xs0, ⌜∀ m (hm : m < cfg0.N), n = m + 1 → xs0 = accAt0 V c m hm⌝ ∗ owns (c : Thread nD τ) scM0_0 fullShare xs0) ∗ rest0 (F := F) c)
    ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => accAt0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := rfl

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨fun d => ?_, fun d => ?_, fun d => ?_⟩ <;>
  exact ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t)) := by
  have hN := lt0 t
  have hi : ¬(cond0_0 (grid0.coords t) ∧ cond0_1 (grid0.coords t)) := fun h => by
    have h0 := (hcond0_0 t).mp h.1; have h1 := (hcond0_1 t).mp h.2; omega
  unfold bodyAt0
  simp only [(before0 V c t).1, (before0 V c t).2.1, (before0 V c t).2.2]
  rw [show (dat0 V c).owesAt () t.succ = (dat0 V c).owesAt () t.castSucc from rfl,
    show (dat0 V c).Φ t.castSucc = PhiS V c t.val (Nat.le_of_lt t.isLt) from rfl,
    show (dat0 V c).Φ t.succ = PhiS V c (t.val + 1) t.isLt from rfl]
  unfold PhiS
  iintro ⟨⟨⟨⟨%xs0, %hx, HS0⟩, HR⟩, Hg⟩, Ho, ⟨%d0, H0⟩, ⟨%d1, H1⟩, ⟨%d2, H2⟩, ⟨%d3, H3⟩⟩
  iapply (run0 c (grid0.coords t) _ _ _ _ (Memref.isWhole_whole _) (iblk0 V c 0 t) (iblk0 V c 1 t) (iblk0 V c 2 t) xs0 _ hi Set.univ _)
  isplitl [H0]; · iexact H0
  isplitl [H1]; · iexact H1
  isplitl [H2]; · iexact H2
  isplitl [H3]; · iexact H3
  isplitl [HS0]; · iexact HS0
  rw [accAt0_step V c t xs0 hx]
  iintro ⟨H0, H1, H2, H3, HS0⟩
  isplitl [HS0 HR Hg]
  · isplitl [HS0 HR]
    · isplitl [HS0]
      · iexists _; isplitr; swap; · iexact HS0
        ipureintro; intro m hm e; obtain rfl := Nat.succ.inj e; rfl
      iexact HR
    iexact Hg
  isplitl [Ho]; · iexact Ho
  isplitl [H0]; · iexact H0
  isplitl [H1]; · iexact H1
  isplitl [H2]; · iexact H2
  by_cases h1 : cond0_1 (grid0.coords t)
  · rw [if_pos h1, show (dat0 V c).leavesExact 3 t = owns (c : Thread nD τ) (ms0_3 t) fullShare ((dat0 V c).after 3 t) from by
        unfold Dat.leavesExact; rw [Bool.eq_false_iff.mpr fun h => (idle0_3_iff (grid0.coords t)).mp h h1],
      show (dat0 V c).after 3 t = accAt0 V c t.val t.isLt from rfl]
    iexact H3
  · rw [if_neg h1, Dat.leavesExact_idle (dat0 V c) 3 t ((idle0_3_iff _).mpr h1) (noFlush0_3 t h1)]
    iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiA0_eq]
  unfold PhiS
  iintro ⟨⟨⟨%d, HS0⟩, HR⟩, Hg⟩
  isplitl [HS0 HR]
  · isplitl [HS0]
    · iexists d; isplitr; · ipureintro; intro m hm e; exact absurd e (Nat.succ_ne_zero m).symm
      iexact HS0
    iexact HR
  iexact Hg

theorem hout0 (c : Dev nD) : (dat0 V c).Φ (Fin.last cfg0.N) ⊢ Pipeline.ΦA spec0 c := by
  rw [show (dat0 V c).Φ (Fin.last cfg0.N) = PhiS V c cfg0.N (Nat.le_refl _) from rfl, PhiA0_eq]
  unfold PhiS
  iintro ⟨⟨⟨%xs0, -, HS0⟩, HR⟩, Hg⟩
  isplitl [HS0 HR]
  · isplitl [HS0]
    · iexists _; iexact HS0
    iexact HR
  iexact Hg

theorem lt_N0 : 12499 < cfg0.N := by have : cfg0.N = 12500 := N_0; omega

theorem index0_3 (t : Fin cfg0.N) (a : Fin 2) : win0_3.index t a = 0 := by
  fin_cases a <;> rfl

theorem mem_blk3_all (t : Fin cfg0.N) (i : S5000x10.Idx) : i ∈ ((cfg0.win 3).blk t).view.set := by
  show i ∈ ((View.whole main_v12).slice (win0_3.rect t)).set
  rw [View.set_slice_whole, Rect.mem_set_unit]
  intro a
  show win0_3.index t a * S5000x10.size a ≤ (i a).val ∧ (i a).val < win0_3.index t a * S5000x10.size a + S5000x10.size a
  rw [index0_3]
  have hi := (i a).isLt
  omega

theorem flushed3_eq (c : Dev nD) (t : Fin cfg0.N) (hf : (cfg0.win 3).flush t = true) :
    (dat0 V c).flushed 3 t = ((cfg0.win 3).blk t).view.read (Elt F) (accAt0 V c 12499 lt_N0) := by
  have hN := lt0 t
  have ht : t.val = 12499 := by have := (flush0_3 t).mp hf; omega
  obtain ⟨n, hn⟩ := t
  dsimp only at ht
  subst ht
  funext j
  show accAt0 V c 12499 hn j = accAt0 V c 12499 lt_N0 (((cfg0.win 3).blk ⟨12499, hn⟩).view.emb j)
  refine congrArg (accAt0 V c 12499 hn) ?_
  funext a; apply Fin.ext
  show (j a).val = win0_3.index ⟨12499, hn⟩ a * S5000x10.size a + 1 * (j a).val
  rw [index0_3]; omega

-- The fourth array after the last point is the last accumulator.
theorem arrAt0_out (c : Dev nD) : (dat0 V c).arrAt 3 cfg0.N = accAt0 V c 12499 lt_N0 :=
  (dat0 V c).arrAt_eq_of_cover 3 (accAt0 V c 12499 lt_N0) (fun t hf => flushed3_eq V c t hf)
    (fun i => ⟨⟨12499, lt_N0⟩, (flush0_3 ⟨12499, lt_N0⟩).mpr rfl, mem_blk3_all ⟨12499, lt_N0⟩ i⟩)

theorem N0' : cfg0.N = 12500 := N_0

end Regions

end Cert.Kernel.Hand

end
-- ==== Proof.K.K1.lean ====
import proofs.«404605_j2911987826902_2_alg».proof.Proof.Gen.Kernel.Skeleton

noncomputable section

namespace Cert.Kernel.Hand

open Idealize.ShloMosaic Cert.Kernel Cert.Kernel.Gen

variable {F : FTy → Type} [FloatOps F]

-- The result as one function of twenty arguments: the composition of the pure stages.
def K1 (x0 : Vec F S5000x10 .f32) (x1 : Vec F S5000x1 .f32) (x2 : Vec F S10x10 .f32) (x3 : Vec F S1x10 .f32)
    (x4 : Vec F S10x10 .f32) (x5 : Vec F S1x10 .f32) (x6 : Vec F S10x10 .f32) (x7 : Vec F S1x10 .f32)
    (x8 : Vec F S10x10 .f32) (x9 : Vec F S1x10 .f32) (x10 : Vec F S1x10 .f32) (x11 : Vec F S1x1 .f32)
    (x12 x13 x14 x15 x16 x17 x18 x19 : Vec F S1x10 .f32) : FVec F S5000x1 .f32 :=
  k1_pay1 (k1_pay4 (k1_pay2 x0 x1 x2 x3 x12) (k1_pay3 x13) x4 x5 x14 x15)
    (k1_pay6 (k1_pay5 (k1_pay2 x0 x1 x2 x3 x12) (k1_pay3 x13) x4 x5 x14 x15 x6) x7 x16 x17 x8 x9)
    (k1_pay7 x18) x19 x10 x11

end Cert.Kernel.Hand

end
-- ==== Proof.K.Region1.lean ====
import proofs.«404605_j2911987826902_2_alg».proof.Proof.Gen.Kernel.Launch
import proofs.«404605_j2911987826902_2_alg».proof.Proof.Gen.Kernel.Skeleton
import proofs.«404605_j2911987826902_2_alg».proof.Proof.Gen.Kernel.Points
import proofs.«404605_j2911987826902_2_alg».proof.Proof.K.K1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev rPool1 : Rect S5000x10 := Rect.unit (s := S5000x10) ![0, 0] S5000x10.size inb_S5000x10_S5000x10_0_0
abbrev rCol1 : Rect S5000x1 := Rect.unit (s := S5000x1) ![0, 0] S5000x1.size inb_S5000x1_S5000x1_0_0
abbrev rMat1 : Rect S10x10 := Rect.unit (s := S10x10) ![0, 0] S10x10.size inb_S10x10_S10x10_0_0
abbrev rRow1 : Rect S1x10 := Rect.unit (s := S1x10) ![0, 0] S1x10.size inb_S1x10_S1x10_0_0
abbrev rOne1 : Rect S1x1 := Rect.unit (s := S1x1) ![0, 0] S1x1.size inb_S1x1_S1x1_0_0

section Body
variable (x0 : Vec F S5000x10 .f32) (x1 : Vec F S5000x1 .f32) (x2 : Vec F S10x10 .f32) (x3 : Vec F S1x10 .f32)
    (x4 : Vec F S10x10 .f32) (x5 : Vec F S1x10 .f32) (x6 : Vec F S10x10 .f32) (x7 : Vec F S1x10 .f32)
    (x8 : Vec F S10x10 .f32) (x9 : Vec F S1x10 .f32) (x10 : Vec F S1x10 .f32) (x11 : Vec F S1x1 .f32)
    (x12 x13 x14 x15 x16 x17 x18 x19 : Vec F S1x10 .f32)

-- The written contents as one piece over the whole rectangle: `K1` of the whole-rectangle loads.
def out1_20 : Vec F S5000x1 .f32 :=
  View.canon [⟨rCol1, K1 (View.ld x0 rPool1) (View.ld x1 rCol1) (View.ld x2 rMat1) (View.ld x3 rRow1)
    (View.ld x4 rMat1) (View.ld x5 rRow1) (View.ld x6 rMat1) (View.ld x7 rRow1) (View.ld x8 rMat1) (View.ld x9 rRow1)
    (View.ld x10 rRow1) (View.ld x11 rOne1) (View.ld x12 rRow1) (View.ld x13 rRow1) (View.ld x14 rRow1) (View.ld x15 rRow1)
    (View.ld x16 rRow1) (View.ld x17 rRow1) (View.ld x18 rRow1) (View.ld x19 rRow1)⟩]

-- The whole rectangle covers every index.
theorem cover1_20 (p0 : Vec F S5000x1 .f32) (y : S5000x1.Idx) :
    ∃ pc ∈ ([⟨rCol1, p0⟩] : List (View.Piece (Elt F) S5000x1 .f32)), y ∈ pc.1.set :=
  View.cover_of_tiled [⟨rCol1, p0⟩] S5000x1.size (by rfl) y

-- The body's triple: the inputs are kept and the output ends as `out1_20` of them.
theorem sound_kernel1 (c : Dev nD) (E : Set ℕ) (i : grid1.Coords)
    (arg1 : Memref sig .tc .vmem S5000x10 .f32) (arg2 arg21 : Memref sig .tc .vmem S5000x1 .f32) (arg3 arg5 arg7 arg9 : Memref sig .tc .vmem S10x10 .f32)
    (arg4 arg6 arg8 arg10 arg11 arg13 arg14 arg15 arg16 arg17 arg18 arg19 arg20 : Memref sig .tc .vmem S1x10 .f32) (arg12 : Memref sig .tc .vmem S1x1 .f32)
    (harg1 : arg1.IsWhole) (harg2 : arg2.IsWhole) (harg3 : arg3.IsWhole) (harg4 : arg4.IsWhole) (harg5 : arg5.IsWhole) (harg6 : arg6.IsWhole) (harg7 : arg7.IsWhole)
    (harg8 : arg8.IsWhole) (harg9 : arg9.IsWhole) (harg10 : arg10.IsWhole) (harg11 : arg11.IsWhole) (harg12 : arg12.IsWhole) (harg13 : arg13.IsWhole) (harg14 : arg14.IsWhole)
    (harg15 : arg15.IsWhole) (harg16 : arg16.IsWhole) (harg17 : arg17.IsWhole) (harg18 : arg18.IsWhole) (harg19 : arg19.IsWhole) (harg20 : arg20.IsWhole) (harg21 : arg21.IsWhole) (K : PUnit → sProp 𝕄) :
    let I : sProp 𝕄 := iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ owns (c : Thread nD τ) arg13 fullShare x12 ∗ owns (c : Thread nD τ) arg14 fullShare x13
        ∗ owns (c : Thread nD τ) arg15 fullShare x14 ∗ owns (c : Thread nD τ) arg16 fullShare x15
        ∗ owns (c : Thread nD τ) arg17 fullShare x16 ∗ owns (c : Thread nD τ) arg18 fullShare x17
        ∗ owns (c : Thread nD τ) arg19 fullShare x18 ∗ owns (c : Thread nD τ) arg20 fullShare x19)
    iprop(I ∗ (∃ d, owns (c : Thread nD τ) arg21 fullShare d)
        ∗ (iprop(I ∗ owns (c : Thread nD τ) arg21 fullShare
            (out1_20 x0 x1 x2 x3 x4 x5 x6 x7 x8 x9 x10 x11 x12 x13 x14 x15 x16 x17 x18 x19)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16 arg17 harg17 arg18 harg18
            arg19 harg19 arg20 harg20 arg21 harg21) K := by
  simp only [cc1__mlp_kernel_eq_skeleton]; unfold cc1__mlp_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩, ⟨%f17, %hf17, H17⟩,
    ⟨%f18, %hf18, H18⟩, ⟨%f19, %hf19, H19⟩⟩, ⟨%d20, %f20, -, H20⟩, Hk⟩
  subst hf0 hf1 hf2 hf3 hf4 hf5 hf6 hf7 hf8 hf9 hf10 hf11 hf12 hf13 hf14 hf15 hf16 hf17 hf18 hf19
  sl_exec
  sl_step
  iapply Hk
  isplitl [H0 H1 H2 H3 H4 H5 H6 H7 H8 H9 H10 H11 H12 H13 H14 H15 H16 H17 H18 H19]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    isplitl [H10]; · iexists f10; isplitr; (· ipureintro; rfl); iexact H10
    isplitl [H11]; · iexists f11; isplitr; (· ipureintro; rfl); iexact H11
    isplitl [H12]; · iexists f12; isplitr; (· ipureintro; rfl); iexact H12
    isplitl [H13]; · iexists f13; isplitr; (· ipureintro; rfl); iexact H13
    isplitl [H14]; · iexists f14; isplitr; (· ipureintro; rfl); iexact H14
    isplitl [H15]; · iexists f15; isplitr; (· ipureintro; rfl); iexact H15
    isplitl [H16]; · iexists f16; isplitr; (· ipureintro; rfl); iexact H16
    isplitl [H17]; · iexists f17; isplitr; (· ipureintro; rfl); iexact H17
    isplitl [H18]; · iexists f18; isplitr; (· ipureintro; rfl); iexact H18
    iexists f19; isplitr; (· ipureintro; rfl); iexact H19
  iexists _; isplitr
  swap; · iexact H20
  ipureintro
  exact View.read_writes_eq_canon _ _ _ (cover1_20 _)

theorem zeroOff1 : (![0, 0] : Fin 2 → Nat) = fun _ => 0 := funext fun a => by
  match a with
  | ⟨0, _⟩ => rfl
  | ⟨1, _⟩ => rfl

-- A piece over the whole rectangle at offset zero is its payload, and such a load is the identity.
theorem out1_20_eq :
    out1_20 x0 x1 x2 x3 x4 x5 x6 x7 x8 x9 x10 x11 x12 x13 x14 x15 x16 x17 x18 x19
      = K1 x0 x1 x2 x3 x4 x5 x6 x7 x8 x9 x10 x11 x12 x13 x14 x15 x16 x17 x18 x19 := by
  unfold out1_20
  rw [View.canon_unit_zero zeroOff1]
  simp only [View.ld_unit_zero (S := S5000x10) zeroOff1, View.ld_unit_zero (S := S5000x1) zeroOff1,
    View.ld_unit_zero (S := S10x10) zeroOff1, View.ld_unit_zero (S := S1x10) zeroOff1, View.ld_unit_zero (S := S1x1) zeroOff1]

end Body

-- On the one-point grid every block index is zero (a finite check).
theorem idx1 : ∀ (w : Fin cfg1.W) (t : Fin cfg1.N) (a : Fin (cfg1.win w).shape.rank), (cfg1.win w).index t a = 0 := by
  decide +kernel

theorem off0 (w : Fin cfg1.W) (t : Fin cfg1.N) :
    (fun a => (cfg1.win w).index t a * (cfg1.win w).size a) = fun _ => 0 :=
  funext fun a => by rw [idx1 w t a, Nat.zero_mul]

section Region
variable (V : (c : Dev nD) → (b : Ref sig .tc) → Buf (Elt F) ((c : Thread nD τ).loc b))

-- Block `t` of array `w`, read off the contents `V`.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The proof data: `after` is the block for an input and `out1_20` of the blocks for the output.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => out1_20 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) (iblk1 V c 12 t)
        (iblk1 V c 13 t) (iblk1 V c 14 t) (iblk1 V c 15 t) (iblk1 V c 16 t) (iblk1 V c 17 t) (iblk1 V c 18 t) (iblk1 V c 19 t)
    | ⟨_ + 21, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem Phi1_eq (c : Dev nD) (t : Fin (cfg1.N + 1)) : (dat1 V c).Φ t = Pipeline.ΦA spec1 c := rfl

section Point
variable (c : Dev nD) (t : Fin cfg1.N)

theorem after1_20 : (dat1 V c).after 20 t
    = out1_20 ((dat1 V c).after 0 t) ((dat1 V c).after 1 t) ((dat1 V c).after 2 t) ((dat1 V c).after 3 t) ((dat1 V c).after 4 t) ((dat1 V c).after 5 t) ((dat1 V c).after 6 t)
        ((dat1 V c).after 7 t) ((dat1 V c).after 8 t) ((dat1 V c).after 9 t) ((dat1 V c).after 10 t) ((dat1 V c).after 11 t) ((dat1 V c).after 12 t) ((dat1 V c).after 13 t)
        ((dat1 V c).after 14 t) ((dat1 V c).after 15 t) ((dat1 V c).after 16 t) ((dat1 V c).after 17 t) ((dat1 V c).after 18 t) ((dat1 V c).after 19 t) := by
  dsimp only [dat1]

-- For every input `before` equals `after`: both are the array's block.
theorem before1_0 (d) : (dat1 V c).before 0 t d = (dat1 V c).after 0 t :=
  (dat1 V c).before_fetched 0 t (fetch1_0 t) d
theorem before1_1 (d) : (dat1 V c).before 1 t d = (dat1 V c).after 1 t :=
  (dat1 V c).before_fetched 1 t (fetch1_1 t) d
theorem before1_2 (d) : (dat1 V c).before 2 t d = (dat1 V c).after 2 t :=
  (dat1 V c).before_fetched 2 t (fetch1_2 t) d
theorem before1_3 (d) : (dat1 V c).before 3 t d = (dat1 V c).after 3 t :=
  (dat1 V c).before_fetched 3 t (fetch1_3 t) d
theorem before1_4 (d) : (dat1 V c).before 4 t d = (dat1 V c).after 4 t :=
  (dat1 V c).before_fetched 4 t (fetch1_4 t) d
theorem before1_5 (d) : (dat1 V c).before 5 t d = (dat1 V c).after 5 t :=
  (dat1 V c).before_fetched 5 t (fetch1_5 t) d
theorem before1_6 (d) : (dat1 V c).before 6 t d = (dat1 V c).after 6 t :=
  (dat1 V c).before_fetched 6 t (fetch1_6 t) d
theorem before1_7 (d) : (dat1 V c).before 7 t d = (dat1 V c).after 7 t :=
  (dat1 V c).before_fetched 7 t (fetch1_7 t) d
theorem before1_8 (d) : (dat1 V c).before 8 t d = (dat1 V c).after 8 t :=
  (dat1 V c).before_fetched 8 t (fetch1_8 t) d
theorem before1_9 (d) : (dat1 V c).before 9 t d = (dat1 V c).after 9 t :=
  (dat1 V c).before_fetched 9 t (fetch1_9 t) d
theorem before1_10 (d) : (dat1 V c).before 10 t d = (dat1 V c).after 10 t :=
  (dat1 V c).before_fetched 10 t (fetch1_10 t) d
theorem before1_11 (d) : (dat1 V c).before 11 t d = (dat1 V c).after 11 t :=
  (dat1 V c).before_fetched 11 t (fetch1_11 t) d
theorem before1_12 (d) : (dat1 V c).before 12 t d = (dat1 V c).after 12 t :=
  (dat1 V c).before_fetched 12 t (fetch1_12 t) d
theorem before1_13 (d) : (dat1 V c).before 13 t d = (dat1 V c).after 13 t :=
  (dat1 V c).before_fetched 13 t (fetch1_13 t) d
theorem before1_14 (d) : (dat1 V c).before 14 t d = (dat1 V c).after 14 t :=
  (dat1 V c).before_fetched 14 t (fetch1_14 t) d
theorem before1_15 (d) : (dat1 V c).before 15 t d = (dat1 V c).after 15 t :=
  (dat1 V c).before_fetched 15 t (fetch1_15 t) d
theorem before1_16 (d) : (dat1 V c).before 16 t d = (dat1 V c).after 16 t :=
  (dat1 V c).before_fetched 16 t (fetch1_16 t) d
theorem before1_17 (d) : (dat1 V c).before 17 t d = (dat1 V c).after 17 t :=
  (dat1 V c).before_fetched 17 t (fetch1_17 t) d
theorem before1_18 (d) : (dat1 V c).before 18 t d = (dat1 V c).after 18 t :=
  (dat1 V c).before_fetched 18 t (fetch1_18 t) d
theorem before1_19 (d) : (dat1 V c).before 19 t d = (dat1 V c).after 19 t :=
  (dat1 V c).before_fetched 19 t (fetch1_19 t) d

-- A block of full size at offset zero is the whole array.
theorem after1_0_eq : (dat1 V c).after 0 t = V c main_v12 :=
  View.ld_unit_zero (off0 0 t) _ _
theorem after1_1_eq : (dat1 V c).after 1 t = V c main_v9 :=
  View.ld_unit_zero (off0 1 t) _ _
theorem after1_2_eq : (dat1 V c).after 2 t = V c main_arg4 :=
  View.ld_unit_zero (off0 2 t) _ _
theorem after1_3_eq : (dat1 V c).after 3 t = V c main_v13 :=
  View.ld_unit_zero (off0 3 t) _ _
theorem after1_4_eq : (dat1 V c).after 4 t = V c main_arg6 :=
  View.ld_unit_zero (off0 4 t) _ _
theorem after1_5_eq : (dat1 V c).after 5 t = V c main_v14 :=
  View.ld_unit_zero (off0 5 t) _ _
theorem after1_6_eq : (dat1 V c).after 6 t = V c main_arg8 :=
  View.ld_unit_zero (off0 6 t) _ _
theorem after1_7_eq : (dat1 V c).after 7 t = V c main_v15 :=
  View.ld_unit_zero (off0 7 t) _ _
theorem after1_8_eq : (dat1 V c).after 8 t = V c main_arg10 :=
  View.ld_unit_zero (off0 8 t) _ _
theorem after1_9_eq : (dat1 V c).after 9 t = V c main_v16 :=
  View.ld_unit_zero (off0 9 t) _ _
theorem after1_10_eq : (dat1 V c).after 10 t = V c main_arg12 :=
  View.ld_unit_zero (off0 10 t) _ _
theorem after1_11_eq : (dat1 V c).after 11 t = V c main_v17 :=
  View.ld_unit_zero (off0 11 t) _ _
theorem after1_12_eq : (dat1 V c).after 12 t = V c main_v18 :=
  View.ld_unit_zero (off0 12 t) _ _
theorem after1_13_eq : (dat1 V c).after 13 t = V c main_v19 :=
  View.ld_unit_zero (off0 13 t) _ _
theorem after1_14_eq : (dat1 V c).after 14 t = V c main_v20 :=
  View.ld_unit_zero (off0 14 t) _ _
theorem after1_15_eq : (dat1 V c).after 15 t = V c main_v21 :=
  View.ld_unit_zero (off0 15 t) _ _
theorem after1_16_eq : (dat1 V c).after 16 t = V c main_v22 :=
  View.ld_unit_zero (off0 16 t) _ _
theorem after1_17_eq : (dat1 V c).after 17 t = V c main_v23 :=
  View.ld_unit_zero (off0 17 t) _ _
theorem after1_18_eq : (dat1 V c).after 18 t = V c main_v24 :=
  View.ld_unit_zero (off0 18 t) _ _
theorem after1_19_eq : (dat1 V c).after 19 t = V c main_v25 :=
  View.ld_unit_zero (off0 19 t) _ _

end Point

-- The triple at the blocks, its frame cancelled against the proof data.
theorem body_obligation1 (c : Dev nD) : BodyObligation (dat1 (F := F) V c) (defs₀ (F := F)) Variants.none () Set.univ := fun t => by
  rw [bigSep_W1, bigSep_W1]
  show _ ⊢ wp frame (wpE (defs₀ (F := F)) Variants.none c none) Set.univ (bodyAt1 t) _
  simp only [before1_0, before1_1, before1_2, before1_3, before1_4, before1_5, before1_6, before1_7, before1_8, before1_9, before1_10, before1_11, before1_12, before1_13, before1_14, before1_15, before1_16, before1_17, before1_18, before1_19]
  rw [show (dat1 V c).Φ t.succ = (dat1 V c).Φ t.castSucc from rfl,
    show (dat1 V c).owesAt () t.succ = (dat1 V c).owesAt () t.castSucc from rfl, after1_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel1
    ((dat1 V c).after 0 t) ((dat1 V c).after 1 t) ((dat1 V c).after 2 t) ((dat1 V c).after 3 t) ((dat1 V c).after 4 t) ((dat1 V c).after 5 t) ((dat1 V c).after 6 t)
    ((dat1 V c).after 7 t) ((dat1 V c).after 8 t) ((dat1 V c).after 9 t) ((dat1 V c).after 10 t) ((dat1 V c).after 11 t) ((dat1 V c).after 12 t) ((dat1 V c).after 13 t)
    ((dat1 V c).after 14 t) ((dat1 V c).after 15 t) ((dat1 V c).after 16 t) ((dat1 V c).after 17 t) ((dat1 V c).after 18 t) ((dat1 V c).after 19 t)
    c Set.univ (grid1.coords t) _ _ _ _ _ _ _ _ _ _ _ _ _ _ _ _ _ _ _ _ _ _ _ _ _ _ _ _ _ _ _ _ _ _ _ _ _ _ _ _ _ _ _)
  iframe H0 H1 H2 H3 H4 H5 H6 H7 H8 H9 H10 H11 H12 H13 H14 H15 H16 H17 H18 H19
  isplitl [H20]; · iexists _; iexact H20
  iintro ⟨⟨H0, H1, H2, H3, H4, H5, H6, H7, H8, H9, H10, H11, H12, H13, H14, H15, H16, H17, H18, H19⟩, H20⟩
  iframe

def res1 (c : Dev nD) : FVec F S5000x1 .f32 :=
  K1 (V c main_v12) (V c main_v9) (V c main_arg4) (V c main_v13) (V c main_arg6) (V c main_v14) (V c main_arg8)
    (V c main_v15) (V c main_arg10) (V c main_v16) (V c main_arg12) (V c main_v17) (V c main_v18) (V c main_v19)
    (V c main_v20) (V c main_v21) (V c main_v22) (V c main_v23) (V c main_v24) (V c main_v25)

theorem after1_20_res (c : Dev nD) (t : Fin cfg1.N) : (dat1 V c).after 20 t = res1 V c := by
  rw [after1_20, out1_20_eq, after1_0_eq, after1_1_eq, after1_2_eq, after1_3_eq, after1_4_eq, after1_5_eq, after1_6_eq, after1_7_eq, after1_8_eq, after1_9_eq, after1_10_eq, after1_11_eq, after1_12_eq, after1_13_eq, after1_14_eq, after1_15_eq, after1_16_eq, after1_17_eq, after1_18_eq, after1_19_eq]
  rfl

theorem flushed1_20_eq (c : Dev nD) (t : Fin cfg1.N) :
    (dat1 V c).flushed 20 t = ((cfg1.win 20).blk t).view.read (Elt F) (res1 V c) :=
  (after1_20_res V c t).trans
    (View.ld_unit_zero (S := S5000x1) (Val := Elt F) (e := .f32) (off0 20 t) _ (res1 V c)).symm

theorem cover1_out (i : S5000x1.Idx) :
    ∃ t : Fin cfg1.N, (cfg1.win 20).flush t = true ∧ i ∈ ((cfg1.win 20).blk t).view.set :=
  ⟨t1_0, flush1_20 t1_0, by
    show i ∈ ((View.whole main_v26).slice (win1_20.rect t1_0)).set
    rw [View.set_slice_whole]; exact View.mem_set_unit_zero (off0 20 t1_0) _ i⟩

-- The one point's block is the whole result, so the result array is `K1` of the twenty arrays.
theorem arrAt1_out (c : Dev nD) : (dat1 V c).arrAt 20 cfg1.N
    = K1 (V c main_v12) (V c main_v9) (V c main_arg4) (V c main_v13) (V c main_arg6) (V c main_v14) (V c main_arg8)
        (V c main_v15) (V c main_arg10) (V c main_v16) (V c main_arg12) (V c main_v17) (V c main_v18) (V c main_v19)
        (V c main_v20) (V c main_v21) (V c main_v22) (V c main_v23) (V c main_v24) (V c main_v25) :=
  (dat1 V c).arrAt_eq_of_cover 20 (res1 V c) (fun t _ => flushed1_20_eq V c t) (fun i => cover1_out i)

end Region

end Cert.Kernel.Hand

end
-- ==== Proof.K.Run.lean ====
import proofs.«404605_j2911987826902_2_alg».proof.Proof.K.RunCond
import proofs.«404605_j2911987826902_2_alg».proof.Proof.K.Region0
import proofs.«404605_j2911987826902_2_alg».proof.Proof.K.Region1

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat RegionSeg BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VA : (c : Dev nD) → (b : Ref sig .tc) → Buf (Elt F) ((c : Thread nD τ).loc b) := fun c b => V4 m c b

def out5 (c : Dev nD) : Buf (Elt F) ((c : Thread nD τ).loc main_v12) := (dat0 (VA m) c).arrAt 3 cfg0.N

def outsA : Outs (F := F) := fun _ r c => if h : r = main_v12 then h ▸ out5 m c else m ((c : Thread nD τ).loc r)

theorem outsA_v12 (n : ℕ) (c : Dev nD) : outsA m n main_v12 c = out5 m c := by
  unfold outsA; rw [dif_pos rfl]

abbrev VB : (c : Dev nD) → (b : Ref sig .tc) → Buf (Elt F) ((c : Thread nD τ).loc b) := fun c b => V6 m (outsA m) c b

def out7 (c : Dev nD) : Buf (Elt F) ((c : Thread nD τ).loc main_v26) := (dat1 (VB m) c).arrAt 20 cfg1.N

def outsB : Outs (F := F) := fun n r c => if h : r = main_v26 then h ▸ out7 m c else outsA m n r c

theorem outsB_v26 (n : ℕ) (c : Dev nD) : outsB m n main_v26 c = out7 m c := by
  unfold outsB; rw [dif_pos rfl]

theorem outsB_v12 (n : ℕ) (c : Dev nD) : outsB m n main_v12 c = out5 m c := by
  unfold outsB; rw [dif_neg (by decide), outsA_v12]

-- The second region's output is not read before the second region.
theorem V6_outsB (c : Dev nD) : V6 m (outsB m) c = V6 m (outsA m) c := by
  unfold V6 V5; rw [outsB_v12, outsA_v12]

def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c

set_option backward.isDefEq.respectTransparency.types false in
-- The record of region `p`, entered with the buffers at `Vi` and left with them at `Vo`: `Vi` off the output array `wo`, the final contents on it.
def reg (p : Fin 2) (lf : Pipeline.LaunchFacts (nD := nD) (τ := τ) cfgs p) (Vi Vo : (c : Dev nD) → Valuation τ sig (Elt F))
    (hb : ∀ c, BodyObligation (pdats m p c) defs₀ 𝒱₀ () Set.univ)
    (hw : ∀ c t, (pdats m p c).owed t = 0) (hrec : ∀ c x, x ∈ (pdats m p c).recorded 0) (hq : ∀ c w, (pdats m p c).q w = fullShare)
    (hA : ∀ c w, (pdats m p c).A w = Vi c (Pipeline.arrRef (cfgs p).spec w))
    (hΦ : ∀ c, Pipeline.ΦA (cfgs p).spec c ⊢ (pdats m p c).Φ 0)
    (hΦ' : ∀ c, (pdats m p c).Φ (Fin.last _) ⊢ Pipeline.ΦA (cfgs p).spec c)
    (wo : Fin (cfgs p).W) (hI : ∀ w, w ≠ wo → ((cfgs p).win w).isOut = false)
    (hO : ∀ c, (pdats m p c).arrAt wo (cfgs p).N = Vo c (Pipeline.arrRef (cfgs p).spec wo))
    (hr : ∀ c (b : Ref sig .tc), b ∉ [Pipeline.arrRef (cfgs p).spec wo] → Vo c b = Vi c b) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hw
  pre c := T (Vi c) c
  post c := T (Vo c) c
  X c := iprop(∃ r, prngReg c r)
  Y c := iprop(∃ r, prngReg c r)
  Z c := Pipeline.unscopedRest (cfgs p).spec c fun b => Vi c b
  hentry c := by
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, %W, HO⟩, -, -⟩
    ihave ⟨Ha, Hrest⟩ := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hw c]
      iexists W; isplitr; · ipureintro; exact fun x _ => Or.inl (hrec c x)
      iexact HO
    isplitl [Hp]; · iexact Hp
    iexact Hrest
  hin c := by
    refine BIBase.Entails.trans ?_ (hΦ c)
    unfold Pipeline.ΦA
    iintro ⟨Hp, -, Hr⟩
    isplitl [Hr]; · iexact Hr
    iexact Hp
  hout c := by
    rw [Pipeline.ownSems0_none]
    refine (hΦ' c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m) ((pdats m p c).share_full (hq c))
      (fun b => Vi c b) (fun b => Vo c b) ((pdats m p c).arrAt · (cfgs p).N)
      (fun w => by
        by_cases h : w = wo
        · subst h; exact hO c
        · exact (((pdats m p c).arrAt_in w (hI w h) _).trans (hA c w)).trans
            (hr c _ fun h' => h (lf.win.arr_inj (List.mem_singleton.mp h'))).symm)
      fun b hb => hr c b fun h => hb (Finset.mem_image.mpr ⟨wo, Finset.mem_univ _, (List.mem_singleton.mp h).symm⟩)
    rw [Pipeline.unscopedBufs_held] at hjoin
    iintro ⟨Ha, ⟨%W, -, HO⟩, HY, Hrest⟩
    rw [hw c]
    imodintro
    isplitl [Ha Hrest]
    · iapply hjoin; isplitl [Ha] <;> iassumption
    isplitl [HY]; · iexact HY
    iexists W; iexact HO

def reg0 := reg m 0 launch0 (V4 m) (V5 m (outsB m)) (body_obligation0 (VA m)) (fun _ _ => rfl) (fun _ _ => trivial) (fun _ _ => rfl) (A_eq0 (VA m))
  (hin0 (VA m)) (hout0 (VA m)) (3 : Fin 4) (by decide)
  (fun c => by show _ = V5 m (outsB m) c main_v12; simp only [V5, Function.update_self, outsB_v12]; rfl) fun c => V5_of m _ c

def reg1 := reg m 1 launch1 (V6 m (outsB m)) (V7 m (outsB m)) (body_obligation1 (VB m)) (fun _ _ => rfl) (fun _ _ => trivial) (fun _ _ => rfl)
  (fun c w => (A_eq1 (VB m) c w).trans (congrFun (V6_outsB m c) _).symm)
  (fun c => Entails.of_eq (Phi1_eq (VB m) c 0).symm) (fun c => Entails.of_eq (Phi1_eq (VB m) c _))
  (20 : Fin 21) (by decide)
  (fun c => by show _ = V7 m (outsB m) c main_v26; simp only [V7, Function.update_self, outsB_v26]; rfl) fun c => V7_of m _ c

theorem run_main : θ_run defs (onTc (τ := τ) (main (F := F))) ⟨m, fun _ => 0, ρ⟩ (fun r => ∀ c : Dev nD,
      r.2.mem ((c.tc : Thread nD τ).loc main_v26) = out7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  refine (θ_run defs _ _).mono (fun r hr c => ?_)
    (run_cond m ρ (outsB m) (pdats m) (reg0 m) (reg1 m) (fun _ => .rfl) (fun _ => .rfl) (fun _ => .rfl) (fun _ => .rfl))
  have A {b : Ref sig .tc} {x} (e : V7 m (outsB m) c b = x) (hb : ¬ (Proc.devRef (τ := τ) .tc b).isScoped := by decide) :
      r.2.mem ((c.tc : Thread nD τ).loc b) = x :=
    (hr c _ (Finset.mem_filter.mpr ⟨StableHlo.devRef_mem_tcRefs b, hb⟩)).trans e
  exact ⟨A ((V7_main_v26 m _ c).trans (outsB_v26 m 7 c)),
    A (V7_main_arg0 m _ c), A (V7_main_arg1 m _ c), A (V7_main_arg2 m _ c), A (V7_main_arg3 m _ c),
    A (V7_main_arg4 m _ c), A (V7_main_arg5 m _ c), A (V7_main_arg6 m _ c), A (V7_main_arg7 m _ c),
    A (V7_main_arg8 m _ c), A (V7_main_arg9 m _ c), A (V7_main_arg10 m _ c), A (V7_main_arg11 m _ c),
    A (V7_main_arg12 m _ c), A (V7_main_arg13 m _ c), A (V7_main_arg14 m _ c), A (V7_main_arg15 m _ c),
    A (V7_main_arg16 m _ c), A (V7_main_arg17 m _ c), A (V7_main_arg18 m _ c), A (V7_main_arg19 m _ c),
    A (V7_main_arg20 m _ c), A (V7_main_arg21 m _ c)⟩

end Cert.Kernel.Hand

end
-- ==== Proof.KI.RunCond.lean ====
import proofs.«404605_j2911987826902_2_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

theorem V7_main_v26 (c : Dev nD) : V7 m outs c main_v26 = outs 7 main_v26 c := by
  simp only [V7, Function.update_self]

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
-- The assertion carried from one item of the chain to the next: the unscoped buffers at `V`, beside `R`.
abbrev T (V : Valuation τ sig (Elt F)) (c : Dev nD) : sProp 𝕄 := iprop(StableHlo.held (c : Thread nD τ) (Pipeline.ucRefs τ sig) V ∗ R c)

set_option backward.isDefEq.respectTransparency.types false in
-- The chain of items from the two regions' records: at the end every unscoped buffer holds the last valuation.
theorem run_cond (pdats : (p : Fin 2) → (c : Dev nD) → Dat τ (Elt F) Unit ℕ (UR sig nD τ) ℕ (cfgs p) c)
    (R0 : RegionSeg (pcfgs (F := F)) adm pdats () defs₀ 𝒱₀ L lv 0) (R1 : RegionSeg (pcfgs (F := F)) adm pdats () defs₀ 𝒱₀ L lv 1)
    (h0 : ∀ c, T (V4 m c) c ⊢ R0.pre c) (h0' : ∀ c, R0.post c ⊢ T (V5 m outs c) c)
    (h1 : ∀ c, T (V6 m outs c) c ⊢ R1.pre c) (h1' : ∀ c, R1.post c ⊢ T (V7 m outs c) c) :
    θ_run defs (onTc (τ := τ) (main (F := F))) ⟨m, fun _ => 0, ρ⟩ fun r => ∀ (c : Dev nD), ∀ b ∈ Pipeline.ucRefs τ sig,
      r.2.mem ((c : Thread nD τ).1, b) = V7 m outs c b := by
  refine Pipeline.θ_run_regions_kit_dev (pcfgs (F := F)) adm pdats () cellOf_inj emb₁ defs₀ 𝒱₀ L lv m ρ main
    (segs m outs 𝒱₀ L lv (fun _ => R) () pdats R0 R1)
    (fun c Q => by
      rewrite [main_chain c, Seg.run_eq_chain,
        show (segs m outs 𝒱₀ L lv (fun _ => R) () pdats R0 R1 c).map Seg.prog = [
          StableHlo.seq hostOps0, StableHlo.seq hostOps0_1, StableHlo.seq hostOps0_2, StableHlo.seq hostOps0_3,
          Prog.lift (.customCall (Pipeline.entry 0) ()), StableHlo.seq hostOps1, Prog.lift (.customCall (Pipeline.entry 1) ())] from rfl]
      exact .rfl)
    (fun c => by simp only [segs, Seg.pipes_host, Seg.pipes_region, Seg.pipes_nil]; decide) 0 (fun _ _ => rfl) (fun _ => BI.emp)
    (initOf (Pipeline.cells cfgs cellOf_inj) (Pipeline.launchToks cfgs cellOf_inj)) ?_
    (T₀ := fun c => T (V0 m c) c)
    (Tₙ := fun c => StableHlo.held (c : Thread nD τ) (Pipeline.ucRefs τ sig) (V7 m outs c))
    (hch := fun c => ⟨.rfl, .rfl, .rfl, .rfl, h0 c, h0' c, h1 c, (h1' c).trans (sep_mono .rfl (by iintro ⟨-, HO⟩; iexact HO))⟩)
    (hinit := Pipeline.initEach L lv fun c => ?_)
    (QY := fun c s => ∀ b ∈ Pipeline.ucRefs τ sig, s.mem ((c : Thread nD τ).1, b) = V7 m outs c b)
    (hfin := fun c s' => (pointsTo_read_all (Pipeline.ucRefs τ sig) (fun b => ((c : Thread nD τ).1, b)) (V7 m outs c) s').trans fupd_intro)
    (hQ := fun _ h => h)
  · rw [BI.bigSep_emp_const, ownU_emb₁]
    iintro Hu; imodintro
    isplitl [Hu]; · iexact Hu
    iempintro
  · rw [T, ← Pipeline.unscopedBufs_held c (V0 m c)]
    iintro ⟨⟨Hb, -, HO, -, Hp, -⟩, -⟩
    imodintro
    isplitl [Hb]; · iexact Hb
    isplitl [Hp]; · iexists _; iexact Hp
    iexists ∅; iexact HO

end Cert.KernelIdeal.Hand

end
-- ==== Proof.KI.Region0Runs.lean ====
import proofs.«404605_j2911987826902_2_alg».proof.Proof.Gen.KernelIdeal.Launch
import proofs.«404605_j2911987826902_2_alg».proof.Proof.Gen.KernelIdeal.Skeleton
import proofs.«404605_j2911987826902_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem lt0 (t : Fin cfg0.N) : t.val < 12500 := lt_of_lt_of_eq t.isLt (show cfg0.N = 12500 from N_0)

theorem coords0_val (t : Fin cfg0.N) : (grid0.coords t 0).val = t.val := by
  have hN := lt0 t
  show t.val / grid0.stride 0 % 12500 = t.val
  rw [show grid0.stride 0 = 1 from by decide, Nat.div_one, Nat.mod_eq_of_lt hN]

-- Two naturals below 2 ^ 32 are equal exactly when the comparison word built from them is set.
theorem cmp_chain_iff (n k : ℕ) (hn : n < 2 ^ 32) (hk : k < 2 ^ 32) :
    (Scalar.cmpi .ne (Scalar.extui (Scalar.cmpi .eq (BitVec.ofNat 32 n) (BitVec.ofNat 32 k))) 0#32) = 1#1 ↔ n = k := by
  rw [Scalar.guard_iff, Scalar.cmpi, IntOp.cmpi_eq, ← BitVec.toNat_inj, BitVec.toNat_ofNat, BitVec.toNat_ofNat,
    Nat.mod_eq_of_lt hn, Nat.mod_eq_of_lt hk]

abbrev cond0_0 (i : grid0.Coords) : Prop := (Scalar.cmpi .ne (Scalar.extui (Scalar.cmpi .eq (BitVec.ofNat 32 (i 0).val) 0#32)) 0#32) = 1#1
theorem hcond0_0 (t : Fin cfg0.N) : cond0_0 (grid0.coords t) ↔ t.val = 0 := by
  have hN := lt0 t
  unfold cond0_0; rw [coords0_val]
  exact cmp_chain_iff t.val 0 (by omega) (by omega)

abbrev cond0_1 (i : grid0.Coords) : Prop := k0_cond2 i = 1#1
theorem hcond0_1 (t : Fin cfg0.N) : cond0_1 (grid0.coords t) ↔ t.val = 12499 := by
  have hN := lt0 t
  unfold cond0_1 k0_cond2; dsimp only; rw [coords0_val]
  exact cmp_chain_iff t.val 12499 (by omega) (by omega)

theorem idle0_3_iff (i : grid0.Coords) : cfg0.idle 3 i = true ↔ ¬cond0_1 i := by
  show (!(k0_cond2 i == 1#1)) = true ↔ ¬(k0_cond2 i = 1#1)
  simp

theorem noFlush0_3 (t : Fin cfg0.N) (h1 : ¬cond0_1 (grid0.coords t)) : (cfg0.win 3).flush t = false := by
  have hN := lt0 t
  exact Bool.not_eq_true _ ▸ fun hf => h1 ((hcond0_1 t).mpr (by have := (flush0_3 t).mp hf; omega))

abbrev ms0_0 (t : Fin cfg0.N) : Memref sig .tc .vmem S1x640 .i32 := win0_0.stage (cfg0.slots t 0)
abbrev ms0_1 (t : Fin cfg0.N) : Memref sig .tc .vmem S1x640 .f32 := win0_1.stage (cfg0.slots t 1)
abbrev ms0_2 (t : Fin cfg0.N) : Memref sig .tc .vmem S640x10 .f32 := win0_2.stage (cfg0.slots t 2)
abbrev ms0_3 (t : Fin cfg0.N) : Memref sig .tc .vmem S5000x10 .f32 := win0_3.stage (cfg0.slots t 3)
abbrev scM0_0 : Memref sig .tc .vmem S5000x10 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0_0, owns_whole]; try rfl

theorem hz2 : (![0, 0] : Fin 2 → ℕ) = fun _ => 0 := by
  funext a; fin_cases a <;> rfl

-- A store over the whole shape, made last, is what is read afterwards, whatever was stored before.
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ fun y => ⟨_, List.mem_cons.mpr (.inl rfl), View.mem_set_unit_zero h inb y⟩,
    View.canon_cons_unit_zero h]

section Body
variable (c : Dev nD) (i : grid0.Coords) {arg1 : Memref sig .tc .vmem S1x640 .i32} (harg1 : arg1.IsWhole)
  {arg2 : Memref sig .tc .vmem S1x640 .f32} (harg2 : arg2.IsWhole) {arg3 : Memref sig .tc .vmem S640x10 .f32} (harg3 : arg3.IsWhole)
  {arg4 arg5 : Memref sig .tc .vmem S5000x10 .f32} (harg4 : arg4.IsWhole) (harg5 : arg5.IsWhole)
  (x0 : Vec F S1x640 .i32) (x1 : Vec F S1x640 .f32) (x2 : Vec F S640x10 .f32) (xs0 xi3 : Vec F S5000x10 .f32)

set_option maxHeartbeats 1000000 in
-- The body updates the fifth buffer by `x0 x1 x2` (from zero where the first guard holds) and, where the second holds, copies it to the fourth.
theorem run0 (hi : ¬(cond0_0 i ∧ cond0_1 i)) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs0
        ∗ (iprop(owns (c : Thread nD τ) arg1 fullShare x0 ∗ owns (c : Thread nD τ) arg2 fullShare x1 ∗ owns (c : Thread nD τ) arg3 fullShare x2
            ∗ owns (c : Thread nD τ) arg4 fullShare (if cond0_1 i then k0_pay2 x0 x1 x2 (if cond0_0 i then k0_pay1 else xs0) else xi3)
            ∗ owns (c : Thread nD τ) arg5 fullShare (k0_pay2 x0 x1 x2 (if cond0_0 i then k0_pay1 else xs0))) -∗ K ⟨⟩))
      ⊢ wp frame (wpE (defs₀ (F := F)) Variants.none c none) E (cc0__edge_agg_kernel i arg1 harg1 arg2 harg2 arg3 harg3 arg4 harg4 arg5 harg5) K := by
  by_cases hc0 : cond0_0 i <;> by_cases hc1 : cond0_1 i
  · exact absurd ⟨hc0, hc1⟩ hi
  all_goals
    first | rw [if_pos hc0] | rw [if_neg hc0]
    first | rw [if_pos hc1] | rw [if_neg hc1]
    simp only [cc0__edge_agg_kernel_eq_skeleton]; unfold cc0__edge_agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      first
        | (sl_unfold_words; rw [read_store_whole _ _ hz2]
           simp only [View.readAt_eq_ld, Memref.IsWhole.read_unread, View.ld_unit_zero (S := S1x640) hz2, View.ld_unit_zero (S := S640x10) hz2,
    View.ld_unit_zero (S := S5000x10) hz2, View.readCov_unit_zero (S := S5000x10) _ hz2])
        | exact harg4.read_unread _
    iexists _; isplitr; swap; · iexact HS0
    ipureintro; sl_unfold_words; rw [read_store_whole _ _ hz2]
    simp only [View.readAt_eq_ld, Memref.IsWhole.read_unread, View.ld_unit_zero (S := S1x640) hz2, View.ld_unit_zero (S := S640x10) hz2,
    View.ld_unit_zero (S := S5000x10) hz2, View.readCov_unit_zero (S := S5000x10) _ hz2]

end Body

end Cert.KernelIdeal.Hand

end
-- ==== Proof.KI.Region0.lean ====
import proofs.«404605_j2911987826902_2_alg».proof.Proof.KI.Region0Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def accAt0 (c : Dev nD) : (n : ℕ) → n < cfg0.N → Vec F S5000x10 .f32
  | 0, h => k0_pay2 (iblk0 V c 0 ⟨0, h⟩) (iblk0 V c 1 ⟨0, h⟩) (iblk0 V c 2 ⟨0, h⟩) (k0_pay1 (F := F))
  | n + 1, h => k0_pay2 (iblk0 V c 0 ⟨n + 1, h⟩) (iblk0 V c 1 ⟨n + 1, h⟩) (iblk0 V c 2 ⟨n + 1, h⟩) (accAt0 c n (Nat.lt_of_succ_lt h))

theorem accAt0_zero (c : Dev nD) (h : 0 < cfg0.N) :
    accAt0 V c 0 h = k0_pay2 (iblk0 V c 0 ⟨0, h⟩) (iblk0 V c 1 ⟨0, h⟩) (iblk0 V c 2 ⟨0, h⟩) (k0_pay1 (F := F)) := rfl

theorem accAt0_succ (c : Dev nD) (n : ℕ) (h : n + 1 < cfg0.N) :
    accAt0 V c (n + 1) h = k0_pay2 (iblk0 V c 0 ⟨n + 1, h⟩) (iblk0 V c 1 ⟨n + 1, h⟩) (iblk0 V c 2 ⟨n + 1, h⟩) (accAt0 V c n (Nat.lt_of_succ_lt h)) := rfl

-- One point's update, over the zero accumulator at the first point and over the previous point's otherwise, is the recursion's step.
theorem accAt0_step (c : Dev nD) (t : Fin cfg0.N) (xs0 : Vec F S5000x10 .f32) (hx : ∀ m (hm : m < cfg0.N), t.val = m + 1 → xs0 = accAt0 V c m hm) :
    k0_pay2 (iblk0 V c 0 t) (iblk0 V c 1 t) (iblk0 V c 2 t) (if cond0_0 (grid0.coords t) then k0_pay1 else xs0) = accAt0 V c t.val t.isLt := by
  obtain ⟨n, hn⟩ := t
  cases n with
  | zero => rw [if_pos ((hcond0_0 ⟨0, hn⟩).mpr rfl)]; rfl
  | succ n => rw [if_neg fun h => Nat.succ_ne_zero n ((hcond0_0 ⟨n + 1, hn⟩).mp h), hx n (Nat.lt_of_succ_lt hn) rfl]; rfl

-- Before position `n` the accumulator holds `accAt0` of `n - 1`; before the first it may hold anything.
def PhiS (c : Dev nD) (n : ℕ) (h : n ≤ cfg0.N) : sProp 𝕄 :=
  iprop(iprop((∃ xs0, ⌜∀ m (hm : m < cfg0.N), n = m + 1 → xs0 = accAt0 V c m hm⌝ ∗ owns (c : Thread nD τ) scM0_0 fullShare xs0) ∗ rest0 (F := F) c)
    ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => accAt0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := rfl

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨fun d => ?_, fun d => ?_, fun d => ?_⟩ <;>
  exact ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t)) := by
  have hN := lt0 t
  have hi : ¬(cond0_0 (grid0.coords t) ∧ cond0_1 (grid0.coords t)) := fun h => by
    have h0 := (hcond0_0 t).mp h.1; have h1 := (hcond0_1 t).mp h.2; omega
  unfold bodyAt0
  simp only [(before0 V c t).1, (before0 V c t).2.1, (before0 V c t).2.2]
  rw [show (dat0 V c).owesAt () t.succ = (dat0 V c).owesAt () t.castSucc from rfl,
    show (dat0 V c).Φ t.castSucc = PhiS V c t.val (Nat.le_of_lt t.isLt) from rfl,
    show (dat0 V c).Φ t.succ = PhiS V c (t.val + 1) t.isLt from rfl]
  unfold PhiS
  iintro ⟨⟨⟨⟨%xs0, %hx, HS0⟩, HR⟩, Hg⟩, Ho, ⟨%d0, H0⟩, ⟨%d1, H1⟩, ⟨%d2, H2⟩, ⟨%d3, H3⟩⟩
  iapply (run0 c (grid0.coords t) _ _ _ _ (Memref.isWhole_whole _) (iblk0 V c 0 t) (iblk0 V c 1 t) (iblk0 V c 2 t) xs0 _ hi Set.univ _)
  isplitl [H0]; · iexact H0
  isplitl [H1]; · iexact H1
  isplitl [H2]; · iexact H2
  isplitl [H3]; · iexact H3
  isplitl [HS0]; · iexact HS0
  rw [accAt0_step V c t xs0 hx]
  iintro ⟨H0, H1, H2, H3, HS0⟩
  isplitl [HS0 HR Hg]
  · isplitl [HS0 HR]
    · isplitl [HS0]
      · iexists _; isplitr; swap; · iexact HS0
        ipureintro; intro m hm e; obtain rfl := Nat.succ.inj e; rfl
      iexact HR
    iexact Hg
  isplitl [Ho]; · iexact Ho
  isplitl [H0]; · iexact H0
  isplitl [H1]; · iexact H1
  isplitl [H2]; · iexact H2
  by_cases h1 : cond0_1 (grid0.coords t)
  · rw [if_pos h1, show (dat0 V c).leavesExact 3 t = owns (c : Thread nD τ) (ms0_3 t) fullShare ((dat0 V c).after 3 t) from by
        unfold Dat.leavesExact; rw [Bool.eq_false_iff.mpr fun h => (idle0_3_iff (grid0.coords t)).mp h h1],
      show (dat0 V c).after 3 t = accAt0 V c t.val t.isLt from rfl]
    iexact H3
  · rw [if_neg h1, Dat.leavesExact_idle (dat0 V c) 3 t ((idle0_3_iff _).mpr h1) (noFlush0_3 t h1)]
    iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiA0_eq]
  unfold PhiS
  iintro ⟨⟨⟨%d, HS0⟩, HR⟩, Hg⟩
  isplitl [HS0 HR]
  · isplitl [HS0]
    · iexists d; isplitr; · ipureintro; intro m hm e; exact absurd e (Nat.succ_ne_zero m).symm
      iexact HS0
    iexact HR
  iexact Hg

theorem hout0 (c : Dev nD) : (dat0 V c).Φ (Fin.last cfg0.N) ⊢ Pipeline.ΦA spec0 c := by
  rw [show (dat0 V c).Φ (Fin.last cfg0.N) = PhiS V c cfg0.N (Nat.le_refl _) from rfl, PhiA0_eq]
  unfold PhiS
  iintro ⟨⟨⟨%xs0, -, HS0⟩, HR⟩, Hg⟩
  isplitl [HS0 HR]
  · isplitl [HS0]
    · iexists _; iexact HS0
    iexact HR
  iexact Hg

theorem lt_N0 : 12499 < cfg0.N := by have : cfg0.N = 12500 := N_0; omega

theorem index0_3 (t : Fin cfg0.N) (a : Fin 2) : win0_3.index t a = 0 := by
  fin_cases a <;> rfl

theorem mem_blk3_all (t : Fin cfg0.N) (i : S5000x10.Idx) : i ∈ ((cfg0.win 3).blk t).view.set := by
  show i ∈ ((View.whole main_v12).slice (win0_3.rect t)).set
  rw [View.set_slice_whole, Rect.mem_set_unit]
  intro a
  show win0_3.index t a * S5000x10.size a ≤ (i a).val ∧ (i a).val < win0_3.index t a * S5000x10.size a + S5000x10.size a
  rw [index0_3]
  have hi := (i a).isLt
  omega

theorem flushed3_eq (c : Dev nD) (t : Fin cfg0.N) (hf : (cfg0.win 3).flush t = true) :
    (dat0 V c).flushed 3 t = ((cfg0.win 3).blk t).view.read (Elt F) (accAt0 V c 12499 lt_N0) := by
  have hN := lt0 t
  have ht : t.val = 12499 := by have := (flush0_3 t).mp hf; omega
  obtain ⟨n, hn⟩ := t
  dsimp only at ht
  subst ht
  funext j
  show accAt0 V c 12499 hn j = accAt0 V c 12499 lt_N0 (((cfg0.win 3).blk ⟨12499, hn⟩).view.emb j)
  refine congrArg (accAt0 V c 12499 hn) ?_
  funext a; apply Fin.ext
  show (j a).val = win0_3.index ⟨12499, hn⟩ a * S5000x10.size a + 1 * (j a).val
  rw [index0_3]; omega

-- The fourth array after the last point is the last accumulator.
theorem arrAt0_out (c : Dev nD) : (dat0 V c).arrAt 3 cfg0.N = accAt0 V c 12499 lt_N0 :=
  (dat0 V c).arrAt_eq_of_cover 3 (accAt0 V c 12499 lt_N0) (fun t hf => flushed3_eq V c t hf)
    (fun i => ⟨⟨12499, lt_N0⟩, (flush0_3 ⟨12499, lt_N0⟩).mpr rfl, mem_blk3_all ⟨12499, lt_N0⟩ i⟩)

theorem N0' : cfg0.N = 12500 := N_0

end Regions

end Cert.KernelIdeal.Hand

end
-- ==== Proof.KI.K1.lean ====
import proofs.«404605_j2911987826902_2_alg».proof.Proof.Gen.KernelIdeal.Skeleton

noncomputable section

namespace Cert.KernelIdeal.Hand

open Idealize.ShloMosaic Cert.KernelIdeal Cert.KernelIdeal.Gen

variable {F : FTy → Type} [FloatOps F]

-- The result as one function of twenty arguments: the composition of the pure stages.
def K1 (x0 : Vec F S5000x10 .f32) (x1 : Vec F S5000x1 .f32) (x2 : Vec F S10x10 .f32) (x3 : Vec F S1x10 .f32)
    (x4 : Vec F S10x10 .f32) (x5 : Vec F S1x10 .f32) (x6 : Vec F S10x10 .f32) (x7 : Vec F S1x10 .f32)
    (x8 : Vec F S10x10 .f32) (x9 : Vec F S1x10 .f32) (x10 : Vec F S1x10 .f32) (x11 : Vec F S1x1 .f32)
    (x12 x13 x14 x15 x16 x17 x18 x19 : Vec F S1x10 .f32) : FVec F S5000x1 .f32 :=
  k1_pay1 (k1_pay4 (k1_pay2 x0 x1 x2 x3 x12) (k1_pay3 x13) x4 x5 x14 x15)
    (k1_pay6 (k1_pay5 (k1_pay2 x0 x1 x2 x3 x12) (k1_pay3 x13) x4 x5 x14 x15 x6) x7 x16 x17 x8 x9)
    (k1_pay7 x18) x19 x10 x11

end Cert.KernelIdeal.Hand

end
-- ==== Proof.KI.Region1.lean ====
import proofs.«404605_j2911987826902_2_alg».proof.Proof.Gen.KernelIdeal.Launch
import proofs.«404605_j2911987826902_2_alg».proof.Proof.Gen.KernelIdeal.Skeleton
import proofs.«404605_j2911987826902_2_alg».proof.Proof.Gen.KernelIdeal.Points
import proofs.«404605_j2911987826902_2_alg».proof.Proof.KI.K1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rPool1 : Rect S5000x10 := Rect.unit (s := S5000x10) ![0, 0] S5000x10.size inb_S5000x10_S5000x10_0_0
abbrev rCol1 : Rect S5000x1 := Rect.unit (s := S5000x1) ![0, 0] S5000x1.size inb_S5000x1_S5000x1_0_0
abbrev rMat1 : Rect S10x10 := Rect.unit (s := S10x10) ![0, 0] S10x10.size inb_S10x10_S10x10_0_0
abbrev rRow1 : Rect S1x10 := Rect.unit (s := S1x10) ![0, 0] S1x10.size inb_S1x10_S1x10_0_0
abbrev rOne1 : Rect S1x1 := Rect.unit (s := S1x1) ![0, 0] S1x1.size inb_S1x1_S1x1_0_0

section Body
variable (x0 : Vec F S5000x10 .f32) (x1 : Vec F S5000x1 .f32) (x2 : Vec F S10x10 .f32) (x3 : Vec F S1x10 .f32)
    (x4 : Vec F S10x10 .f32) (x5 : Vec F S1x10 .f32) (x6 : Vec F S10x10 .f32) (x7 : Vec F S1x10 .f32)
    (x8 : Vec F S10x10 .f32) (x9 : Vec F S1x10 .f32) (x10 : Vec F S1x10 .f32) (x11 : Vec F S1x1 .f32)
    (x12 x13 x14 x15 x16 x17 x18 x19 : Vec F S1x10 .f32)

-- The written contents as one piece over the whole rectangle: `K1` of the whole-rectangle loads.
def out1_20 : Vec F S5000x1 .f32 :=
  View.canon [⟨rCol1, K1 (View.ld x0 rPool1) (View.ld x1 rCol1) (View.ld x2 rMat1) (View.ld x3 rRow1)
    (View.ld x4 rMat1) (View.ld x5 rRow1) (View.ld x6 rMat1) (View.ld x7 rRow1) (View.ld x8 rMat1) (View.ld x9 rRow1)
    (View.ld x10 rRow1) (View.ld x11 rOne1) (View.ld x12 rRow1) (View.ld x13 rRow1) (View.ld x14 rRow1) (View.ld x15 rRow1)
    (View.ld x16 rRow1) (View.ld x17 rRow1) (View.ld x18 rRow1) (View.ld x19 rRow1)⟩]

-- The whole rectangle covers every index.
theorem cover1_20 (p0 : Vec F S5000x1 .f32) (y : S5000x1.Idx) :
    ∃ pc ∈ ([⟨rCol1, p0⟩] : List (View.Piece (Elt F) S5000x1 .f32)), y ∈ pc.1.set :=
  View.cover_of_tiled [⟨rCol1, p0⟩] S5000x1.size (by rfl) y

-- The body's triple: the inputs are kept and the output ends as `out1_20` of them.
theorem sound_kernel1 (c : Dev nD) (E : Set ℕ) (i : grid1.Coords)
    (arg1 : Memref sig .tc .vmem S5000x10 .f32) (arg2 arg21 : Memref sig .tc .vmem S5000x1 .f32) (arg3 arg5 arg7 arg9 : Memref sig .tc .vmem S10x10 .f32)
    (arg4 arg6 arg8 arg10 arg11 arg13 arg14 arg15 arg16 arg17 arg18 arg19 arg20 : Memref sig .tc .vmem S1x10 .f32) (arg12 : Memref sig .tc .vmem S1x1 .f32)
    (harg1 : arg1.IsWhole) (harg2 : arg2.IsWhole) (harg3 : arg3.IsWhole) (harg4 : arg4.IsWhole) (harg5 : arg5.IsWhole) (harg6 : arg6.IsWhole) (harg7 : arg7.IsWhole)
    (harg8 : arg8.IsWhole) (harg9 : arg9.IsWhole) (harg10 : arg10.IsWhole) (harg11 : arg11.IsWhole) (harg12 : arg12.IsWhole) (harg13 : arg13.IsWhole) (harg14 : arg14.IsWhole)
    (harg15 : arg15.IsWhole) (harg16 : arg16.IsWhole) (harg17 : arg17.IsWhole) (harg18 : arg18.IsWhole) (harg19 : arg19.IsWhole) (harg20 : arg20.IsWhole) (harg21 : arg21.IsWhole) (K : PUnit → sProp 𝕄) :
    let I : sProp 𝕄 := iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ owns (c : Thread nD τ) arg13 fullShare x12 ∗ owns (c : Thread nD τ) arg14 fullShare x13
        ∗ owns (c : Thread nD τ) arg15 fullShare x14 ∗ owns (c : Thread nD τ) arg16 fullShare x15
        ∗ owns (c : Thread nD τ) arg17 fullShare x16 ∗ owns (c : Thread nD τ) arg18 fullShare x17
        ∗ owns (c : Thread nD τ) arg19 fullShare x18 ∗ owns (c : Thread nD τ) arg20 fullShare x19)
    iprop(I ∗ (∃ d, owns (c : Thread nD τ) arg21 fullShare d)
        ∗ (iprop(I ∗ owns (c : Thread nD τ) arg21 fullShare
            (out1_20 x0 x1 x2 x3 x4 x5 x6 x7 x8 x9 x10 x11 x12 x13 x14 x15 x16 x17 x18 x19)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16 arg17 harg17 arg18 harg18
            arg19 harg19 arg20 harg20 arg21 harg21) K := by
  simp only [cc1__mlp_kernel_eq_skeleton]; unfold cc1__mlp_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩, ⟨%f17, %hf17, H17⟩,
    ⟨%f18, %hf18, H18⟩, ⟨%f19, %hf19, H19⟩⟩, ⟨%d20, %f20, -, H20⟩, Hk⟩
  subst hf0 hf1 hf2 hf3 hf4 hf5 hf6 hf7 hf8 hf9 hf10 hf11 hf12 hf13 hf14 hf15 hf16 hf17 hf18 hf19
  sl_exec
  sl_step
  iapply Hk
  isplitl [H0 H1 H2 H3 H4 H5 H6 H7 H8 H9 H10 H11 H12 H13 H14 H15 H16 H17 H18 H19]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    isplitl [H10]; · iexists f10; isplitr; (· ipureintro; rfl); iexact H10
    isplitl [H11]; · iexists f11; isplitr; (· ipureintro; rfl); iexact H11
    isplitl [H12]; · iexists f12; isplitr; (· ipureintro; rfl); iexact H12
    isplitl [H13]; · iexists f13; isplitr; (· ipureintro; rfl); iexact H13
    isplitl [H14]; · iexists f14; isplitr; (· ipureintro; rfl); iexact H14
    isplitl [H15]; · iexists f15; isplitr; (· ipureintro; rfl); iexact H15
    isplitl [H16]; · iexists f16; isplitr; (· ipureintro; rfl); iexact H16
    isplitl [H17]; · iexists f17; isplitr; (· ipureintro; rfl); iexact H17
    isplitl [H18]; · iexists f18; isplitr; (· ipureintro; rfl); iexact H18
    iexists f19; isplitr; (· ipureintro; rfl); iexact H19
  iexists _; isplitr
  swap; · iexact H20
  ipureintro
  exact View.read_writes_eq_canon _ _ _ (cover1_20 _)

theorem zeroOff1 : (![0, 0] : Fin 2 → Nat) = fun _ => 0 := funext fun a => by
  match a with
  | ⟨0, _⟩ => rfl
  | ⟨1, _⟩ => rfl

-- A piece over the whole rectangle at offset zero is its payload, and such a load is the identity.
theorem out1_20_eq :
    out1_20 x0 x1 x2 x3 x4 x5 x6 x7 x8 x9 x10 x11 x12 x13 x14 x15 x16 x17 x18 x19
      = K1 x0 x1 x2 x3 x4 x5 x6 x7 x8 x9 x10 x11 x12 x13 x14 x15 x16 x17 x18 x19 := by
  unfold out1_20
  rw [View.canon_unit_zero zeroOff1]
  simp only [View.ld_unit_zero (S := S5000x10) zeroOff1, View.ld_unit_zero (S := S5000x1) zeroOff1,
    View.ld_unit_zero (S := S10x10) zeroOff1, View.ld_unit_zero (S := S1x10) zeroOff1, View.ld_unit_zero (S := S1x1) zeroOff1]

end Body

-- On the one-point grid every block index is zero (a finite check).
theorem idx1 : ∀ (w : Fin cfg1.W) (t : Fin cfg1.N) (a : Fin (cfg1.win w).shape.rank), (cfg1.win w).index t a = 0 := by
  decide +kernel

theorem off0 (w : Fin cfg1.W) (t : Fin cfg1.N) :
    (fun a => (cfg1.win w).index t a * (cfg1.win w).size a) = fun _ => 0 :=
  funext fun a => by rw [idx1 w t a, Nat.zero_mul]

section Region
variable (V : (c : Dev nD) → (b : Ref sig .tc) → Buf (Elt F) ((c : Thread nD τ).loc b))

-- Block `t` of array `w`, read off the contents `V`.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The proof data: `after` is the block for an input and `out1_20` of the blocks for the output.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => out1_20 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) (iblk1 V c 12 t)
        (iblk1 V c 13 t) (iblk1 V c 14 t) (iblk1 V c 15 t) (iblk1 V c 16 t) (iblk1 V c 17 t) (iblk1 V c 18 t) (iblk1 V c 19 t)
    | ⟨_ + 21, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem Phi1_eq (c : Dev nD) (t : Fin (cfg1.N + 1)) : (dat1 V c).Φ t = Pipeline.ΦA spec1 c := rfl

section Point
variable (c : Dev nD) (t : Fin cfg1.N)

theorem after1_20 : (dat1 V c).after 20 t
    = out1_20 ((dat1 V c).after 0 t) ((dat1 V c).after 1 t) ((dat1 V c).after 2 t) ((dat1 V c).after 3 t) ((dat1 V c).after 4 t) ((dat1 V c).after 5 t) ((dat1 V c).after 6 t)
        ((dat1 V c).after 7 t) ((dat1 V c).after 8 t) ((dat1 V c).after 9 t) ((dat1 V c).after 10 t) ((dat1 V c).after 11 t) ((dat1 V c).after 12 t) ((dat1 V c).after 13 t)
        ((dat1 V c).after 14 t) ((dat1 V c).after 15 t) ((dat1 V c).after 16 t) ((dat1 V c).after 17 t) ((dat1 V c).after 18 t) ((dat1 V c).after 19 t) := by
  dsimp only [dat1]

-- For every input `before` equals `after`: both are the array's block.
theorem before1_0 (d) : (dat1 V c).before 0 t d = (dat1 V c).after 0 t :=
  (dat1 V c).before_fetched 0 t (fetch1_0 t) d
theorem before1_1 (d) : (dat1 V c).before 1 t d = (dat1 V c).after 1 t :=
  (dat1 V c).before_fetched 1 t (fetch1_1 t) d
theorem before1_2 (d) : (dat1 V c).before 2 t d = (dat1 V c).after 2 t :=
  (dat1 V c).before_fetched 2 t (fetch1_2 t) d
theorem before1_3 (d) : (dat1 V c).before 3 t d = (dat1 V c).after 3 t :=
  (dat1 V c).before_fetched 3 t (fetch1_3 t) d
theorem before1_4 (d) : (dat1 V c).before 4 t d = (dat1 V c).after 4 t :=
  (dat1 V c).before_fetched 4 t (fetch1_4 t) d
theorem before1_5 (d) : (dat1 V c).before 5 t d = (dat1 V c).after 5 t :=
  (dat1 V c).before_fetched 5 t (fetch1_5 t) d
theorem before1_6 (d) : (dat1 V c).before 6 t d = (dat1 V c).after 6 t :=
  (dat1 V c).before_fetched 6 t (fetch1_6 t) d
theorem before1_7 (d) : (dat1 V c).before 7 t d = (dat1 V c).after 7 t :=
  (dat1 V c).before_fetched 7 t (fetch1_7 t) d
theorem before1_8 (d) : (dat1 V c).before 8 t d = (dat1 V c).after 8 t :=
  (dat1 V c).before_fetched 8 t (fetch1_8 t) d
theorem before1_9 (d) : (dat1 V c).before 9 t d = (dat1 V c).after 9 t :=
  (dat1 V c).before_fetched 9 t (fetch1_9 t) d
theorem before1_10 (d) : (dat1 V c).before 10 t d = (dat1 V c).after 10 t :=
  (dat1 V c).before_fetched 10 t (fetch1_10 t) d
theorem before1_11 (d) : (dat1 V c).before 11 t d = (dat1 V c).after 11 t :=
  (dat1 V c).before_fetched 11 t (fetch1_11 t) d
theorem before1_12 (d) : (dat1 V c).before 12 t d = (dat1 V c).after 12 t :=
  (dat1 V c).before_fetched 12 t (fetch1_12 t) d
theorem before1_13 (d) : (dat1 V c).before 13 t d = (dat1 V c).after 13 t :=
  (dat1 V c).before_fetched 13 t (fetch1_13 t) d
theorem before1_14 (d) : (dat1 V c).before 14 t d = (dat1 V c).after 14 t :=
  (dat1 V c).before_fetched 14 t (fetch1_14 t) d
theorem before1_15 (d) : (dat1 V c).before 15 t d = (dat1 V c).after 15 t :=
  (dat1 V c).before_fetched 15 t (fetch1_15 t) d
theorem before1_16 (d) : (dat1 V c).before 16 t d = (dat1 V c).after 16 t :=
  (dat1 V c).before_fetched 16 t (fetch1_16 t) d
theorem before1_17 (d) : (dat1 V c).before 17 t d = (dat1 V c).after 17 t :=
  (dat1 V c).before_fetched 17 t (fetch1_17 t) d
theorem before1_18 (d) : (dat1 V c).before 18 t d = (dat1 V c).after 18 t :=
  (dat1 V c).before_fetched 18 t (fetch1_18 t) d
theorem before1_19 (d) : (dat1 V c).before 19 t d = (dat1 V c).after 19 t :=
  (dat1 V c).before_fetched 19 t (fetch1_19 t) d

-- A block of full size at offset zero is the whole array.
theorem after1_0_eq : (dat1 V c).after 0 t = V c main_v12 :=
  View.ld_unit_zero (off0 0 t) _ _
theorem after1_1_eq : (dat1 V c).after 1 t = V c main_v9 :=
  View.ld_unit_zero (off0 1 t) _ _
theorem after1_2_eq : (dat1 V c).after 2 t = V c main_arg4 :=
  View.ld_unit_zero (off0 2 t) _ _
theorem after1_3_eq : (dat1 V c).after 3 t = V c main_v13 :=
  View.ld_unit_zero (off0 3 t) _ _
theorem after1_4_eq : (dat1 V c).after 4 t = V c main_arg6 :=
  View.ld_unit_zero (off0 4 t) _ _
theorem after1_5_eq : (dat1 V c).after 5 t = V c main_v14 :=
  View.ld_unit_zero (off0 5 t) _ _
theorem after1_6_eq : (dat1 V c).after 6 t = V c main_arg8 :=
  View.ld_unit_zero (off0 6 t) _ _
theorem after1_7_eq : (dat1 V c).after 7 t = V c main_v15 :=
  View.ld_unit_zero (off0 7 t) _ _
theorem after1_8_eq : (dat1 V c).after 8 t = V c main_arg10 :=
  View.ld_unit_zero (off0 8 t) _ _
theorem after1_9_eq : (dat1 V c).after 9 t = V c main_v16 :=
  View.ld_unit_zero (off0 9 t) _ _
theorem after1_10_eq : (dat1 V c).after 10 t = V c main_arg12 :=
  View.ld_unit_zero (off0 10 t) _ _
theorem after1_11_eq : (dat1 V c).after 11 t = V c main_v17 :=
  View.ld_unit_zero (off0 11 t) _ _
theorem after1_12_eq : (dat1 V c).after 12 t = V c main_v18 :=
  View.ld_unit_zero (off0 12 t) _ _
theorem after1_13_eq : (dat1 V c).after 13 t = V c main_v19 :=
  View.ld_unit_zero (off0 13 t) _ _
theorem after1_14_eq : (dat1 V c).after 14 t = V c main_v20 :=
  View.ld_unit_zero (off0 14 t) _ _
theorem after1_15_eq : (dat1 V c).after 15 t = V c main_v21 :=
  View.ld_unit_zero (off0 15 t) _ _
theorem after1_16_eq : (dat1 V c).after 16 t = V c main_v22 :=
  View.ld_unit_zero (off0 16 t) _ _
theorem after1_17_eq : (dat1 V c).after 17 t = V c main_v23 :=
  View.ld_unit_zero (off0 17 t) _ _
theorem after1_18_eq : (dat1 V c).after 18 t = V c main_v24 :=
  View.ld_unit_zero (off0 18 t) _ _
theorem after1_19_eq : (dat1 V c).after 19 t = V c main_v25 :=
  View.ld_unit_zero (off0 19 t) _ _

end Point

-- The triple at the blocks, its frame cancelled against the proof data.
theorem body_obligation1 (c : Dev nD) : BodyObligation (dat1 (F := F) V c) (defs₀ (F := F)) Variants.none () Set.univ := fun t => by
  rw [bigSep_W1, bigSep_W1]
  show _ ⊢ wp frame (wpE (defs₀ (F := F)) Variants.none c none) Set.univ (bodyAt1 t) _
  simp only [before1_0, before1_1, before1_2, before1_3, before1_4, before1_5, before1_6, before1_7, before1_8, before1_9, before1_10, before1_11, before1_12, before1_13, before1_14, before1_15, before1_16, before1_17, before1_18, before1_19]
  rw [show (dat1 V c).Φ t.succ = (dat1 V c).Φ t.castSucc from rfl,
    show (dat1 V c).owesAt () t.succ = (dat1 V c).owesAt () t.castSucc from rfl, after1_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel1
    ((dat1 V c).after 0 t) ((dat1 V c).after 1 t) ((dat1 V c).after 2 t) ((dat1 V c).after 3 t) ((dat1 V c).after 4 t) ((dat1 V c).after 5 t) ((dat1 V c).after 6 t)
    ((dat1 V c).after 7 t) ((dat1 V c).after 8 t) ((dat1 V c).after 9 t) ((dat1 V c).after 10 t) ((dat1 V c).after 11 t) ((dat1 V c).after 12 t) ((dat1 V c).after 13 t)
    ((dat1 V c).after 14 t) ((dat1 V c).after 15 t) ((dat1 V c).after 16 t) ((dat1 V c).after 17 t) ((dat1 V c).after 18 t) ((dat1 V c).after 19 t)
    c Set.univ (grid1.coords t) _ _ _ _ _ _ _ _ _ _ _ _ _ _ _ _ _ _ _ _ _ _ _ _ _ _ _ _ _ _ _ _ _ _ _ _ _ _ _ _ _ _ _)
  iframe H0 H1 H2 H3 H4 H5 H6 H7 H8 H9 H10 H11 H12 H13 H14 H15 H16 H17 H18 H19
  isplitl [H20]; · iexists _; iexact H20
  iintro ⟨⟨H0, H1, H2, H3, H4, H5, H6, H7, H8, H9, H10, H11, H12, H13, H14, H15, H16, H17, H18, H19⟩, H20⟩
  iframe

def res1 (c : Dev nD) : FVec F S5000x1 .f32 :=
  K1 (V c main_v12) (V c main_v9) (V c main_arg4) (V c main_v13) (V c main_arg6) (V c main_v14) (V c main_arg8)
    (V c main_v15) (V c main_arg10) (V c main_v16) (V c main_arg12) (V c main_v17) (V c main_v18) (V c main_v19)
    (V c main_v20) (V c main_v21) (V c main_v22) (V c main_v23) (V c main_v24) (V c main_v25)

theorem after1_20_res (c : Dev nD) (t : Fin cfg1.N) : (dat1 V c).after 20 t = res1 V c := by
  rw [after1_20, out1_20_eq, after1_0_eq, after1_1_eq, after1_2_eq, after1_3_eq, after1_4_eq, after1_5_eq, after1_6_eq, after1_7_eq, after1_8_eq, after1_9_eq, after1_10_eq, after1_11_eq, after1_12_eq, after1_13_eq, after1_14_eq, after1_15_eq, after1_16_eq, after1_17_eq, after1_18_eq, after1_19_eq]
  rfl

theorem flushed1_20_eq (c : Dev nD) (t : Fin cfg1.N) :
    (dat1 V c).flushed 20 t = ((cfg1.win 20).blk t).view.read (Elt F) (res1 V c) :=
  (after1_20_res V c t).trans
    (View.ld_unit_zero (S := S5000x1) (Val := Elt F) (e := .f32) (off0 20 t) _ (res1 V c)).symm

theorem cover1_out (i : S5000x1.Idx) :
    ∃ t : Fin cfg1.N, (cfg1.win 20).flush t = true ∧ i ∈ ((cfg1.win 20).blk t).view.set :=
  ⟨t1_0, flush1_20 t1_0, by
    show i ∈ ((View.whole main_v26).slice (win1_20.rect t1_0)).set
    rw [View.set_slice_whole]; exact View.mem_set_unit_zero (off0 20 t1_0) _ i⟩

-- The one point's block is the whole result, so the result array is `K1` of the twenty arrays.
theorem arrAt1_out (c : Dev nD) : (dat1 V c).arrAt 20 cfg1.N
    = K1 (V c main_v12) (V c main_v9) (V c main_arg4) (V c main_v13) (V c main_arg6) (V c main_v14) (V c main_arg8)
        (V c main_v15) (V c main_arg10) (V c main_v16) (V c main_arg12) (V c main_v17) (V c main_v18) (V c main_v19)
        (V c main_v20) (V c main_v21) (V c main_v22) (V c main_v23) (V c main_v24) (V c main_v25) :=
  (dat1 V c).arrAt_eq_of_cover 20 (res1 V c) (fun t _ => flushed1_20_eq V c t) (fun i => cover1_out i)

end Region

end Cert.KernelIdeal.Hand

end
-- ==== Proof.KI.Run.lean ====
import proofs.«404605_j2911987826902_2_alg».proof.Proof.KI.RunCond
import proofs.«404605_j2911987826902_2_alg».proof.Proof.KI.Region0
import proofs.«404605_j2911987826902_2_alg».proof.Proof.KI.Region1

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat RegionSeg BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VA : (c : Dev nD) → (b : Ref sig .tc) → Buf (Elt F) ((c : Thread nD τ).loc b) := fun c b => V4 m c b

def out5 (c : Dev nD) : Buf (Elt F) ((c : Thread nD τ).loc main_v12) := (dat0 (VA m) c).arrAt 3 cfg0.N

def outsA : Outs (F := F) := fun _ r c => if h : r = main_v12 then h ▸ out5 m c else m ((c : Thread nD τ).loc r)

theorem outsA_v12 (n : ℕ) (c : Dev nD) : outsA m n main_v12 c = out5 m c := by
  unfold outsA; rw [dif_pos rfl]

abbrev VB : (c : Dev nD) → (b : Ref sig .tc) → Buf (Elt F) ((c : Thread nD τ).loc b) := fun c b => V6 m (outsA m) c b

def out7 (c : Dev nD) : Buf (Elt F) ((c : Thread nD τ).loc main_v26) := (dat1 (VB m) c).arrAt 20 cfg1.N

def outsB : Outs (F := F) := fun n r c => if h : r = main_v26 then h ▸ out7 m c else outsA m n r c

theorem outsB_v26 (n : ℕ) (c : Dev nD) : outsB m n main_v26 c = out7 m c := by
  unfold outsB; rw [dif_pos rfl]

theorem outsB_v12 (n : ℕ) (c : Dev nD) : outsB m n main_v12 c = out5 m c := by
  unfold outsB; rw [dif_neg (by decide), outsA_v12]

-- The second region's output is not read before the second region.
theorem V6_outsB (c : Dev nD) : V6 m (outsB m) c = V6 m (outsA m) c := by
  unfold V6 V5; rw [outsB_v12, outsA_v12]

def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c

set_option backward.isDefEq.respectTransparency.types false in
-- The record of region `p`, entered with the buffers at `Vi` and left with them at `Vo`: `Vi` off the output array `wo`, the final contents on it.
def reg (p : Fin 2) (lf : Pipeline.LaunchFacts (nD := nD) (τ := τ) cfgs p) (Vi Vo : (c : Dev nD) → Valuation τ sig (Elt F))
    (hb : ∀ c, BodyObligation (pdats m p c) defs₀ 𝒱₀ () Set.univ)
    (hw : ∀ c t, (pdats m p c).owed t = 0) (hrec : ∀ c x, x ∈ (pdats m p c).recorded 0) (hq : ∀ c w, (pdats m p c).q w = fullShare)
    (hA : ∀ c w, (pdats m p c).A w = Vi c (Pipeline.arrRef (cfgs p).spec w))
    (hΦ : ∀ c, Pipeline.ΦA (cfgs p).spec c ⊢ (pdats m p c).Φ 0)
    (hΦ' : ∀ c, (pdats m p c).Φ (Fin.last _) ⊢ Pipeline.ΦA (cfgs p).spec c)
    (wo : Fin (cfgs p).W) (hI : ∀ w, w ≠ wo → ((cfgs p).win w).isOut = false)
    (hO : ∀ c, (pdats m p c).arrAt wo (cfgs p).N = Vo c (Pipeline.arrRef (cfgs p).spec wo))
    (hr : ∀ c (b : Ref sig .tc), b ∉ [Pipeline.arrRef (cfgs p).spec wo] → Vo c b = Vi c b) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hw
  pre c := T (Vi c) c
  post c := T (Vo c) c
  X c := iprop(∃ r, prngReg c r)
  Y c := iprop(∃ r, prngReg c r)
  Z c := Pipeline.unscopedRest (cfgs p).spec c fun b => Vi c b
  hentry c := by
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, %W, HO⟩, -, -⟩
    ihave ⟨Ha, Hrest⟩ := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hw c]
      iexists W; isplitr; · ipureintro; exact fun x _ => Or.inl (hrec c x)
      iexact HO
    isplitl [Hp]; · iexact Hp
    iexact Hrest
  hin c := by
    refine BIBase.Entails.trans ?_ (hΦ c)
    unfold Pipeline.ΦA
    iintro ⟨Hp, -, Hr⟩
    isplitl [Hr]; · iexact Hr
    iexact Hp
  hout c := by
    rw [Pipeline.ownSems0_none]
    refine (hΦ' c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m) ((pdats m p c).share_full (hq c))
      (fun b => Vi c b) (fun b => Vo c b) ((pdats m p c).arrAt · (cfgs p).N)
      (fun w => by
        by_cases h : w = wo
        · subst h; exact hO c
        · exact (((pdats m p c).arrAt_in w (hI w h) _).trans (hA c w)).trans
            (hr c _ fun h' => h (lf.win.arr_inj (List.mem_singleton.mp h'))).symm)
      fun b hb => hr c b fun h => hb (Finset.mem_image.mpr ⟨wo, Finset.mem_univ _, (List.mem_singleton.mp h).symm⟩)
    rw [Pipeline.unscopedBufs_held] at hjoin
    iintro ⟨Ha, ⟨%W, -, HO⟩, HY, Hrest⟩
    rw [hw c]
    imodintro
    isplitl [Ha Hrest]
    · iapply hjoin; isplitl [Ha] <;> iassumption
    isplitl [HY]; · iexact HY
    iexists W; iexact HO

def reg0 := reg m 0 launch0 (V4 m) (V5 m (outsB m)) (body_obligation0 (VA m)) (fun _ _ => rfl) (fun _ _ => trivial) (fun _ _ => rfl) (A_eq0 (VA m))
  (hin0 (VA m)) (hout0 (VA m)) (3 : Fin 4) (by decide)
  (fun c => by show _ = V5 m (outsB m) c main_v12; simp only [V5, Function.update_self, outsB_v12]; rfl) fun c => V5_of m _ c

def reg1 := reg m 1 launch1 (V6 m (outsB m)) (V7 m (outsB m)) (body_obligation1 (VB m)) (fun _ _ => rfl) (fun _ _ => trivial) (fun _ _ => rfl)
  (fun c w => (A_eq1 (VB m) c w).trans (congrFun (V6_outsB m c) _).symm)
  (fun c => Entails.of_eq (Phi1_eq (VB m) c 0).symm) (fun c => Entails.of_eq (Phi1_eq (VB m) c _))
  (20 : Fin 21) (by decide)
  (fun c => by show _ = V7 m (outsB m) c main_v26; simp only [V7, Function.update_self, outsB_v26]; rfl) fun c => V7_of m _ c

theorem run_main : θ_run defs (onTc (τ := τ) (main (F := F))) ⟨m, fun _ => 0, ρ⟩ (fun r => ∀ c : Dev nD,
      r.2.mem ((c.tc : Thread nD τ).loc main_v26) = out7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  refine (θ_run defs _ _).mono (fun r hr c => ?_)
    (run_cond m ρ (outsB m) (pdats m) (reg0 m) (reg1 m) (fun _ => .rfl) (fun _ => .rfl) (fun _ => .rfl) (fun _ => .rfl))
  have A {b : Ref sig .tc} {x} (e : V7 m (outsB m) c b = x) (hb : ¬ (Proc.devRef (τ := τ) .tc b).isScoped := by decide) :
      r.2.mem ((c.tc : Thread nD τ).loc b) = x :=
    (hr c _ (Finset.mem_filter.mpr ⟨StableHlo.devRef_mem_tcRefs b, hb⟩)).trans e
  exact ⟨A ((V7_main_v26 m _ c).trans (outsB_v26 m 7 c)),
    A (V7_main_arg0 m _ c), A (V7_main_arg1 m _ c), A (V7_main_arg2 m _ c), A (V7_main_arg3 m _ c),
    A (V7_main_arg4 m _ c), A (V7_main_arg5 m _ c), A (V7_main_arg6 m _ c), A (V7_main_arg7 m _ c),
    A (V7_main_arg8 m _ c), A (V7_main_arg9 m _ c), A (V7_main_arg10 m _ c), A (V7_main_arg11 m _ c),
    A (V7_main_arg12 m _ c), A (V7_main_arg13 m _ c), A (V7_main_arg14 m _ c), A (V7_main_arg15 m _ c),
    A (V7_main_arg16 m _ c), A (V7_main_arg17 m _ c), A (V7_main_arg18 m _ c), A (V7_main_arg19 m _ c),
    A (V7_main_arg20 m _ c), A (V7_main_arg21 m _ c)⟩

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def rowOf (w : BitVec 32) : Fin 500000 := ⟨min w.toInt.toNat 499999, by omega⟩

def agg (x : (⟨2, ![500000, 10]⟩ : Shape).Idx → EReal) (ei : IVec ⟨2, ![2, 8000000]⟩ 32)
    (ea : (⟨1, ![8000000]⟩ : Shape).Idx → EReal) (batch : IVec ⟨1, ![500000]⟩ 32) :
    (⟨2, ![5000, 10]⟩ : Shape).Idx → EReal :=
  fun i => ∑ e : Fin 8000000,
    if (batch (ix1 (rowOf (ei (ix2 (1 : Fin 2) e))))).toInt = ((i 0).val : ℤ)
    then x (ix2 (rowOf (ei (ix2 (0 : Fin 2) e))) (i 1)) * ea (ix1 e) else 0

def InRange (ei : IVec ⟨2, ![2, 8000000]⟩ 32) : Prop :=
  ∀ i, 0 ≤ (ei i).toInt ∧ (ei i).toInt < 500000

end Cert.Spec

end
-- ==== Proof.KI.Pre.lean ====
import proofs.«404605_j2911987826902_2_alg».proof.Proof.Gen.Pre_finite_inputs
import proofs.«404605_j2911987826902_2_alg».proof.Proof.Spec
import Idealize.ShloMosaic.Lib.ReduceAll
import Idealize.ShloMosaic.Lib.StableHlo.Predicate

noncomputable section

namespace Cert.KernelIdeal.Hand

open Idealize.ShloMosaic Cert.Pre_finite_inputs Cert.Pre_finite_inputs.Facts

instance subsingleton_scalarIdx : Subsingleton (Cert.Pre_finite_inputs.S_).Idx := ⟨fun a b => funext fun d => d.elim0⟩

theorem inRange_of_part6 {F : FTy → Type} [FloatOps F] (a1 : IVec S2x8000000 32) (v98 : IVec Cert.Pre_finite_inputs.S_ 1)
    (h : fn_part6 (F := F) a1 v98
        (cmpi .sge a1 (broadcastInDim S2x8000000 ![] bcast_S_S2x8000000 (constantI Cert.Pre_finite_inputs.S_ 32 0#32)))
        (broadcastInDim S2x8000000 ![] bcast_S_S2x8000000 (constantI Cert.Pre_finite_inputs.S_ 32 500000#32)) = fun _ => 1#1) :
    Cert.Spec.InRange a1 := by
  intro i
  have h0 := congrFun h ValueIdx.ix0
  unfold fn_part6 at h0

  obtain ⟨_, hr⟩ := IntOp.andi_eq_one.mp h0

  have he := Host.reduce_andi_all _ _ _ _ _ hr i
  obtain ⟨hge, hlt⟩ := IntOp.andi_eq_one.mp he

  have hge' := IntOp.cmpi_sge.mp hge
  have hlt' := IntOp.cmpi_slt.mp hlt
  exact ⟨hge', hlt'⟩

theorem inRange_of_pre {F : FTy → Type} [FloatOps F]
    (a0 : FVec F S500000x10 .f32) (a1 : IVec S2x8000000 32) (a2 : FVec F S8000000 .f32) (a3 : IVec S500000 32)
    (a4 : FVec F S10x10 .f32) (a5 : FVec F S10 .f32) (a6 : FVec F S10x10 .f32) (a7 : FVec F S10 .f32)
    (a8 : FVec F S10x10 .f32) (a9 : FVec F S10 .f32) (a10 : FVec F S10x10 .f32) (a11 : FVec F S10 .f32)
    (a12 : FVec F S1x10 .f32) (a13 : FVec F S1 .f32) (a14 : FVec F S10 .f32) (a15 : FVec F S10 .f32)
    (a16 : FVec F S10 .f32) (a17 : FVec F S10 .f32) (a18 : FVec F S10 .f32) (a19 : FVec F S10 .f32)
    (a20 : FVec F S10 .f32) (a21 : FVec F S10 .f32)
    (h : Cert.Pre_finite_inputs.fn (F := F) a0 a1 a2 a3 a4 a5 a6 a7 a8 a9 a10 a11 a12 a13 a14 a15 a16 a17 a18 a19 a20 a21
      = fun _ => 1#1) : Cert.Spec.InRange a1 := by
  unfold Cert.Pre_finite_inputs.fn fn_part1 fn_part2 fn_part3 fn_part4 fn_part5 at h
  exact inRange_of_part6 (F := F) a1 _ h

end Cert.KernelIdeal.Hand

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.Keepdims

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem multiReduction_add_rows {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

theorem matmul_zero_apply {n K m : ℕ} {φ₁ φ₂ : FTy}
    (d : DotDims (⟨2, ![n, K]⟩ : Shape) (⟨2, ![K, m]⟩ : Shape) (⟨2, ![n, m]⟩ : Shape))
    (hr : d.contr.rank = 1) (hs : d.contr.size ⟨0, by omega⟩ = K)
    (hl0 : ∀ (j : (⟨2, ![n, m]⟩ : Shape).Idx) (k : d.contr.Idx), (d.lhsIdx j k 0).val = (j 0).val)
    (hl1 : ∀ (j : (⟨2, ![n, m]⟩ : Shape).Idx) (k : d.contr.Idx), (d.lhsIdx j k 1).val = (k ⟨0, by omega⟩).val)
    (hr0 : ∀ (j : (⟨2, ![n, m]⟩ : Shape).Idx) (k : d.contr.Idx), (d.rhsIdx j k 0).val = (k ⟨0, by omega⟩).val)
    (hr1 : ∀ (j : (⟨2, ![n, m]⟩ : Shape).Idx) (k : d.contr.Idx), (d.rhsIdx j k 1).val = (j 1).val)
    (prec : Option ContractPrecision) (lhs : FVec Ideal (⟨2, ![n, K]⟩ : Shape) φ₁) (rhs : FVec Ideal (⟨2, ![K, m]⟩ : Shape) φ₂)
    (p : Fin n) (h : Fin m) :
    FloatOps.matmul d prec lhs rhs (constant (⟨2, ![n, m]⟩ : Shape) .f32 0x00000000#32) (ix2 p h)
      = ∑ k : Fin K, lhs (ix2 p k) * rhs (ix2 k h) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p h) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p h) ((contrEquiv1 d K hr hs).symm k) = ix2 k h := funext fun ax => Fin.ext (by
    match ax with
    | ⟨0, _⟩ => exact (hr0 _ _).trans hk
    | ⟨1, _⟩ => exact hr1 _ _)
  rw [el, er]

end Idealize.ShloMosaic.Keepdims

end
-- ==== Proof.KI.Value0.lean ====
import proofs.«404605_j2911987826902_2_alg».proof.Proof.Gen.KernelIdeal.Skeleton
import proofs.«404605_j2911987826902_2_alg».proof.Proof.Gen.KernelIdeal.Launch
import Idealize.ShloMosaic.Lib.Pipeline.Value
import Idealize.ShloMosaic.Lib.ValueIdx
import Idealize.ShloMosaic.Lib.ValueLayout
import Idealize.ShloMosaic.PureOps.Ideal.Laws
import proofs.«404605_j2911987826902_2_alg».proof.Proof.LibKeepdims

noncomputable section

open scoped BigOperators

namespace Cert.KernelIdeal.Hand

open Idealize.ShloMosaic Idealize.ShloMosaic.TcCoe Idealize.ShloMosaic.ValueIdx Idealize.ShloMosaic.Keepdims Cert.KernelIdeal Cert.KernelIdeal.Gen

theorem pay1_apply (i : S5000x10.Idx) : k0_pay1 (F := Ideal) i = 0 := by
  unfold k0_pay1
  rw [shapeCast_self, broadcast_apply]
  exact Ideal.ofBits_zero_f32

namespace Value0

theorem onehot_scalar (x y : BitVec 32) :
    FloatOps.sitofp (F := Ideal) .f32 ((IntOp.cmpi .eq x y).setWidth 32) = if x = y then (1 : EReal) else 0 := by
  show (((((BitVec.ofBool (x == y)).setWidth 32).toInt : ℝ)) : EReal) = _
  by_cases h : x = y
  · rw [if_pos h, beq_iff_eq.mpr h]
    show (((((1#1 : BitVec 1).setWidth 32).toInt : ℝ)) : EReal) = 1
    rw [show ((1#1 : BitVec 1).setWidth 32).toInt = 1 from by decide]; norm_num
  · rw [if_neg h, beq_eq_false_iff_ne.mpr h]
    show (((((0#1 : BitVec 1).setWidth 32).toInt : ℝ)) : EReal) = 0
    rw [show ((0#1 : BitVec 1).setWidth 32).toInt = 0 from by decide]; norm_num

theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

end Value0

open Value0

theorem pay2_apply (bg : Vec Ideal S1x640 .i32) (ea : Vec Ideal S1x640 .f32) (xg : Vec Ideal S640x10 .f32)
    (acc : Vec Ideal S5000x10 .f32) (g : Fin 5000) (d : Fin 10) :
    k0_pay2 (F := Ideal) bg ea xg acc (ix2 g d)
      = acc (ix2 g d) + ∑ l : Fin 640, (if BitVec.ofNat 32 g.val = bg (ix2 (0 : Fin 1) l) then xg (ix2 l d) * ea (ix2 (0 : Fin 1) l) else 0) := by
  unfold k0_pay2
  rw [shapeCast_self, addf_apply]
  refine congrArg (acc (ix2 g d) + ·) ?_
  refine (matmul_zero_apply dot_S5000x640_S640x10_S5000x10_1_0_0_1_n_n rfl rfl (fun _ _ => rfl) (fun _ _ => rfl)
    (fun _ _ => rfl) (fun _ _ => rfl) none _ _ g d).trans ?_
  refine Finset.sum_congr rfl fun l _ => ?_
  rw [truncf_apply, sitofp_apply, extui_apply, truncf_apply, mulf_apply, shapeCast_self, shapeCast_self, shapeCast_self,
    broadcastTo_a1_ab_apply, shapeCast_1a_a1_apply]
  have ec : cmpi .eq (iota .tc S5000x640 32 [0] iota_S5000x640_d0_w32) (broadcastTo S5000x640 bg broadcasts_S1x640_S5000x640) (ix2 g l)
      = IntOp.cmpi .eq (BitVec.ofNat 32 g.val) (bg (ix2 (0 : Fin 1) l)) := by
    show IntOp.cmpi .eq (iota .tc S5000x640 32 [0] iota_S5000x640_d0_w32 (ix2 g l)) (broadcastTo S5000x640 bg broadcasts_S1x640_S5000x640 (ix2 g l)) = _
    rw [iota_single_apply, broadcastTo_1b_ab_apply]
  rw [ec, onehot_scalar]
  by_cases h : BitVec.ofNat 32 g.val = bg (ix2 (0 : Fin 1) l)
  · rw [if_pos h, if_pos h, one_mul]
  · rw [if_neg h, if_neg h, zero_mul]

namespace Value0

theorem coord0_word (t : Fin cfg0.N) : (BitVec.ofNat 32 (grid0.coords t 0).val).toNat = t.val := by
  have h : t.val < 12500 := lt_of_lt_of_eq t.isLt N_0
  have hs : grid0.stride 0 = 1 := by decide
  show (BitVec.ofNat 32 (t.val / grid0.stride 0 % 12500)).toNat = t.val
  rw [hs, Nat.div_one, Nat.mod_eq_of_lt h, BitVec.toNat_ofNat]
  exact Nat.mod_eq_of_lt (by omega)

theorem edge_lt {n : ℕ} (h : n < 12500) (l : Fin 640) : 640 * n + l.val < 8000000 := by
  have := l.isLt; omega

abbrev gridPt (n : ℕ) (h : n < 12500) : Fin cfg0.N := ⟨n, lt_of_lt_of_eq h N_0.symm⟩

section
variable (V : (c : Dev nD) → (b : Ref sig .tc) → Buf (Elt Ideal) ((c : Thread nD τ).loc b)) (c : Dev nD)

abbrev blkRead0 (n : ℕ) (h : n < 12500) : Vec Ideal S1x640 .i32 :=
  ((cfg0.win 0).blk (gridPt n h)).view.read (Elt Ideal) (V c (Pipeline.arrRef spec0 0))
abbrev blkRead1 (n : ℕ) (h : n < 12500) : Vec Ideal S1x640 .f32 :=
  ((cfg0.win 1).blk (gridPt n h)).view.read (Elt Ideal) (V c (Pipeline.arrRef spec0 1))
abbrev blkRead2 (n : ℕ) (h : n < 12500) : Vec Ideal S640x10 .f32 :=
  ((cfg0.win 2).blk (gridPt n h)).view.read (Elt Ideal) (V c (Pipeline.arrRef spec0 2))

abbrev arrBg : S1x8000000.Idx → BitVec 32 := V c main_v10
abbrev arrEa : S1x8000000.Idx → EReal := V c main_v11
abbrev arrXg : S8000000x10.Idx → EReal := V c main_v4

end

end Value0

open Value0

section Blocks

variable (V : (c : Dev nD) → (b : Ref sig .tc) → Buf (Elt Ideal) ((c : Thread nD τ).loc b)) (c : Dev nD)

theorem blk0_apply (n : ℕ) (h : n < 12500) (l : Fin 640) :
    blkRead0 V c n h (ix2 (0 : Fin 1) l) = arrBg V c (ix2 (0 : Fin 1) ⟨640 * n + l.val, edge_lt h l⟩) := by
  refine congrArg (arrBg V c) (funext fun a => Fin.ext ?_)
  match a with
  | ⟨0, _⟩ => rfl
  | ⟨1, _⟩ =>
    show (BitVec.ofNat 32 (grid0.coords (gridPt n h) 0).val).toNat * 640 + 1 * l.val = 640 * n + l.val
    rw [coord0_word]; show n * 640 + 1 * l.val = _; omega

theorem blk1_apply (n : ℕ) (h : n < 12500) (l : Fin 640) :
    blkRead1 V c n h (ix2 (0 : Fin 1) l) = arrEa V c (ix2 (0 : Fin 1) ⟨640 * n + l.val, edge_lt h l⟩) := by
  refine congrArg (arrEa V c) (funext fun a => Fin.ext ?_)
  match a with
  | ⟨0, _⟩ => rfl
  | ⟨1, _⟩ =>
    show (BitVec.ofNat 32 (grid0.coords (gridPt n h) 0).val).toNat * 640 + 1 * l.val = 640 * n + l.val
    rw [coord0_word]; show n * 640 + 1 * l.val = _; omega

theorem blk2_apply (n : ℕ) (h : n < 12500) (l : Fin 640) (d : Fin 10) :
    blkRead2 V c n h (ix2 l d) = arrXg V c (ix2 ⟨640 * n + l.val, edge_lt h l⟩ d) := by
  refine congrArg (arrXg V c) (funext fun a => Fin.ext ?_)
  match a with
  | ⟨0, _⟩ =>
    show (BitVec.ofNat 32 (grid0.coords (gridPt n h) 0).val).toNat * 640 + 1 * l.val = 640 * n + l.val
    rw [coord0_word]; show n * 640 + 1 * l.val = _; omega
  | ⟨1, _⟩ => show 0 * 10 + 1 * d.val = d.val; omega

end Blocks

namespace Value0

section Arrays

variable (V : (c : Dev nD) → (b : Ref sig .tc) → Buf (Elt Ideal) ((c : Thread nD τ).loc b)) (c : Dev nD)

def edgeTerm (g : Fin 5000) (d : Fin 10) (e : ℕ) : EReal :=
  if h : e < 8000000 then
    (if BitVec.ofNat 32 g.val = arrBg V c (ix2 (0 : Fin 1) ⟨e, h⟩) then arrXg V c (ix2 ⟨e, h⟩ d) * arrEa V c (ix2 (0 : Fin 1) ⟨e, h⟩) else 0)
  else 0

theorem block_sum (g : Fin 5000) (d : Fin 10) (n : ℕ) (h : n < 12500) :
    (∑ l : Fin 640, (if BitVec.ofNat 32 g.val = blkRead0 V c n h (ix2 (0 : Fin 1) l)
        then blkRead2 V c n h (ix2 l d) * blkRead1 V c n h (ix2 (0 : Fin 1) l) else 0))
      = ∑ l ∈ Finset.range 640, edgeTerm V c g d (640 * n + l) := by
  rw [Finset.sum_range]
  refine Finset.sum_congr rfl fun l _ => ?_
  unfold edgeTerm
  rw [dif_pos (edge_lt h l), blk0_apply, blk1_apply, blk2_apply]

end Arrays

end Value0

section Last

variable (V : (c : Dev nD) → (b : Ref sig .tc) → Buf (Elt Ideal) ((c : Thread nD τ).loc b)) (c : Dev nD)
  (acc : (n : ℕ) → n < 12500 → Vec Ideal S5000x10 .f32)
  (hz : acc 0 (by decide) = k0_pay2 (F := Ideal) (blkRead0 V c 0 (by decide)) (blkRead1 V c 0 (by decide))
    (blkRead2 V c 0 (by decide)) (k0_pay1 (F := Ideal)))
  (hs : ∀ n (h : n + 1 < 12500), acc (n + 1) h
    = k0_pay2 (F := Ideal) (blkRead0 V c (n + 1) h) (blkRead1 V c (n + 1) h) (blkRead2 V c (n + 1) h)
        (acc n (Nat.lt_of_succ_lt h)))
  (g : Fin 5000) (d : Fin 10)

include hz hs

theorem acc_partial : ∀ n (h : n < 12500), acc n h (ix2 g d) = ∑ e ∈ Finset.range (640 * n + 640), edgeTerm V c g d e
  | 0, h => by
    rw [hz, pay2_apply, pay1_apply, zero_add, block_sum V c g d 0 h, Finset.sum_range_add,
      Nat.mul_zero, Finset.sum_range_zero, zero_add]
  | n + 1, h => by
    rw [hs n h, pay2_apply, acc_partial n (Nat.lt_of_succ_lt h), block_sum V c g d (n + 1) h, Nat.mul_succ,
      Finset.sum_range_add _ (640 * n + 640) 640]

theorem acc_last : acc 12499 (by decide) (ix2 g d)
    = ∑ e : Fin 8000000, (if BitVec.ofNat 32 g.val = arrBg V c (ix2 (0 : Fin 1) e)
        then arrXg V c (ix2 e d) * arrEa V c (ix2 (0 : Fin 1) e) else 0) := by
  rw [acc_partial V c acc hz hs g d 12499 (by decide), Finset.sum_range]
  refine Finset.sum_congr rfl fun e _ => ?_
  unfold edgeTerm
  rw [dif_pos e.isLt]

end Last

end Cert.KernelIdeal.Hand

end
-- ==== Proof.RefSpec.lean ====
import proofs.«404605_j2911987826902_2_alg».proof.Proof.Gen.ReferenceIdeal

noncomputable section

namespace Cert.ReferenceIdeal.Hand

open Idealize.ShloMosaic Cert.ReferenceIdeal Cert.ReferenceIdeal.Facts₀ Cert.ReferenceIdeal.Facts

variable {F : FTy → Type} [FloatOps F]

def cntOf (batch : IVec S500000 32) : FVec F S5000x1 .f32 :=
  Host.scatterAdd scatter_S5000x1_S500000x1_S500000x1_1_0_0_1
    (broadcastInDim S5000x1 ![] bcast_S_S5000x1 (constant S_ .f32 0x00000000#32))
    (broadcastInDim S500000x1 ![0] bcast_S500000_S500000x1_0 batch)
    (broadcastInDim S500000x1 ![] bcast_S_S500000x1 (constant S_ .f32 0x3F800000#32))

def meanPool (s : FVec F S5000x10 .f32) (cnt : FVec F S5000x1 .f32) : FVec F S5000x10 .f32 :=
  Host.divf s (broadcastInDim S5000x10 ![0, 1] bcast_S5000x1_S5000x10_0_1
    (maximumf cnt (broadcastInDim S5000x1 ![] bcast_S_S5000x1 (constant S_ .f32 0x3F800000#32))))

def colMean (v : FVec F S5000x10 .f32) : FVec F S10 .f32 :=
  Host.divf (Host.reduceAdd v (constant S_ .f32 0x00000000#32) reducesTo_S5000x10_S10_d0 h_S_)
    (broadcastInDim S10 ![] bcast_S_S10 (constant S_ .f32 0x459C4000#32))

def colVar (v : FVec F S5000x10 .f32) (ddof : IVec S_ 32) : FVec F S10 .f32 :=
  let mean1 : FVec F S1x10 .f32 := Host.divf
    (broadcastInDim S1x10 ![1] bcast_S10_S1x10_1
      (Host.reduceAdd v (constant S_ .f32 0x00000000#32) reducesTo_S5000x10_S10_d0 h_S_))
    (broadcastInDim S1x10 ![] bcast_S_S1x10 (constant S_ .f32 0x459C4000#32))
  let dev : FVec F S5000x10 .f32 := subf v (broadcastInDim S5000x10 ![0, 1] bcast_S1x10_S5000x10_0_1 mean1)
  let divisor : FVec F S_ .f32 := subf (constant S_ .f32 0x459C4000#32) (sitofp .f32 ddof)
  select (broadcastInDim S10 ![] bcast_S_S10 (cmpf .ogt divisor (constant S_ .f32 0x00000000#32)))
    (Host.divf (Host.reduceAdd (mulf dev dev) (constant S_ .f32 0x00000000#32) reducesTo_S5000x10_S10_d0 h_S_)
      (broadcastInDim S10 ![] bcast_S_S10 divisor))
    (broadcastInDim S10 ![] bcast_S_S10 (id (constant S_ .f32 0x7FC00000#32)))

def bnLayer (v : FVec F S5000x10 .f32) (w : FVec F S10x10 .f32) (b gam bet : FVec F S10 .f32) : FVec F S5000x10 .f32 :=
  let lin : FVec F S5000x10 .f32 := addf
    (Host.dotGeneral dot_S5000x10_S10x10_S5000x10_1_0_0_1_n_n none v (transpose S10x10 [1, 0] w transposes_S10x10_S10x10_1_0))
    (broadcastInDim S5000x10 ![0, 1] bcast_S1x10_S5000x10_0_1 (broadcastInDim S1x10 ![1] bcast_S10_S1x10_1 b))
  let centred : FVec F S5000x10 .f32 := subf lin
    (broadcastInDim S5000x10 ![0, 1] bcast_S1x10_S5000x10_0_1 (broadcastInDim S1x10 ![1] bcast_S10_S1x10_1 (colMean lin)))
  let scaled : FVec F S5000x10 .f32 := mulf
    (broadcastInDim S5000x10 ![0, 1] bcast_S1x10_S5000x10_0_1 (broadcastInDim S1x10 ![1] bcast_S10_S1x10_1 gam)) centred
  let root : FVec F S10 .f32 := Host.sqrt (addf (colVar lin (constantI S_ 32 0#32))
    (broadcastInDim S10 ![] bcast_S_S10 (constant S_ .f32 0x3727C5AC#32)))
  addf (Host.divf scaled
      (broadcastInDim S5000x10 ![0, 1] bcast_S1x10_S5000x10_0_1 (broadcastInDim S1x10 ![1] bcast_S10_S1x10_1 root)))
    (broadcastInDim S5000x10 ![0, 1] bcast_S1x10_S5000x10_0_1 (broadcastInDim S1x10 ![1] bcast_S10_S1x10_1 bet))

def relu (v : FVec F S5000x10 .f32) : FVec F S5000x10 .f32 :=
  maximumf v (broadcastInDim S5000x10 ![] bcast_S_S5000x10 (constant S_ .f32 0x00000000#32))

def outLayer (y : FVec F S5000x10 .f32) (wo : FVec F S1x10 .f32) (bo : FVec F S1 .f32) : FVec F S5000x1 .f32 :=
  addf (Host.dotGeneral dot_S5000x10_S10x1_S5000x1_1_0_0_1_n_n none y (transpose S10x1 [1, 0] wo transposes_S1x10_S10x1_1_0))
    (broadcastInDim S5000x1 ![0, 1] bcast_S1x1_S5000x1_0_1 (broadcastInDim S1x1 ![1] bcast_S1_S1x1_1 bo))

def head (s : FVec F S5000x10 .f32) (cnt : FVec F S5000x1 .f32)
    (w1 : FVec F S10x10 .f32) (b1 : FVec F S10 .f32) (w2 : FVec F S10x10 .f32) (b2 : FVec F S10 .f32)
    (w3 : FVec F S10x10 .f32) (b3 : FVec F S10 .f32) (w4 : FVec F S10x10 .f32) (b4 : FVec F S10 .f32)
    (wo : FVec F S1x10 .f32) (bo : FVec F S1 .f32)
    (g1 t1 g2 t2 g3 t3 g4 t4 : FVec F S10 .f32) : FVec F S5000x1 .f32 :=
  let y1 := relu (bnLayer (meanPool s cnt) w1 b1 g1 t1)
  let y2 := relu (bnLayer y1 w2 b2 g2 t2)
  let y3 := relu (bnLayer y2 w3 b3 g3 t3)
  let y4 := relu (addf (bnLayer y3 w4 b4 g4 t4) y2)
  outLayer y4 wo bo

end Cert.ReferenceIdeal.Hand

end
-- ==== Proof.KI.Value1.lean ====
import proofs.«404605_j2911987826902_2_alg».proof.Proof.KI.K1
import proofs.«404605_j2911987826902_2_alg».proof.Proof.RefSpec
import proofs.«404605_j2911987826902_2_alg».proof.Proof.Gen.KernelIdeal
import proofs.«404605_j2911987826902_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost

noncomputable section

open scoped BigOperators

namespace Cert.KernelIdeal.Hand

open Idealize.ShloMosaic Idealize.ShloMosaic.ValueIdx Idealize.ShloMosaic.Keepdims Cert.KernelIdeal Cert.KernelIdeal.Gen

namespace Value1

section Defs

variable {F : FTy → Type} [FloatOps F]

def kPool (s : FVec F S5000x10 .f32) (cnt : FVec F S5000x1 .f32) : FVec F S5000x10 .f32 :=
  divf (shapeCast S5000x10 s shapeCasts_S5000x10_S5000x10)
    (broadcastTo S5000x10 (maximumf (shapeCast S5000x1 cnt shapeCasts_S5000x1_S5000x1)
      (broadcast S5000x1 (Scalar.ofBits .f32 0x3F800000#32))) broadcasts_S5000x1_S5000x10)

def kMat (v : FVec F S5000x10 .f32) (w : FVec F S10x10 .f32) : FVec F S5000x10 .f32 :=
  matmul dot_S5000x10_S10x10_S5000x10_1_0_0_1_n_n (some .fp32) v
    (transpose S10x10 [1, 0] w transposes_S10x10_p1_0_S10x10) (constant S5000x10 .f32 0x00000000#32)

def kRow (m : FVec F S5000x10 .f32) (b : FVec F S1x10 .f32) : FVec F S5000x10 .f32 :=
  addf m (broadcastTo S5000x10 (shapeCast S1x10 b shapeCasts_S1x10_S1x10) broadcasts_S1x10_S5000x10)

def kMean (x : FVec F S5000x10 .f32) : FVec F S1x10 .f32 :=
  divf (shapeCast S1x10 (multiReduction .add [0] S10 x 0x00000000#32 reduces_S5000x10_S10 (.inl rfl) rfl) shapeCasts_S10_S1x10)
    (broadcast S1x10 (Scalar.ofBits .f32 0x459C4000#32))

def kCentred (x : FVec F S5000x10 .f32) : FVec F S5000x10 .f32 :=
  subf x (broadcastTo S5000x10 (kMean x) broadcasts_S1x10_S5000x10)

def kVar (x : FVec F S5000x10 .f32) : FVec F S1x10 .f32 :=
  divf (shapeCast S1x10 (multiReduction .add [0] S10 (mulf (kCentred x) (kCentred x)) 0x00000000#32 reduces_S5000x10_S10 (.inl rfl) rfl)
      shapeCasts_S10_S1x10)
    (broadcast S1x10 (Scalar.ofBits .f32 0x459C4000#32))

def kScaled (x : FVec F S5000x10 .f32) (g : FVec F S1x10 .f32) : FVec F S5000x10 .f32 :=
  mulf (mulf (broadcastTo S5000x10 g broadcasts_S1x10_S5000x10) (kCentred x))
    (broadcastTo S5000x10 (rsqrt (addf (kVar x) (broadcast S1x10 (Scalar.ofBits .f32 0x3727C5AC#32)))) broadcasts_S1x10_S5000x10)

def kNorm (x : FVec F S5000x10 .f32) (g t : FVec F S1x10 .f32) : FVec F S5000x10 .f32 :=
  kRow (kScaled x (shapeCast S1x10 g shapeCasts_S1x10_S1x10)) t

def kLayer (v : FVec F S5000x10 .f32) (w : FVec F S10x10 .f32) (b g t : FVec F S1x10 .f32) : FVec F S5000x10 .f32 :=
  kNorm (kRow (kMat v w) b) g t

def kRelu (y : FVec F S5000x10 .f32) : FVec F S5000x10 .f32 :=
  maximumf y (broadcast S5000x10 (Scalar.ofBits .f32 0x00000000#32))

def kOut (y : FVec F S5000x10 .f32) (wo : FVec F S1x10 .f32) (bo : FVec F S1x1 .f32) : FVec F S5000x1 .f32 :=
  addf (shapeCast S5000x1 (multiReduction .add [1] S5000 (mulf y (broadcastTo S5000x10 wo broadcasts_S1x10_S5000x10)) 0x00000000#32
      reduces_S5000x10_S5000 (.inl rfl) rfl) shapeCasts_S5000_S5000x1)
    (broadcastTo S5000x1 (shapeCast S1x1 bo shapeCasts_S1x1_S1x1) broadcasts_S1x1_S5000x1)

theorem pay23_eq (x0 : FVec F S5000x10 .f32) (x1 : FVec F S5000x1 .f32) (x2 : FVec F S10x10 .f32) (x3 x12 x13 : FVec F S1x10 .f32) :
    addf (k1_pay2 x0 x1 x2 x3 x12) (k1_pay3 x13) = kLayer (kPool x0 x1) x2 x3 x12 x13 := rfl

theorem pay4_eq (p2 p3 : FVec F S5000x10 .f32) (w : FVec F S10x10 .f32) (b g t : FVec F S1x10 .f32) :
    k1_pay4 p2 p3 w b g t = kRelu (kLayer (kRelu (addf p2 p3)) w b g t) := rfl

theorem pay5_eq (p2 p3 : FVec F S5000x10 .f32) (w : FVec F S10x10 .f32) (b g t : FVec F S1x10 .f32) (w3 : FVec F S10x10 .f32) :
    k1_pay5 p2 p3 w b g t w3 = kMat (k1_pay4 p2 p3 w b g t) w3 := rfl

theorem pay6_eq (m : FVec F S5000x10 .f32) (b3 g3 t3 : FVec F S1x10 .f32) (w4 : FVec F S10x10 .f32) (b4 : FVec F S1x10 .f32) :
    k1_pay6 m b3 g3 t3 w4 b4 = kRow (kMat (kRelu (kNorm (kRow m b3) g3 t3)) w4) b4 := rfl

theorem pay17_eq (y2 x4 : FVec F S5000x10 .f32) (g4 t4 wo : FVec F S1x10 .f32) (bo : FVec F S1x1 .f32) :
    k1_pay1 y2 x4 (k1_pay7 g4) t4 wo bo = kOut (kRelu (addf (kNorm x4 g4 t4) y2)) wo bo := rfl

end Defs

theorem ofBits_5000 : Ideal.ofBits .f32 0x459C4000#32 = ((5000 : ℝ) : EReal) := by
  simp [Ideal.ofBits, Ideal.ieee, -EReal.coe_mul] <;> norm_num

theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul] <;> norm_num

theorem mul_rsqrt_eq_div_sqrt (a t : EReal) (ht : 0 < t) : a * Ideal.rsqrt t = Ideal.div a (Ideal.sqrt t) := by
  induction t using EReal.rec with
  | bot => exact absurd ht (not_lt_bot)
  | top => rw [Ideal.rsqrt_top, Ideal.sqrt_top, mul_zero, Ideal.div, if_neg EReal.top_ne_zero, EReal.inv_top, mul_zero]
  | coe r =>
    have hr : 0 < r := EReal.coe_pos.1 ht
    have hs : Real.sqrt r ≠ 0 := (Real.sqrt_pos.2 hr).ne'
    rw [Ideal.rsqrt_coe, if_neg (not_lt.2 hr.le), if_neg hr.ne', Ideal.sqrt_coe, if_neg (not_lt.2 hr.le),
      Ideal.div_coe hs, one_div]

theorem mul_self_nonneg_ereal (a : EReal) : 0 ≤ a * a := by
  induction a using EReal.rec with
  | bot => rw [EReal.bot_mul_bot]; exact le_top
  | top => rw [EReal.top_mul_top]; exact le_top
  | coe r => rw [← EReal.coe_mul]; exact EReal.coe_nonneg.2 (mul_self_nonneg r)

theorem div_5000_nonneg {x : EReal} (h : 0 ≤ x) : 0 ≤ Ideal.div x ((5000 : ℝ) : EReal) := by
  rw [Ideal.div_coe (by norm_num : (5000 : ℝ) ≠ 0)]
  exact mul_nonneg h (EReal.coe_nonneg.2 (by norm_num))

theorem add_eps_pos {x : EReal} (h : 0 ≤ x) : 0 < x + Ideal.ofBits .f32 0x3727C5AC#32 := by
  obtain ⟨e, he, hE⟩ := ofBits_eps
  rw [hE]
  have h1 : (0 : EReal) + (e : EReal) ≤ x + (e : EReal) := add_le_add h le_rfl
  rw [zero_add] at h1
  exact lt_of_lt_of_le (EReal.coe_pos.2 he) h1

theorem divisor_eq : (Ideal.ofBits .f32 0x459C4000#32 : EReal) - FloatOps.sitofp (F := Ideal) .f32 (0#32 : BitVec 32)
    = Ideal.ofBits .f32 0x459C4000#32 := by
  show (Ideal.ofBits .f32 0x459C4000#32 : EReal) - (((0#32 : BitVec 32).toInt : ℝ) : EReal) = _
  simp

theorem guard_eq : Ideal.cmp .ogt (Ideal.ofBits .f32 0x459C4000#32) (Ideal.ofBits .f32 0x00000000#32) = 1#1 := by
  rw [ofBits_5000, Ideal.ofBits_zero_f32]
  have h : (0 : EReal) < ((5000 : ℝ) : EReal) := EReal.coe_pos.2 (by norm_num)
  simp [Ideal.cmp, h]

section Reads

variable {α : Type}

theorem funext_ix2 {n0 n1 : ℕ} {f g : (⟨2, ![n0, n1]⟩ : Shape).Idx → α}
    (h : ∀ (p : Fin n0) (c : Fin n1), f (ix2 p c) = g (ix2 p c)) : f = g :=
  funext fun j => by rw [eq_ix2 j]; exact h (j 0) (j 1)

theorem hostSqrt_apply {s : Shape} {φ : FTy} (a : FVec Ideal s φ) (i : s.Idx) : Host.sqrt a i = Ideal.sqrt (a i) := rfl
theorem rsqrt_apply {s : Shape} {φ : FTy} (a : FVec Ideal s φ) (i : s.Idx) : rsqrt a i = Ideal.rsqrt (a i) := rfl

theorem multiReduction_add_cols {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun k _ => congrArg src ?_
  funext ax
  match ax with
  | ⟨0, _⟩ => rfl
  | ⟨1, _⟩ => rfl

theorem hostColSum_apply (v : FVec Ideal S5000x10 .f32) (h' : S5000x10.ReducesTo [0] S10) (hu : 0 < S_.numel) (c : Fin 10) :
    Host.reduceAdd (F := Ideal) v (constant (F := Ideal) S_ .f32 0x00000000#32) h' hu (ix1 c) = ∑ r : Fin 5000, v (ix2 r c) := by
  rw [← multiReduction_add_eq_hostReduceAdd v 0x00000000#32 reduces_S5000x10_S10 (.inl rfl) rfl _ h' hu Ideal.ofBits_zero_f32]
  exact multiReduction_add_cols v _ _ _ _ c

theorem bcast_b_1b_apply {n : ℕ} (u : (⟨1, ![n]⟩ : Shape).Idx → α)
    (h : (⟨1, ![n]⟩ : Shape).BroadcastsInDim ⟨2, ![1, n]⟩ (![1] : Fin 1 → Fin 2)) (z : Fin 1) (c : Fin n) :
    broadcastInDim ⟨2, ![1, n]⟩ ![1] h u (ix2 z c) = u (ix1 c) := by
  refine broadcastInDim_apply _ h u _ _ fun ax => ?_
  match ax with
  | ⟨0, _⟩ =>
    show c.val = if n = 1 then 0 else c.val
    split
    · have := c.isLt; omega
    · rfl

theorem bcastRow_apply {m n : ℕ} (u : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (p : Fin m) (c : Fin n) :
    broadcastInDim ⟨2, ![m, n]⟩ ![0, 1] h2 (broadcastInDim ⟨2, ![1, n]⟩ ![1] h1 u) (ix2 p c) = u (ix1 c) :=
  (broadcastInDim_oneRow_apply h2 _ p c).trans (bcast_b_1b_apply u h1 0 c)

theorem bcast_a1_ab_apply (v : (⟨2, ![5000, 1]⟩ : Shape).Idx → α)
    (h : (⟨2, ![5000, 1]⟩ : Shape).BroadcastsInDim ⟨2, ![5000, 10]⟩ (![0, 1] : Fin 2 → Fin 2)) (p : Fin 5000) (c : Fin 10) :
    broadcastInDim ⟨2, ![5000, 10]⟩ ![0, 1] h v (ix2 p c) = v (ix2 p (0 : Fin 1)) := by
  refine broadcastInDim_apply _ h v (ix2 p c) (ix2 p (0 : Fin 1)) fun ax => ?_
  match ax with
  | ⟨0, _⟩ => rfl
  | ⟨1, _⟩ => rfl

theorem dotGeneral_eq_matmul_zero {sl sr so : Shape} {φ₁ φ₂ : FTy} (d : DotDims sl sr so) (prec prec' : Option ContractPrecision)
    (sched : HostSchedule) (lhs : FVec Ideal sl φ₁) (rhs : FVec Ideal sr φ₂) (j : so.Idx) :
    FloatOps.dotGeneral d prec sched lhs rhs j = FloatOps.matmul d prec' lhs rhs (constant so .f32 0x00000000#32) j :=
  (Ideal.dotGeneral_apply d prec sched lhs rhs j).trans (Ideal.matmul_constant_zero_apply d prec' lhs rhs j).symm

end Reads

def mu (x : FVec Ideal S5000x10 .f32) (c : Fin 10) : EReal :=
  Ideal.div (∑ r : Fin 5000, x (ix2 r c)) (Ideal.ofBits .f32 0x459C4000#32)

def sigma2 (x : FVec Ideal S5000x10 .f32) (c : Fin 10) : EReal :=
  Ideal.div (∑ r : Fin 5000, (x (ix2 r c) - mu x c) * (x (ix2 r c) - mu x c)) (Ideal.ofBits .f32 0x459C4000#32)

theorem sigma2_nonneg (x : FVec Ideal S5000x10 .f32) (c : Fin 10) : 0 ≤ sigma2 x c := by
  unfold sigma2
  rw [ofBits_5000]
  exact div_5000_nonneg (Finset.sum_nonneg fun r _ => mul_self_nonneg_ereal _)

theorem kColSum_apply (x : FVec Ideal S5000x10 .f32) (u : Fin 1) (c : Fin 10) :
    shapeCast S1x10 (multiReduction .add [0] S10 x 0x00000000#32 reduces_S5000x10_S10 (.inl rfl) rfl) shapeCasts_S10_S1x10 (ix2 u c)
      = ∑ r : Fin 5000, x (ix2 r c) :=
  (shapeCast_a_1a_apply _ _ u c).trans (multiReduction_add_cols x _ _ _ _ c)

theorem kMean_apply (x : FVec Ideal S5000x10 .f32) (u : Fin 1) (c : Fin 10) : kMean x (ix2 u c) = mu x c := by
  unfold kMean mu
  rw [divf_apply, kColSum_apply]
  rfl

theorem kCentred_apply (x : FVec Ideal S5000x10 .f32) (p : Fin 5000) (c : Fin 10) :
    kCentred x (ix2 p c) = x (ix2 p c) - mu x c := by
  unfold kCentred
  rw [subf_apply, broadcastTo_1b_ab_apply, kMean_apply]

theorem kVar_apply (x : FVec Ideal S5000x10 .f32) (u : Fin 1) (c : Fin 10) : kVar x (ix2 u c) = sigma2 x c := by
  unfold kVar sigma2
  rw [divf_apply, kColSum_apply]
  refine congrArg₂ Ideal.div (Finset.sum_congr rfl fun r _ => ?_) rfl
  rw [mulf_apply, kCentred_apply]

theorem kNorm_apply (x : FVec Ideal S5000x10 .f32) (g t : FVec Ideal S1x10 .f32) (p : Fin 5000) (c : Fin 10) :
    kNorm x g t (ix2 p c)
      = g (ix2 (0 : Fin 1) c) * (x (ix2 p c) - mu x c) * Ideal.rsqrt (sigma2 x c + Ideal.ofBits .f32 0x3727C5AC#32)
        + t (ix2 (0 : Fin 1) c) := by
  unfold kNorm kRow kScaled
  simp only [addf_apply, mulf_apply, rsqrt_apply, broadcastTo_1b_ab_apply, shapeCast_self, kCentred_apply, kVar_apply]
  rfl

theorem refMean_apply (x : FVec Ideal S5000x10 .f32) (c : Fin 10) :
    Cert.ReferenceIdeal.Hand.colMean (F := Ideal) x (ix1 c) = mu x c := by
  unfold Cert.ReferenceIdeal.Hand.colMean mu
  rw [hostDivf_apply, hostColSum_apply, broadcastInDim_scalar_apply]
  rfl

theorem guardB_apply (h : S_.BroadcastsInDim S10 (![] : Fin 0 → Fin S10.rank)) (j : S10.Idx) :
    broadcastInDim S10 ![] h (cmpf .ogt (subf (constant (F := Ideal) S_ .f32 0x459C4000#32) (sitofp .f32 (constantI S_ 32 0#32)))
      (constant (F := Ideal) S_ .f32 0x00000000#32)) j = 1#1 :=
  (broadcastInDim_scalar_apply h _ j).trans ((congrArg (fun z => Ideal.cmp .ogt z (Ideal.ofBits .f32 0x00000000#32)) divisor_eq).trans guard_eq)

theorem divisorB_apply (h : S_.BroadcastsInDim S10 (![] : Fin 0 → Fin S10.rank)) (j : S10.Idx) :
    broadcastInDim S10 ![] h (subf (constant (F := Ideal) S_ .f32 0x459C4000#32) (sitofp .f32 (constantI S_ 32 0#32))) j
      = Ideal.ofBits .f32 0x459C4000#32 :=
  (broadcastInDim_scalar_apply h _ j).trans divisor_eq

theorem refVar_apply (x : FVec Ideal S5000x10 .f32) (c : Fin 10) :
    Cert.ReferenceIdeal.Hand.colVar (F := Ideal) x (constantI S_ 32 0#32) (ix1 c) = sigma2 x c := by
  simp only [Cert.ReferenceIdeal.Hand.colVar]
  rw [select_apply, guardB_apply, select_one, hostDivf_apply, divisorB_apply, hostColSum_apply]
  unfold sigma2
  refine congrArg₂ Ideal.div (Finset.sum_congr rfl fun r _ => ?_) rfl
  rw [mulf_apply, subf_apply, broadcastInDim_oneRow_apply, hostDivf_apply, bcast_b_1b_apply, hostColSum_apply, broadcastInDim_scalar_apply]
  rfl

def refLin (v : FVec Ideal S5000x10 .f32) (w : FVec Ideal S10x10 .f32) (b : FVec Ideal S10 .f32) : FVec Ideal S5000x10 .f32 :=
  addf (Host.dotGeneral Cert.ReferenceIdeal.dot_S5000x10_S10x10_S5000x10_1_0_0_1_n_n none v
      (transpose S10x10 [1, 0] w Cert.ReferenceIdeal.Gen.transposes_S10x10_S10x10_1_0))
    (broadcastInDim S5000x10 ![0, 1] Cert.ReferenceIdeal.Gen.bcast_S1x10_S5000x10_0_1
      (broadcastInDim S1x10 ![1] Cert.ReferenceIdeal.Gen.bcast_S10_S1x10_1 b))

def refNorm (x : FVec Ideal S5000x10 .f32) (g t : FVec Ideal S10 .f32) : FVec Ideal S5000x10 .f32 :=
  addf (Host.divf
      (mulf (broadcastInDim S5000x10 ![0, 1] Cert.ReferenceIdeal.Gen.bcast_S1x10_S5000x10_0_1
          (broadcastInDim S1x10 ![1] Cert.ReferenceIdeal.Gen.bcast_S10_S1x10_1 g))
        (subf x (broadcastInDim S5000x10 ![0, 1] Cert.ReferenceIdeal.Gen.bcast_S1x10_S5000x10_0_1
          (broadcastInDim S1x10 ![1] Cert.ReferenceIdeal.Gen.bcast_S10_S1x10_1 (Cert.ReferenceIdeal.Hand.colMean x)))))
      (broadcastInDim S5000x10 ![0, 1] Cert.ReferenceIdeal.Gen.bcast_S1x10_S5000x10_0_1
        (broadcastInDim S1x10 ![1] Cert.ReferenceIdeal.Gen.bcast_S10_S1x10_1
          (Host.sqrt (addf (Cert.ReferenceIdeal.Hand.colVar x (constantI S_ 32 0#32))
            (broadcastInDim S10 ![] Cert.ReferenceIdeal.Gen.bcast_S_S10 (constant S_ .f32 0x3727C5AC#32)))))))
    (broadcastInDim S5000x10 ![0, 1] Cert.ReferenceIdeal.Gen.bcast_S1x10_S5000x10_0_1
      (broadcastInDim S1x10 ![1] Cert.ReferenceIdeal.Gen.bcast_S10_S1x10_1 t))

theorem bnLayer_eq (v : FVec Ideal S5000x10 .f32) (w : FVec Ideal S10x10 .f32) (b g t : FVec Ideal S10 .f32) :
    Cert.ReferenceIdeal.Hand.bnLayer (F := Ideal) v w b g t = refNorm (refLin v w b) g t := rfl

theorem refNorm_apply (x : FVec Ideal S5000x10 .f32) (g t : FVec Ideal S10 .f32) (p : Fin 5000) (c : Fin 10) :
    refNorm x g t (ix2 p c)
      = Ideal.div (g (ix1 c) * (x (ix2 p c) - mu x c)) (Ideal.sqrt (sigma2 x c + Ideal.ofBits .f32 0x3727C5AC#32))
        + t (ix1 c) := by
  unfold refNorm
  rw [addf_apply, hostDivf_apply, mulf_apply, subf_apply, bcastRow_apply, bcastRow_apply, bcastRow_apply, bcastRow_apply,
    refMean_apply, hostSqrt_apply, addf_apply, refVar_apply, broadcastInDim_scalar_apply]
  rfl

theorem kPool_eq (s : FVec Ideal S5000x10 .f32) (cnt : FVec Ideal S5000x1 .f32) :
    kPool s cnt = Cert.ReferenceIdeal.Hand.meanPool (F := Ideal) s cnt := by
  refine funext_ix2 fun p c => ?_
  unfold kPool Cert.ReferenceIdeal.Hand.meanPool
  simp only [divf_apply, hostDivf_apply, maximumf_apply, shapeCast_self, broadcastTo_a1_ab_apply]
  rw [bcast_a1_ab_apply, maximumf_apply, broadcastInDim_scalar_apply]
  rfl

theorem kRelu_eq (y : FVec Ideal S5000x10 .f32) : kRelu y = Cert.ReferenceIdeal.Hand.relu (F := Ideal) y := by
  funext j
  unfold kRelu Cert.ReferenceIdeal.Hand.relu
  simp only [maximumf_apply, broadcastInDim_scalar_apply]
  rfl

theorem kLin_eq (v : FVec Ideal S5000x10 .f32) (w : FVec Ideal S10x10 .f32) (b : FVec Ideal S10 .f32) :
    kRow (kMat v w) (shapeCast S1x10 b shapeCasts_S10_S1x10) = refLin v w b := by
  refine funext_ix2 fun p c => ?_
  unfold kRow kMat refLin
  rw [addf_apply, addf_apply]
  refine congrArg₂ (· + ·) (dotGeneral_eq_matmul_zero _ none (some .fp32) .single _ _ _).symm ?_
  rw [broadcastTo_1b_ab_apply, shapeCast_self, shapeCast_a_1a_apply, bcastRow_apply]

theorem kNorm_eq (x : FVec Ideal S5000x10 .f32) (g t : FVec Ideal S10 .f32) :
    kNorm x (shapeCast S1x10 g shapeCasts_S10_S1x10) (shapeCast S1x10 t shapeCasts_S10_S1x10) = refNorm x g t := by
  refine funext_ix2 fun p c => ?_
  rw [kNorm_apply, refNorm_apply, shapeCast_a_1a_apply, shapeCast_a_1a_apply,
    mul_rsqrt_eq_div_sqrt _ _ (add_eps_pos (sigma2_nonneg x c))]

theorem kLayer_eq (v : FVec Ideal S5000x10 .f32) (w : FVec Ideal S10x10 .f32) (b g t : FVec Ideal S10 .f32) :
    kLayer v w (shapeCast S1x10 b shapeCasts_S10_S1x10) (shapeCast S1x10 g shapeCasts_S10_S1x10) (shapeCast S1x10 t shapeCasts_S10_S1x10)
      = Cert.ReferenceIdeal.Hand.bnLayer (F := Ideal) v w b g t := by
  unfold kLayer
  rw [bnLayer_eq, kLin_eq, kNorm_eq]

theorem kOut_eq (y : FVec Ideal S5000x10 .f32) (wo : FVec Ideal S1x10 .f32) (bo : FVec Ideal S1 .f32) :
    kOut y wo (shapeCast S1x1 bo shapeCasts_S1_S1x1) = Cert.ReferenceIdeal.Hand.outLayer (F := Ideal) y wo bo := by
  refine funext_ix2 fun p u => ?_
  obtain rfl : u = 0 := Subsingleton.elim u 0
  unfold kOut Cert.ReferenceIdeal.Hand.outLayer
  rw [addf_apply, addf_apply]
  refine congrArg₂ (· + ·) ?_ ?_
  · refine (shapeCast_a_a1_apply _ _ p 0).trans ((multiReduction_add_rows _ _ _ _ _ p).trans ?_)
    refine Eq.trans ?_ (dotGeneral_eq_matmul_zero _ none none .single _ _ _).symm
    refine Eq.trans ?_ (matmul_zero_apply Cert.ReferenceIdeal.dot_S5000x10_S10x1_S5000x1_1_0_0_1_n_n rfl rfl
      (fun _ _ => rfl) (fun _ _ => rfl) (fun _ _ => rfl) (fun _ _ => rfl) none y _ p 0).symm
    refine Finset.sum_congr rfl fun k _ => ?_
    rw [mulf_apply, broadcastTo_1b_ab_apply, transpose_ix2_apply]
  · rw [broadcastTo_1b_ab_apply, shapeCast_self, shapeCast_a_1a_apply, bcastRow_apply]

end Value1

open Value1

theorem K1_eq_head (s : FVec Ideal S5000x10 .f32) (cnt : FVec Ideal S5000x1 .f32) (w1 w2 w3 w4 : FVec Ideal S10x10 .f32)
    (wo : FVec Ideal S1x10 .f32) (bo : FVec Ideal S1 .f32) (b1 b2 b3 b4 g1 t1 g2 t2 g3 t3 g4 t4 : FVec Ideal S10 .f32) :
    K1 (F := Ideal) s cnt w1 (shapeCast S1x10 b1 shapeCasts_S10_S1x10) w2 (shapeCast S1x10 b2 shapeCasts_S10_S1x10)
        w3 (shapeCast S1x10 b3 shapeCasts_S10_S1x10) w4 (shapeCast S1x10 b4 shapeCasts_S10_S1x10)
        wo (shapeCast S1x1 bo shapeCasts_S1_S1x1)
        (shapeCast S1x10 g1 shapeCasts_S10_S1x10) (shapeCast S1x10 t1 shapeCasts_S10_S1x10)
        (shapeCast S1x10 g2 shapeCasts_S10_S1x10) (shapeCast S1x10 t2 shapeCasts_S10_S1x10)
        (shapeCast S1x10 g3 shapeCasts_S10_S1x10) (shapeCast S1x10 t3 shapeCasts_S10_S1x10)
        (shapeCast S1x10 g4 shapeCasts_S10_S1x10) (shapeCast S1x10 t4 shapeCasts_S10_S1x10)
      = Cert.ReferenceIdeal.Hand.head (F := Ideal) s cnt w1 b1 w2 b2 w3 b3 w4 b4 wo bo g1 t1 g2 t2 g3 t3 g4 t4 := by
  unfold K1
  rw [pay17_eq, pay6_eq, pay5_eq, pay4_eq, pay23_eq]
  show kOut (kRelu (addf (kLayer (kRelu (kLayer _ _ _ _ _)) _ _ _ _) _)) _ _ = _
  simp only [kPool_eq, kLayer_eq, kRelu_eq, kOut_eq]
  rfl

end Cert.KernelIdeal.Hand

end
-- ==== Proof.LibTakeRows.lean ====
import Idealize.ShloMosaic.Lib.ValueIdx

noncomputable section

namespace Cert.LibTakeRows

open Idealize.ShloMosaic Idealize.ShloMosaic.ValueIdx

variable {α : Type}

abbrev rowDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

theorem gather_rows_apply {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowDims N W E wf) x idx (ix2 e k)
      = x (ix2 (⟨min (idx (ix2 e (0 : Fin 1))).toInt.toNat (N - 1), by omega⟩ : Fin N) k) := by
  have hsi : (rowDims N W E wf).siIdx (ix2 e k) ⟨0, Nat.one_pos⟩ = ix2 e (0 : Fin 1) := by
    funext b; refine Fin.ext ?_
    match b with
    | ⟨0, _⟩ => rfl
    | ⟨1, _⟩ => rfl
  unfold Host.gather
  congr 1
  funext a
  refine Fin.ext ?_
  match a with
  | ⟨0, _⟩ => exact congrArg (fun v => min (idx v).toInt.toNat (N - 1)) hsi
  | ⟨1, _⟩ => exact Nat.zero_add _

end Cert.LibTakeRows

end
-- ==== Proof.LibGraphOps.lean ====
import Idealize.ShloMosaic.Lib.Pipeline.Value
import Idealize.ShloMosaic.Lib.ValueIdx
import Idealize.ShloMosaic.Lib.ValueIdxRank1

noncomputable section

namespace Cert.LibGraphOps

open Idealize.ShloMosaic Idealize.ShloMosaic.ValueIdx

variable {α : Type}

abbrev take1Dims (N K : Nat) (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

theorem gather_take1_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (e : Fin K) :
    Host.gather (take1Dims N K wf) x idx (ix1 e)
      = x (ix1 (⟨min (idx (ix2 e (0 : Fin 1))).toInt.toNat (N - 1), by omega⟩ : Fin N)) := by
  have hsi : (take1Dims N K wf).siIdx (ix1 e) ⟨0, Nat.one_pos⟩ = ix2 e (0 : Fin 1) := by
    funext b; refine Fin.ext ?_
    match b with
    | ⟨0, _⟩ => rfl
    | ⟨1, _⟩ => rfl
  unfold Host.gather
  congr 1
  funext a
  obtain rfl : a = 0 := Subsingleton.elim _ _
  exact Fin.ext (congrArg (fun v => min (idx v).toInt.toNat (N - 1)) hsi)

end Cert.LibGraphOps

end
-- ==== Proof.LibStretch.lean ====
import Mathlib.Data.List.Forall2
import Idealize.ShloMosaic.Lib.StableHlo.Run
import Idealize.ShloMosaic.Lib.Pipeline.Frame

namespace Cert.LibStretch

open Idealize.ShloMosaic Idealize.ShloMosaic.StableHlo

variable {τ : Topo} {sig : RefSig} {Val : EltTy → Type}

-- The k-th reference of ys names the one buffer the k-th operation writes.
def WritesAre (ops : List (HloOp τ sig Val)) (ys : List (Ref sig .tc)) : Prop :=
  List.Forall₂ (fun op y => op.writes = {Proc.devRef .tc y}) ops ys

theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => intro op hop; exact absurd hop List.not_mem_nil
  | cons hxy _ ih =>
    intro op hop
    rcases List.mem_cons.mp hop with e | hop
    · subst e
      rw [hxy, Finset.mem_singleton]
      exact devRef_ne_of_ne fun e => hr (e ▸ List.mem_cons_self)
    · exact ih (fun hm => hr (List.mem_cons_of_mem _ hm)) op hop

-- A buffer written by no operation from position k on holds, after the line, what the first k operations left.
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_append, after_of_forall_not_mem _ _ (not_mem_writes (List.forall₂_drop k h) hr)]

end Cert.LibStretch
-- ==== Proof.LibSsa.lean ====
import proofs.«404605_j2911987826902_2_alg».proof.Proof.LibStretch

namespace Cert.LibSsa

open Idealize.ShloMosaic Idealize.ShloMosaic.StableHlo Cert.LibStretch

variable {τ : Topo} {sig : RefSig} {Val : EltTy → Type}
variable {ops : List (HloOp τ sig Val)} {ys : List (Ref sig .tc)}

theorem after_at (h : WritesAre ops ys) (k : Nat) (W : Valuation τ sig Val) (op : HloOp τ sig Val)
    (hop : ops[k]? = some op) (y : Ref sig .tc) (hy : y ∉ ys.drop (k + 1)) :
    after ops W (Proc.devRef .tc y) = op.result (after (ops.take k) W) (Proc.devRef .tc y) := by
  rw [after_eq_take h (k + 1) W y hy, List.take_succ, hop, Option.toList_some, after_append, after_cons, after_nil]

theorem read_take (h : WritesAre ops ys) (k : Nat) (W : Valuation τ sig Val) (x : Ref sig .tc)
    (hx : x ∉ ys.drop k) :
    after (ops.take k) W (Proc.devRef .tc x) = after ops W (Proc.devRef .tc x) :=
  (after_eq_take h k W x hx).symm

theorem keeps (h : WritesAre ops ys) (W : Valuation τ sig Val) (r : Ref sig .tc) (hr : r ∉ ys) :
    after ops W (Proc.devRef .tc r) = W (Proc.devRef .tc r) :=
  after_of_forall_not_mem ops W (not_mem_writes h hr)

theorem at_nullary (h : WritesAre ops ys) (k : Nat) (W : Valuation τ sig Val) {y : Ref sig .tc}
    (v : y.ty.Contents Val) (hy0) (hop : ops[k]? = some (nullary y v hy0)) (hy : y ∉ ys.drop (k + 1)) :
    after ops W (Proc.devRef .tc y) = v := by
  rw [after_at h k W _ hop y hy]; exact nullary_result y v hy0 _

theorem at_unary (h : WritesAre ops ys) (k : Nat) (W : Valuation τ sig Val) {x y : Ref sig .tc}
    (f : x.ty.Contents Val → y.ty.Contents Val) (hx0 hy0) (hop : ops[k]? = some (unary x y f hx0 hy0))
    (hy : y ∉ ys.drop (k + 1)) (hx : x ∉ ys.drop k) :
    after ops W (Proc.devRef .tc y) = f (after ops W (Proc.devRef .tc x)) := by
  rw [after_at h k W _ hop y hy, ← read_take h k W x hx]; exact unary_result x y f hx0 hy0 _

theorem at_binary (h : WritesAre ops ys) (k : Nat) (W : Valuation τ sig Val) {a b y : Ref sig .tc}
    (f : a.ty.Contents Val → b.ty.Contents Val → y.ty.Contents Val) (ha0 hb0 hy0)
    (hop : ops[k]? = some (binary a b y f ha0 hb0 hy0))
    (hy : y ∉ ys.drop (k + 1)) (ha : a ∉ ys.drop k) (hb : b ∉ ys.drop k) :
    after ops W (Proc.devRef .tc y) = f (after ops W (Proc.devRef .tc a)) (after ops W (Proc.devRef .tc b)) := by
  rw [after_at h k W _ hop y hy, ← read_take h k W a ha, ← read_take h k W b hb]
  exact binary_result a b y f ha0 hb0 hy0 _

theorem at_ternary (h : WritesAre ops ys) (k : Nat) (W : Valuation τ sig Val) {c a b y : Ref sig .tc}
    (f : c.ty.Contents Val → a.ty.Contents Val → b.ty.Contents Val → y.ty.Contents Val) (hc0 ha0 hb0 hy0)
    (hop : ops[k]? = some (ternary c a b y f hc0 ha0 hb0 hy0))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) := by
  rw [after_at h k W _ hop y hy, ← read_take h k W c hc, ← read_take h k W a ha, ← read_take h k W b hb]
  exact ternary_result c a b y f hc0 ha0 hb0 hy0 _

theorem at_reshape (h : WritesAre ops ys) (k : Nat) (W : Valuation τ sig Val) {x y : Ref sig .tc}
    (he : x.ty.elt = y.ty.elt) (hn : x.ty.shape.ShapeCasts y.ty.shape) (hx0 hy0)
    (hop : ops[k]? = some (reshape x y he hn hx0 hy0)) (hy : y ∉ ys.drop (k + 1)) (hx : x ∉ ys.drop k) :
    after ops W (Proc.devRef .tc y) = fun i => he ▸ shapeCast y.ty.shape (after ops W (Proc.devRef .tc x)) hn i := by
  rw [after_at h k W _ hop y hy, ← read_take h k W x hx]; exact reshape_result x y he hn hx0 hy0 _

macro "writes_are" : tactic =>
  `(tactic| (unfold Cert.LibStretch.WritesAre
             repeat (first | exact List.Forall₂.nil | refine List.Forall₂.cons rfl ?_)))

end Cert.LibSsa
-- ==== Proof.LibSsaT.lean ====
import proofs.«404605_j2911987826902_2_alg».proof.Proof.LibSsa

namespace Cert.LibSsa

open Idealize.ShloMosaic Idealize.ShloMosaic.StableHlo Cert.LibStretch

variable {τ : Topo} {sig : RefSig} {Val : EltTy → Type}
variable {ops : List (HloOp τ sig Val)} {ys : List (Ref sig .tc)}

theorem ofBuf_toBuf {T : BufTy} (y : TRef sig T) (v : T.Contents Val) : y.ofBuf (y.toBuf v) = v := by
  obtain ⟨r, hr, _, _⟩ := y
  subst hr
  rfl

theorem at_tnullary (h : WritesAre ops ys) (k : Nat) (W : Valuation τ sig Val) {Ty : BufTy} (y : TRef sig Ty)
    (v : Ty.Contents Val) (hop : ops[k]? = some (TRef.nullary y v)) (hy : y.ref ∉ ys.drop (k + 1)) (A : Valuation τ sig Val) (hA : A = after ops W) :
    y.ofBuf (A (Proc.devRef .tc y.ref)) = v := by
  subst hA; rw [at_nullary h k W _ _ hop hy]; exact ofBuf_toBuf y _

theorem at_tunary (h : WritesAre ops ys) (k : Nat) (W : Valuation τ sig Val) {Tx Ty : BufTy} (x : TRef sig Tx)
    (y : TRef sig Ty) (f : Tx.Contents Val → Ty.Contents Val) (hop : ops[k]? = some (TRef.unary x y f))
    (hy : y.ref ∉ ys.drop (k + 1)) (hx : x.ref ∉ ys.drop k) (A : Valuation τ sig Val) (hA : A = after ops W) :
    y.ofBuf (A (Proc.devRef .tc y.ref)) = f (x.ofBuf (A (Proc.devRef .tc x.ref))) := by
  subst hA; rw [at_unary h k W _ _ _ hop hy hx]; exact ofBuf_toBuf y _

theorem at_tbinary (h : WritesAre ops ys) (k : Nat) (W : Valuation τ sig Val) {Ta Tb Ty : BufTy} (a : TRef sig Ta)
    (b : TRef sig Tb) (y : TRef sig Ty) (f : Ta.Contents Val → Tb.Contents Val → Ty.Contents Val)
    (hop : ops[k]? = some (TRef.binary a b y f))
    (hy : y.ref ∉ ys.drop (k + 1)) (ha : a.ref ∉ ys.drop k) (hb : b.ref ∉ ys.drop k) (A : Valuation τ sig Val) (hA : A = after ops W) :
    y.ofBuf (A (Proc.devRef .tc y.ref))
      = f (a.ofBuf (A (Proc.devRef .tc a.ref))) (b.ofBuf (A (Proc.devRef .tc b.ref))) := by
  subst hA; rw [at_binary h k W _ _ _ _ hop hy ha hb]; exact ofBuf_toBuf y _

theorem at_tternary (h : WritesAre ops ys) (k : Nat) (W : Valuation τ sig Val) {Tc Ta Tb Ty : BufTy} (c : TRef sig Tc)
    (a : TRef sig Ta) (b : TRef sig Tb) (y : TRef sig Ty)
    (f : Tc.Contents Val → Ta.Contents Val → Tb.Contents Val → Ty.Contents Val)
    (hop : ops[k]? = some (TRef.ternary c a b y f))
    (hy : y.ref ∉ ys.drop (k + 1)) (hc : c.ref ∉ ys.drop k) (ha : a.ref ∉ ys.drop k) (hb : b.ref ∉ ys.drop k) (A : Valuation τ sig Val) (hA : A = after ops W) :
    y.ofBuf (A (Proc.devRef .tc y.ref))
      = f (c.ofBuf (A (Proc.devRef .tc c.ref))) (a.ofBuf (A (Proc.devRef .tc a.ref)))
          (b.ofBuf (A (Proc.devRef .tc b.ref))) := by
  subst hA; rw [at_ternary h k W _ _ _ _ _ hop hy hc ha hb]; exact ofBuf_toBuf y _

end Cert.LibSsa
-- ==== Proof.KI.HostValue.lean ====
import proofs.«404605_j2911987826902_2_alg».proof.Proof.Gen.KernelIdeal.Regions
import proofs.«404605_j2911987826902_2_alg».proof.Proof.Spec
import proofs.«404605_j2911987826902_2_alg».proof.Proof.RefSpec
import proofs.«404605_j2911987826902_2_alg».proof.Proof.LibTakeRows
import proofs.«404605_j2911987826902_2_alg».proof.Proof.LibGraphOps
import proofs.«404605_j2911987826902_2_alg».proof.Proof.LibSsaT
import Idealize.ShloMosaic.Lib.StableHlo.Run
import Idealize.ShloMosaic.Lib.ValueIdx
import Idealize.ShloMosaic.Lib.ValueLayout
import Idealize.ShloMosaic.Lib.ReduceAll
import Idealize.ShloMosaic.Lib.StableHlo.Predicate

set_option maxRecDepth 3200

noncomputable section

namespace Cert.KernelIdeal.Hand

open Idealize.ShloMosaic Idealize.ShloMosaic.TcCoe Idealize.ShloMosaic.ValueIdx
open Cert.KernelIdeal Cert.KernelIdeal.Facts₀ Cert.KernelIdeal.Facts
open Cert.KernelIdeal.Gen (Outs V0 V1 V2 V3 V4 V5 V6 V7 V1_of V2_of V3_of V4_of V5_of V6_of hostOps0 hostOps0_1 hostOps0_2
  hostOps0_3 hostOps1 hostOps0_W hostOps0_1_W hostOps0_2_W hostOps0_3_W hostOps1_W)

theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  have key : ∀ (l : List s.Idx) (a : BitVec 1), a = 1#1 → l.foldl (fun r i => IntOp.andi r (x i)) a = 1#1 := by
    intro l
    induction l with
    | nil => intro a ha; exact ha
    | cons b l ih =>
      intro a ha
      refine ih _ ?_
      show IntOp.andi a (x b) = 1#1
      rw [ha, hx b]; rfl
  exact key _ _ hinit

theorem bcast_axis0_apply {α : Type} {n k : Nat} (hn : n ≠ 1)
    (h : (⟨1, ![n]⟩ : Shape).BroadcastsInDim ⟨2, ![n, k]⟩ ![0]) (w : (⟨1, ![n]⟩ : Shape).Idx → α)
    (i : (⟨2, ![n, k]⟩ : Shape).Idx) : broadcastInDim ⟨2, ![n, k]⟩ ![0] h w i = w (ix1 (i 0)) := by
  simp only [broadcastInDim]
  congr 1
  funext a
  match a with
  | ⟨0, _⟩ =>
    apply Fin.ext
    split
    · next h1 => exact absurd h1 hn
    · rfl

def wrapCol (idx : IVec S8000000 32) : IVec S8000000x1 32 :=
  broadcastInDim S8000000x1 ![0] bcast_S8000000_S8000000x1_0
    (select (cmpi .slt idx (broadcastInDim S8000000 ![] bcast_S_S8000000 (constantI S_ 32 0#32)))
      (addi idx (broadcastInDim S8000000 ![] bcast_S_S8000000 (constantI S_ 32 500000#32))) idx)

def inTable (col : IVec S8000000x1 32) : IVec S8000000 1 :=
  Host.reduce IntOp.andi
    (andi (cmpi .sge col (broadcastInDim S8000000x1 ![] bcast_S_S8000000x1 (constantI S_ 32 0#32)))
      (cmpi .sle col (broadcastInDim S8000000x1 ![0, 1] bcast_S1x1_S8000000x1_0_1
        (broadcastInDim S1x1 ![1] bcast_S1_S1x1_1 (constantI S1 32 499999#32)))))
    (constantI S_ 1 1#1) reducesTo_S8000000x1_S8000000_d1 h_S_

def takeRows {F : FTy → Type} [FloatOps F] (x : FVec F S500000x10 .f32) (idx : IVec S8000000 32) : FVec F S8000000x10 .f32 :=
  select (broadcastInDim S8000000x10 ![0] bcast_S8000000_S8000000x10_0 (inTable (wrapCol idx)))
    (Host.gather gather_S500000x10_S8000000x1_S8000000x10_1_0_n_n_0_1_110 x (wrapCol idx))
    (broadcastInDim S8000000x10 ![] bcast_S_S8000000x10 (constant (F := F) S_ .f32 0x7FC00000#32))

def takeVec (t : IVec S500000 32) (idx : IVec S8000000 32) : IVec S8000000 32 :=
  select (inTable (wrapCol idx))
    (Host.gather gather_S500000_S8000000x1_S8000000_n_0_n_n_0_1_1 t (wrapCol idx))
    (broadcastInDim S8000000 ![] bcast_S_S8000000 (constantI S_ 32 2147483648#32))

theorem wrapCol_apply (idx : IVec S8000000 32) (i : S8000000x1.Idx) (h : 0 ≤ (idx (ix1 (i 0))).toInt) :
    wrapCol idx i = idx (ix1 (i 0)) := by
  unfold wrapCol
  refine (bcast_axis0_apply (by decide) _ _ i).trans ?_
  show Scalar.select (IntOp.cmpi .slt (idx (ix1 (i 0))) 0#32) _ _ = _
  have h0 : (0#32 : BitVec 32).toInt = 0 := by decide
  rw [eq_zero_of_ne_one (fun hc => absurd (IntOp.cmpi_slt.mp hc) (by omega))]
  exact select_zero _ _

theorem inTable_eq_one (col : IVec S8000000x1 32) (h : ∀ i, 0 ≤ (col i).toInt ∧ (col i).toInt ≤ 499999)
    (j : S8000000.Idx) : inTable col j = 1#1 := by
  unfold inTable
  refine reduce_andi_one _ _ _ _ _ rfl (fun i => ?_)
  show IntOp.andi (IntOp.cmpi .sge (col i) 0#32) (IntOp.cmpi .sle (col i) 499999#32) = 1#1
  have h0 : (0#32 : BitVec 32).toInt = 0 := by decide
  have h1 : (499999#32 : BitVec 32).toInt = 499999 := by decide
  exact IntOp.andi_eq_one.mpr ⟨IntOp.cmpi_sge.mpr (by have := h i; omega), IntOp.cmpi_sle.mpr (by have := h i; omega)⟩

theorem takeRows_apply (x : FVec Ideal S500000x10 .f32) (idx : IVec S8000000 32)
    (h : ∀ e : Fin 8000000, 0 ≤ (idx (ix1 e)).toInt ∧ (idx (ix1 e)).toInt < 500000) (e : Fin 8000000) (d : Fin 10) :
    takeRows x idx (ix2 e d) = x (ix2 (Cert.Spec.rowOf (idx (ix1 e))) d) := by
  have hcol : ∀ i, wrapCol idx i = idx (ix1 (i 0)) := fun i => wrapCol_apply idx i (h (i 0)).1
  unfold takeRows
  rw [select_apply, bcast_axis0_apply (by decide), inTable_eq_one _ (fun i => by rw [hcol]; have := h (i 0); omega), select_one]
  refine (Cert.LibTakeRows.gather_rows_apply (by decide) gather_S500000x10_S8000000x1_S8000000x10_1_0_n_n_0_1_110_wf x
    (wrapCol idx) e d).trans ?_
  refine congrArg (fun r => x (ix2 r d)) (Fin.ext ?_)
  show min (wrapCol idx (ix2 e (0 : Fin 1))).toInt.toNat (500000 - 1) = min (idx (ix1 e)).toInt.toNat 499999
  rw [hcol]

theorem takeVec_apply (t : IVec S500000 32) (idx : IVec S8000000 32)
    (h : ∀ e : Fin 8000000, 0 ≤ (idx (ix1 e)).toInt ∧ (idx (ix1 e)).toInt < 500000) (e : Fin 8000000) :
    takeVec t idx (ix1 e) = t (ix1 (Cert.Spec.rowOf (idx (ix1 e)))) := by
  have hcol : ∀ i, wrapCol idx i = idx (ix1 (i 0)) := fun i => wrapCol_apply idx i (h (i 0)).1
  unfold takeVec
  rw [select_apply, inTable_eq_one _ (fun i => by rw [hcol]; have := h (i 0); omega), select_one]
  refine (Cert.LibGraphOps.gather_take1_apply (by decide) gather_S500000_S8000000x1_S8000000_n_0_n_n_0_1_1_wf t
    (wrapCol idx) e).trans ?_
  refine congrArg (fun r => t (ix1 r)) (Fin.ext ?_)
  show min (wrapCol idx (ix2 e (0 : Fin 1))).toInt.toNat (500000 - 1) = min (idx (ix1 e)).toInt.toNat 499999
  rw [hcol]

theorem src_stretch (W : Valuation τ sig (Elt Ideal)) :
    StableHlo.after hostOps0 W (Proc.devRef .tc main_v1)
      = shapeCast S8000000 (extractStridedSlice S1x8000000 ![0, 0] (W (Proc.devRef .tc main_arg1)) slices_S2x8000000_S1x8000000_0_0)
          shapeCasts_S1x8000000_S8000000 := by
  after_results; rfl

theorem dst_stretch (W : Valuation τ sig (Elt Ideal)) :
    StableHlo.after hostOps0 W (Proc.devRef .tc main_v3)
      = shapeCast S8000000 (extractStridedSlice S1x8000000 ![1, 0] (W (Proc.devRef .tc main_arg1)) slices_S2x8000000_S1x8000000_1_0)
          shapeCasts_S1x8000000_S8000000 := by
  after_results; rfl

set_option maxHeartbeats 1000000 in
theorem takeRows_stretch (W : Valuation τ sig (Elt Ideal)) :
    (StableHlo.TRef.of main_v4 : StableHlo.TRef sig ⟨S8000000x10, .f32⟩).ofBuf (StableHlo.after hostOps0_1 W (Proc.devRef .tc main_v4))
      = takeRows (F := Ideal) ((StableHlo.TRef.of main_arg0 : StableHlo.TRef sig ⟨S500000x10, .f32⟩).ofBuf (W (Proc.devRef .tc main_arg0)))
          ((StableHlo.TRef.of main_v1 : StableHlo.TRef sig ⟨S8000000, .i32⟩).ofBuf (W (Proc.devRef .tc main_v1))) := by
  after_results_simp
  simp only [Cert.LibSsa.ofBuf_toBuf]
  rfl

set_option maxHeartbeats 1000000 in
theorem takeVec_stretch (W : Valuation τ sig (Elt Ideal)) :
    (StableHlo.TRef.of main_v5 : StableHlo.TRef sig ⟨S8000000, .i32⟩).ofBuf (StableHlo.after hostOps0_2 W (Proc.devRef .tc main_v5))
      = takeVec ((StableHlo.TRef.of main_arg3 : StableHlo.TRef sig ⟨S500000, .i32⟩).ofBuf (W (Proc.devRef .tc main_arg3)))
          ((StableHlo.TRef.of main_v3 : StableHlo.TRef sig ⟨S8000000, .i32⟩).ofBuf (W (Proc.devRef .tc main_v3))) := by
  after_results_simp
  simp only [Cert.LibSsa.ofBuf_toBuf]
  rfl

theorem cnt_stretch (W : Valuation τ sig (Elt Ideal)) :
    StableHlo.after hostOps0_3 W (Proc.devRef .tc main_v9)
      = Cert.ReferenceIdeal.Hand.cntOf (F := Ideal) (W (Proc.devRef .tc main_arg3)) := by
  after_results; rfl

theorem bg_stretch (W : Valuation τ sig (Elt Ideal)) :
    StableHlo.after hostOps0_3 W (Proc.devRef .tc main_v10)
      = shapeCast S1x8000000 (W (Proc.devRef .tc main_v5)) shapeCasts_S8000000_S1x8000000 := by
  after_results; rfl

theorem ea_stretch (W : Valuation τ sig (Elt Ideal)) :
    StableHlo.after hostOps0_3 W (Proc.devRef .tc main_v11)
      = shapeCast S1x8000000 (W (Proc.devRef .tc main_arg2)) shapeCasts_S8000000_S1x8000000 := by
  after_results; rfl

variable (m : (ℓ : Loc nD τ sig) → Buf (Elt Ideal) ℓ) (outs : Outs (F := Ideal)) (c : Dev nD)

theorem V3_launch (r : Ref sig .tc) (h : r ∉ hostOps0_2_W ∧ r ∉ hostOps0_1_W ∧ r ∉ hostOps0_W) :
    V3 m c r = m ((c : Thread nD τ).loc r) :=
  (V3_of m c r h.1).trans <| (V2_of m c r h.2.1).trans <| (V1_of m c r h.2.2).trans rfl

theorem V5_launch (r : Ref sig .tc) (h : r ∉ ([main_v12] : List (Ref sig .tc)) ∧ r ∉ hostOps0_3_W ∧ r ∉ hostOps0_2_W ∧
    r ∉ hostOps0_1_W ∧ r ∉ hostOps0_W) : V5 m outs c r = m ((c : Thread nD τ).loc r) :=
  (V5_of m outs c r h.1).trans <| (V4_of m c r h.2.1).trans (V3_launch m c r h.2.2)

theorem V1_src (e : Fin 8000000) :
    V1 m c main_v1 (ix1 e) = m ((c : Thread nD τ).loc main_arg1) (ix2 (0 : Fin 2) e) := by
  refine (congrFun (src_stretch (V0 m c)) (ix1 e)).trans ?_
  refine (shapeCast_1a_a_apply _ _ e).trans ?_
  exact slice2_axis0_apply 0 _ _ (0 : Fin 1) e (0 : Fin 2) rfl

theorem V1_dst (e : Fin 8000000) :
    V1 m c main_v3 (ix1 e) = m ((c : Thread nD τ).loc main_arg1) (ix2 (1 : Fin 2) e) := by
  refine (congrFun (dst_stretch (V0 m c)) (ix1 e)).trans ?_
  refine (shapeCast_1a_a_apply _ _ e).trans ?_
  exact slice2_axis0_apply 1 _ _ (0 : Fin 1) e (1 : Fin 2) rfl

theorem V4_xg (h : Cert.Spec.InRange (m ((c : Thread nD τ).loc main_arg1))) (e : Fin 8000000) (d : Fin 10) :
    V4 m c main_v4 (ix2 e d)
      = m ((c : Thread nD τ).loc main_arg0) (ix2 (Cert.Spec.rowOf (m ((c : Thread nD τ).loc main_arg1) (ix2 (0 : Fin 2) e))) d) := by
  have e4 : V4 m c main_v4 = takeRows (F := Ideal) (m ((c : Thread nD τ).loc main_arg0)) (V1 m c main_v1) :=
    (V4_of m c main_v4 (by decide)).trans <| (V3_of m c main_v4 (by decide)).trans <| (takeRows_stretch (V1 m c)).trans
      (congrArg (takeRows (F := Ideal) · _) ((V1_of m c main_arg0 (by decide)).trans rfl))
  refine (congrFun e4 (ix2 e d)).trans ?_
  refine (takeRows_apply _ _ (fun e' => by rw [V1_src]; exact h _) e d).trans ?_
  rw [V1_src]

theorem V4_bg (h : Cert.Spec.InRange (m ((c : Thread nD τ).loc main_arg1))) (e : Fin 8000000) :
    V4 m c main_v10 (ix2 (0 : Fin 1) e)
      = m ((c : Thread nD τ).loc main_arg3) (ix1 (Cert.Spec.rowOf (m ((c : Thread nD τ).loc main_arg1) (ix2 (1 : Fin 2) e)))) := by
  have e5 : V3 m c main_v5 = takeVec (m ((c : Thread nD τ).loc main_arg3)) (V1 m c main_v3) :=
    (takeVec_stretch (V2 m c)).trans (congrArg₂ takeVec
      ((V2_of m c main_arg3 (by decide)).trans ((V1_of m c main_arg3 (by decide)).trans rfl)) (V2_of m c main_v3 (by decide)))
  refine (congrFun (bg_stretch (V3 m c)) (ix2 (0 : Fin 1) e)).trans ?_
  refine (shapeCast_a_1a_apply _ _ 0 e).trans ?_
  refine (congrFun e5 (ix1 e)).trans ?_
  refine (takeVec_apply _ _ (fun e' => by rw [V1_dst]; exact h _) e).trans ?_
  rw [V1_dst]

theorem V4_ea (e : Fin 8000000) :
    V4 m c main_v11 (ix2 (0 : Fin 1) e) = m ((c : Thread nD τ).loc main_arg2) (ix1 e) := by
  refine (congrFun (ea_stretch (V3 m c)) (ix2 (0 : Fin 1) e)).trans ?_
  refine (shapeCast_a_1a_apply _ _ 0 e).trans ?_
  exact congrFun (V3_launch m c main_arg2 (by decide)) (ix1 e)

theorem V4_cnt : V4 m c main_v9 = Cert.ReferenceIdeal.Hand.cntOf (F := Ideal) (m ((c : Thread nD τ).loc main_arg3)) :=
  (cnt_stretch (V3 m c)).trans (congrArg (Cert.ReferenceIdeal.Hand.cntOf (F := Ideal)) (V3_launch m c main_arg3 (by decide)))

theorem V6_main_v9 : V6 m outs c main_v9 = V4 m c main_v9 :=
  (V6_of m outs c main_v9 (by decide)).trans (V5_of m outs c main_v9 (by decide))

theorem V6_main_v12 : V6 m outs c main_v12 = outs 5 main_v12 c :=
  (V6_of m outs c main_v12 (by decide)).trans (Function.update_self _ _ _)

theorem V6_weights :
    V6 m outs c main_arg4 = m ((c : Thread nD τ).loc main_arg4) ∧
    V6 m outs c main_arg6 = m ((c : Thread nD τ).loc main_arg6) ∧
    V6 m outs c main_arg8 = m ((c : Thread nD τ).loc main_arg8) ∧
    V6 m outs c main_arg10 = m ((c : Thread nD τ).loc main_arg10) ∧
    V6 m outs c main_arg12 = m ((c : Thread nD τ).loc main_arg12) := by
  refine ⟨?_, ?_, ?_, ?_, ?_⟩
  all_goals exact (V6_of m outs c _ (by decide)).trans (V5_launch m outs c _ (by decide))

theorem V6_rows1 :
    V6 m outs c main_v13 = shapeCast S1x10 (m ((c : Thread nD τ).loc main_arg5)) shapeCasts_S10_S1x10 ∧
    V6 m outs c main_v14 = shapeCast S1x10 (m ((c : Thread nD τ).loc main_arg7)) shapeCasts_S10_S1x10 ∧
    V6 m outs c main_v15 = shapeCast S1x10 (m ((c : Thread nD τ).loc main_arg9)) shapeCasts_S10_S1x10 ∧
    V6 m outs c main_v16 = shapeCast S1x10 (m ((c : Thread nD τ).loc main_arg11)) shapeCasts_S10_S1x10 := by
  refine ⟨?_, ?_, ?_, ?_⟩
  all_goals
    show StableHlo.after hostOps1 (V5 m outs c) _ = _
    rw [← V5_launch m outs c]
    · generalize V5 m outs c = W
      after_results
      rfl
    · decide

theorem V6_rows2 :
    V6 m outs c main_v17 = shapeCast S1x1 (m ((c : Thread nD τ).loc main_arg13)) shapeCasts_S1_S1x1 ∧
    V6 m outs c main_v18 = shapeCast S1x10 (m ((c : Thread nD τ).loc main_arg14)) shapeCasts_S10_S1x10 ∧
    V6 m outs c main_v19 = shapeCast S1x10 (m ((c : Thread nD τ).loc main_arg15)) shapeCasts_S10_S1x10 ∧
    V6 m outs c main_v20 = shapeCast S1x10 (m ((c : Thread nD τ).loc main_arg16)) shapeCasts_S10_S1x10 := by
  refine ⟨?_, ?_, ?_, ?_⟩
  all_goals
    show StableHlo.after hostOps1 (V5 m outs c) _ = _
    rw [← V5_launch m outs c]
    · generalize V5 m outs c = W
      after_results
      rfl
    · decide

theorem V6_rows3 :
    V6 m outs c main_v21 = shapeCast S1x10 (m ((c : Thread nD τ).loc main_arg17)) shapeCasts_S10_S1x10 ∧
    V6 m outs c main_v22 = shapeCast S1x10 (m ((c : Thread nD τ).loc main_arg18)) shapeCasts_S10_S1x10 ∧
    V6 m outs c main_v23 = shapeCast S1x10 (m ((c : Thread nD τ).loc main_arg19)) shapeCasts_S10_S1x10 ∧
    V6 m outs c main_v24 = shapeCast S1x10 (m ((c : Thread nD τ).loc main_arg20)) shapeCasts_S10_S1x10 ∧
    V6 m outs c main_v25 = shapeCast S1x10 (m ((c : Thread nD τ).loc main_arg21)) shapeCasts_S10_S1x10 := by
  refine ⟨?_, ?_, ?_, ?_, ?_⟩
  all_goals
    show StableHlo.after hostOps1 (V5 m outs c) _ = _
    rw [← V5_launch m outs c]
    · generalize V5 m outs c = W
      after_results
      rfl
    · decide

end Cert.KernelIdeal.Hand

end
-- ==== Proof.Bridge0.lean ====
import proofs.«404605_j2911987826902_2_alg».proof.Proof.KI.Run
import proofs.«404605_j2911987826902_2_alg».proof.Proof.KI.Value0
import proofs.«404605_j2911987826902_2_alg».proof.Proof.KI.Value1
import proofs.«404605_j2911987826902_2_alg».proof.Proof.KI.HostValue
import proofs.«404605_j2911987826902_2_alg».proof.Proof.Spec
import proofs.«404605_j2911987826902_2_alg».proof.Proof.RefSpec

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

theorem word_eq_iff (g : Fin 5000) (w : BitVec 32) : BitVec.ofNat 32 g.val = w ↔ w.toInt = (g.val : ℤ) := by
  have hg : (BitVec.ofNat 32 g.val).toInt = (g.val : ℤ) := by
    have := g.isLt
    rw [BitVec.toInt_eq_toNat_cond, BitVec.toNat_ofNat]
    have h1 : g.val % 2 ^ 32 = g.val := Nat.mod_eq_of_lt (by omega)
    rw [h1, if_pos]
    omega
  constructor
  · rintro rfl; exact hg
  · intro h; exact BitVec.eq_of_toInt_eq (hg.trans h.symm)

theorem out5_eq (h : Cert.Spec.InRange (m ((c : Thread nD τ).loc main_arg1))) :
    (out5 (F := Ideal) m c : S5000x10.Idx → EReal)
      = Cert.Spec.agg (m ((c : Thread nD τ).loc main_arg0)) (m ((c : Thread nD τ).loc main_arg1))
          (m ((c : Thread nD τ).loc main_arg2)) (m ((c : Thread nD τ).loc main_arg3)) := by
  funext i
  obtain ⟨g, d, rfl⟩ : ∃ (g : Fin 5000) (d : Fin 10), i = ix2 g d := ⟨i 0, i 1, eq_ix2 i⟩
  unfold out5
  rw [arrAt0_out]
  refine (acc_last (VA m) c (fun n hn => accAt0 (VA m) c n (lt_of_lt_of_eq hn N0'.symm))
    (accAt0_zero (VA m) c _) (fun n hn => accAt0_succ (VA m) c n _) g d).trans ?_
  unfold Cert.Spec.agg
  refine Finset.sum_congr rfl fun e _ => ?_
  have hb : Value0.arrBg (VA m) c (ix2 (0 : Fin 1) e) = _ := V4_bg m c h e
  have hx : Value0.arrXg (VA m) c (ix2 e d) = _ := V4_xg m c h e d
  have ha : Value0.arrEa (VA m) c (ix2 (0 : Fin 1) e) = _ := V4_ea m c e
  rw [hb, hx, ha]
  simp only [word_eq_iff]

end Cert.KernelIdeal.Hand

end
-- ==== Proof.Bridge1.lean ====
import proofs.«404605_j2911987826902_2_alg».proof.Proof.Bridge0

noncomputable section

namespace Cert.KernelIdeal.Hand

open Idealize.ShloMosaic Idealize.ShloMosaic.TcCoe Idealize.ShloMosaic.ValueIdx Idealize.SL.Sem
open Cert.KernelIdeal Cert.KernelIdeal.Gen

theorem K1_congr {F : FTy → Type} [FloatOps F] {x0 y0 : Vec F S5000x10 .f32} {x1 y1 : Vec F S5000x1 .f32}
    {x2 y2 x4 y4 x6 y6 x8 y8 : Vec F S10x10 .f32} {x11 y11 : Vec F S1x1 .f32}
    {x3 y3 x5 y5 x7 y7 x9 y9 x10 y10 x12 y12 x13 y13 x14 y14 x15 y15 x16 y16 x17 y17 x18 y18 x19 y19 : Vec F S1x10 .f32}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) (h10 : x10 = y10) (h11 : x11 = y11) (h12 : x12 = y12) (h13 : x13 = y13) (h14 : x14 = y14)
    (h15 : x15 = y15) (h16 : x16 = y16) (h17 : x17 = y17) (h18 : x18 = y18) (h19 : x19 = y19) :
    K1 x0 x1 x2 x3 x4 x5 x6 x7 x8 x9 x10 x11 x12 x13 x14 x15 x16 x17 x18 x19
      = K1 y0 y1 y2 y3 y4 y5 y6 y7 y8 y9 y10 y11 y12 y13 y14 y15 y16 y17 y18 y19 := by
  subst h0 h1 h2 h3 h4 h5 h6 h7 h8 h9 h10 h11 h12 h13 h14 h15 h16 h17 h18 h19
  rfl

variable (m : (ℓ : Loc nD τ sig) → Buf (Elt Ideal) ℓ) (c : Dev nD)

theorem out7_eq (h : Cert.Spec.InRange (m ((c : Thread nD τ).loc main_arg1))) :
    (out7 (F := Ideal) m c : S5000x1.Idx → EReal)
      = Cert.ReferenceIdeal.Hand.head (F := Ideal)
          (Cert.Spec.agg (m ((c : Thread nD τ).loc main_arg0)) (m ((c : Thread nD τ).loc main_arg1)) (m ((c : Thread nD τ).loc main_arg2)) (m ((c : Thread nD τ).loc main_arg3)))
          (Cert.ReferenceIdeal.Hand.cntOf (F := Ideal) (m ((c : Thread nD τ).loc main_arg3)))
          (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  unfold out7
  rw [arrAt1_out]
  obtain ⟨w1, w2, w3, w4, wo⟩ := V6_weights m (outsA m) c
  obtain ⟨b1, b2, b3, b4⟩ := V6_rows1 m (outsA m) c
  obtain ⟨bo, g1, t1, g2⟩ := V6_rows2 m (outsA m) c
  obtain ⟨t2, g3, t3, g4, t4⟩ := V6_rows3 m (outsA m) c
  exact (K1_congr ((V6_main_v12 m (outsA m) c).trans ((outsA_v12 m 5 c).trans (out5_eq m c h))) ((V6_main_v9 m (outsA m) c).trans (V4_cnt m c))
    w1 b1 w2 b2 w3 b3 w4 b4 wo bo g1 t1 g2 t2 g3 t3 g4 t4).trans (K1_eq_head _ _ _ _ _ _ _ _ _ _ _ _ _ _ _ _ _ _ _ _)

end Cert.KernelIdeal.Hand

end
-- ==== Proof.Ref.Ops.lean ====
import proofs.«404605_j2911987826902_2_alg».proof.Proof.Gen.ReferenceIdeal
import Idealize.ShloMosaic.Lib.StableHlo.Run
import proofs.«404605_j2911987826902_2_alg».proof.Proof.LibStretch
import proofs.«404605_j2911987826902_2_alg».proof.Proof.LibSsa
import proofs.«404605_j2911987826902_2_alg».proof.Proof.LibSsaT

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- The contents of a buffer of shape S and element type e.
abbrev BC (F : FTy → Type) (S : Shape) (e : EltTy) : Type := (⟨S, e⟩ : BufTy).Contents (Elt F)

abbrev ops0 : List (HloOp τ sig (Elt F)) :=
  [ StableHlo.unary main_arg1 main_v0 ((extractStridedSlice S1x8000000 ![0, 0] · slices_S2x8000000_S1x8000000_0_0) : BC F S2x8000000 .i32 → BC F S1x8000000 .i32),
    StableHlo.reshape main_v0 main_v1 rfl shapeCasts_S1x8000000_S8000000,
    StableHlo.unary main_arg1 main_v2 ((extractStridedSlice S1x8000000 ![1, 0] · slices_S2x8000000_S1x8000000_1_0) : BC F S2x8000000 .i32 → BC F S1x8000000 .i32),
    StableHlo.reshape main_v2 main_v3 rfl shapeCasts_S1x8000000_S8000000,
    StableHlo.nullary main_c (constantI S_ 32 0#32),
    StableHlo.unary main_c main_v4 (broadcastInDim S8000000 ![] bcast_S_S8000000 : BC F S_ .i32 → BC F S8000000 .i32),
    StableHlo.binary main_v1 main_v4 main_v5 (cmpi .slt : BC F S8000000 .i32 → BC F S8000000 .i32 → BC F S8000000 .i1),
    StableHlo.nullary main_c_0 (constantI S_ 32 500000#32),
    StableHlo.unary main_c_0 main_v6 (broadcastInDim S8000000 ![] bcast_S_S8000000 : BC F S_ .i32 → BC F S8000000 .i32),
    StableHlo.binary main_v1 main_v6 main_v7 (addi : BC F S8000000 .i32 → BC F S8000000 .i32 → BC F S8000000 .i32),
    StableHlo.ternary main_v5 main_v7 main_v1 main_v8 (select : BC F S8000000 .i1 → BC F S8000000 .i32 → BC F S8000000 .i32 → BC F S8000000 .i32),
    StableHlo.unary main_v8 main_v9 (broadcastInDim S8000000x1 ![0] bcast_S8000000_S8000000x1_0 : BC F S8000000 .i32 → BC F S8000000x1 .i32),
    StableHlo.binary main_arg0 main_v9 main_v10 ((fun x i => Host.gather gather_S500000x10_S8000000x1_S8000000x10_1_0_n_n_0_1_110 x i) : BC F S500000x10 .f32 → BC F S8000000x1 .i32 → BC F S8000000x10 .f32),
    StableHlo.unary main_arg2 main_v11 (broadcastInDim S8000000x1 ![0] bcast_S8000000_S8000000x1_0 : BC F S8000000 .f32 → BC F S8000000x1 .f32),
    StableHlo.unary main_v11 main_v12 (broadcastInDim S8000000x10 ![0, 1] bcast_S8000000x1_S8000000x10_0_1 : BC F S8000000x1 .f32 → BC F S8000000x10 .f32),
    StableHlo.binary main_v10 main_v12 main_v13 (mulf : BC F S8000000x10 .f32 → BC F S8000000x10 .f32 → BC F S8000000x10 .f32),
    StableHlo.nullary main_cst (constant S_ .f32 0x00000000#32),
    StableHlo.unary main_cst main_v14 (broadcastInDim S500000x10 ![] bcast_S_S500000x10 : BC F S_ .f32 → BC F S500000x10 .f32),
    StableHlo.unary main_v3 main_v15 (broadcastInDim S8000000x1 ![0] bcast_S8000000_S8000000x1_0 : BC F S8000000 .i32 → BC F S8000000x1 .i32),
    StableHlo.ternary main_v14 main_v15 main_v13 main_v16 ((fun x i u => Host.scatterAdd scatter_S500000x10_S8000000x1_S8000000x10_1_0_0_1 x i u) : BC F S500000x10 .f32 → BC F S8000000x1 .i32 → BC F S8000000x10 .f32 → BC F S500000x10 .f32),
    StableHlo.nullary main_cst_1 (constant S_ .f32 0x00000000#32),
    StableHlo.unary main_cst_1 main_v17 (broadcastInDim S5000x10 ![] bcast_S_S5000x10 : BC F S_ .f32 → BC F S5000x10 .f32),
    StableHlo.unary main_arg3 main_v18 (broadcastInDim S500000x1 ![0] bcast_S500000_S500000x1_0 : BC F S500000 .i32 → BC F S500000x1 .i32),
    StableHlo.ternary main_v17 main_v18 main_v16 main_v19 ((fun x i u => Host.scatterAdd scatter_S5000x10_S500000x1_S500000x10_1_0_0_1 x i u) : BC F S5000x10 .f32 → BC F S500000x1 .i32 → BC F S500000x10 .f32 → BC F S5000x10 .f32),
    StableHlo.nullary main_cst_2 (constant S_ .f32 0x3F800000#32),
    StableHlo.unary main_cst_2 main_v20 (broadcastInDim S500000x1 ![] bcast_S_S500000x1 : BC F S_ .f32 → BC F S500000x1 .f32),
    StableHlo.nullary main_cst_3 (constant S_ .f32 0x00000000#32),
    StableHlo.unary main_cst_3 main_v21 (broadcastInDim S5000x1 ![] bcast_S_S5000x1 : BC F S_ .f32 → BC F S5000x1 .f32),
    StableHlo.unary main_arg3 main_v22 (broadcastInDim S500000x1 ![0] bcast_S500000_S500000x1_0 : BC F S500000 .i32 → BC F S500000x1 .i32),
    StableHlo.ternary main_v21 main_v22 main_v20 main_v23 ((fun x i u => Host.scatterAdd scatter_S5000x1_S500000x1_S500000x1_1_0_0_1 x i u) : BC F S5000x1 .f32 → BC F S500000x1 .i32 → BC F S500000x1 .f32 → BC F S5000x1 .f32),
    StableHlo.nullary main_cst_4 (constant S_ .f32 0x3F800000#32),
    StableHlo.unary main_cst_4 main_v24 (broadcastInDim S5000x1 ![] bcast_S_S5000x1 : BC F S_ .f32 → BC F S5000x1 .f32),
    StableHlo.binary main_v23 main_v24 main_v25 (maximumf : BC F S5000x1 .f32 → BC F S5000x1 .f32 → BC F S5000x1 .f32),
    StableHlo.unary main_v25 main_v26 (broadcastInDim S5000x10 ![0, 1] bcast_S5000x1_S5000x10_0_1 : BC F S5000x1 .f32 → BC F S5000x10 .f32),
    StableHlo.binary main_v19 main_v26 main_v27 (Host.divf : BC F S5000x10 .f32 → BC F S5000x10 .f32 → BC F S5000x10 .f32),
    StableHlo.unary main_arg4 main_v28 ((transpose S10x10 [1, 0] · transposes_S10x10_S10x10_1_0) : BC F S10x10 .f32 → BC F S10x10 .f32),
    StableHlo.binary main_v27 main_v28 main_v29 ((fun l r => Host.dotGeneral dot_S5000x10_S10x10_S5000x10_1_0_0_1_n_n none l r) : BC F S5000x10 .f32 → BC F S10x10 .f32 → BC F S5000x10 .f32),
    StableHlo.unary main_arg5 main_v30 (broadcastInDim S1x10 ![1] bcast_S10_S1x10_1 : BC F S10 .f32 → BC F S1x10 .f32),
    StableHlo.unary main_v30 main_v31 (broadcastInDim S5000x10 ![0, 1] bcast_S1x10_S5000x10_0_1 : BC F S1x10 .f32 → BC F S5000x10 .f32),
    StableHlo.binary main_v29 main_v31 main_v32 (addf : BC F S5000x10 .f32 → BC F S5000x10 .f32 → BC F S5000x10 .f32),
    StableHlo.nullary main_cst_5 (constant S_ .f32 0x00000000#32),
    StableHlo.binary main_v32 main_cst_5 main_v33 ((fun x v => Host.reduceAdd x v reducesTo_S5000x10_S10_d0 h_S_) : BC F S5000x10 .f32 → BC F S_ .f32 → BC F S10 .f32),
    StableHlo.nullary main_cst_6 (constant S_ .f32 0x459C4000#32),
    StableHlo.unary main_cst_6 main_v34 (broadcastInDim S10 ![] bcast_S_S10 : BC F S_ .f32 → BC F S10 .f32),
    StableHlo.binary main_v33 main_v34 main_v35 (Host.divf : BC F S10 .f32 → BC F S10 .f32 → BC F S10 .f32),
    StableHlo.nullary main_c_7 (constantI S_ 32 0#32),
    StableHlo.TRef.nullary main_call0.cst (constant S_ .f32 0x00000000#32),
    StableHlo.TRef.binary (.of main_v32 : StableHlo.TRef sig ⟨S5000x10, .f32⟩) main_call0.cst main_call0.v0 (fun x v => Host.reduceAdd x v reducesTo_S5000x10_S10_d0 h_S_),
    StableHlo.TRef.unary main_call0.v0 main_call0.v1 (broadcastInDim S1x10 ![1] bcast_S10_S1x10_1),
    StableHlo.TRef.nullary main_call0.cst_0 (constant S_ .f32 0x459C4000#32),
    StableHlo.TRef.unary main_call0.cst_0 main_call0.v2 (broadcastInDim S1x10 ![] bcast_S_S1x10),
    StableHlo.TRef.binary main_call0.v1 main_call0.v2 main_call0.v3 Host.divf,
    StableHlo.TRef.unary main_call0.v3 main_call0.v4 (broadcastInDim S5000x10 ![0, 1] bcast_S1x10_S5000x10_0_1),
    StableHlo.TRef.binary (.of main_v32 : StableHlo.TRef sig ⟨S5000x10, .f32⟩) main_call0.v4 main_call0.v5 subf,
    StableHlo.TRef.binary main_call0.v5 main_call0.v5 main_call0.v6 mulf,
    StableHlo.TRef.unary (.of main_c_7 : StableHlo.TRef sig ⟨S_, .i32⟩) main_call0.v7 (sitofp .f32),
    StableHlo.TRef.nullary main_call0.cst_1 (constant S_ .f32 0x459C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S5000x10_S10_d0 h_S_),
    StableHlo.TRef.unary main_call0.v8 main_call0.v10 (broadcastInDim S10 ![] bcast_S_S10),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S10 ![] bcast_S_S10),
    StableHlo.TRef.ternary main_call0.v12 main_call0.v11 main_call0.call0.v1 main_call0.call0.v2 (fun p a b => select (broadcastInDim S10 ![] bcast_S_S10 p) a b),
    StableHlo.unary main_v35 main_v37 (broadcastInDim S1x10 ![1] bcast_S10_S1x10_1 : BC F S10 .f32 → BC F S1x10 .f32),
    StableHlo.unary main_v37 main_v38 (broadcastInDim S5000x10 ![0, 1] bcast_S1x10_S5000x10_0_1 : BC F S1x10 .f32 → BC F S5000x10 .f32),
    StableHlo.binary main_v32 main_v38 main_v39 (subf : BC F S5000x10 .f32 → BC F S5000x10 .f32 → BC F S5000x10 .f32),
    StableHlo.unary main_arg14 main_v40 (broadcastInDim S1x10 ![1] bcast_S10_S1x10_1 : BC F S10 .f32 → BC F S1x10 .f32),
    StableHlo.unary main_v40 main_v41 (broadcastInDim S5000x10 ![0, 1] bcast_S1x10_S5000x10_0_1 : BC F S1x10 .f32 → BC F S5000x10 .f32),
    StableHlo.binary main_v41 main_v39 main_v42 (mulf : BC F S5000x10 .f32 → BC F S5000x10 .f32 → BC F S5000x10 .f32),
    StableHlo.nullary main_cst_8 (constant S_ .f32 0x3727C5AC#32),
    StableHlo.unary main_cst_8 main_v43 (broadcastInDim S10 ![] bcast_S_S10 : BC F S_ .f32 → BC F S10 .f32),
    StableHlo.binary main_v36 main_v43 main_v44 (addf : BC F S10 .f32 → BC F S10 .f32 → BC F S10 .f32),
    StableHlo.unary main_v44 main_v45 (Host.sqrt : BC F S10 .f32 → BC F S10 .f32),
    StableHlo.unary main_v45 main_v46 (broadcastInDim S1x10 ![1] bcast_S10_S1x10_1 : BC F S10 .f32 → BC F S1x10 .f32),
    StableHlo.unary main_v46 main_v47 (broadcastInDim S5000x10 ![0, 1] bcast_S1x10_S5000x10_0_1 : BC F S1x10 .f32 → BC F S5000x10 .f32),
    StableHlo.binary main_v42 main_v47 main_v48 (Host.divf : BC F S5000x10 .f32 → BC F S5000x10 .f32 → BC F S5000x10 .f32) ]

abbrev ys0 : List (Ref sig .tc) :=
  [main_v0, main_v1, main_v2, main_v3, main_c, main_v4, main_v5, main_c_0, main_v6, main_v7, main_v8, main_v9, main_v10, main_v11, main_v12, main_v13, main_cst, main_v14, main_v15, main_v16, main_cst_1, main_v17, main_v18, main_v19, main_cst_2, main_v20, main_cst_3, main_v21, main_v22, main_v23, main_cst_4, main_v24, main_v25, main_v26, main_v27, main_v28, main_v29, main_v30, main_v31, main_v32, main_cst_5, main_v33, main_cst_6, main_v34, main_v35, main_c_7, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v36, main_v37, main_v38, main_v39, main_v40, main_v41, main_v42, main_cst_8, main_v43, main_v44, main_v45, main_v46, main_v47, main_v48]

abbrev ops1 : List (HloOp τ sig (Elt F)) :=
  [ StableHlo.unary main_arg15 main_v49 (broadcastInDim S1x10 ![1] bcast_S10_S1x10_1 : BC F S10 .f32 → BC F S1x10 .f32),
    StableHlo.unary main_v49 main_v50 (broadcastInDim S5000x10 ![0, 1] bcast_S1x10_S5000x10_0_1 : BC F S1x10 .f32 → BC F S5000x10 .f32),
    StableHlo.binary main_v48 main_v50 main_v51 (addf : BC F S5000x10 .f32 → BC F S5000x10 .f32 → BC F S5000x10 .f32),
    StableHlo.TRef.nullary main_call1.cst (constant S_ .f32 0x00000000#32),
    StableHlo.TRef.unary main_call1.cst main_call1.v0 (broadcastInDim S5000x10 ![] bcast_S_S5000x10),
    StableHlo.TRef.binary (.of main_v51 : StableHlo.TRef sig ⟨S5000x10, .f32⟩) main_call1.v0 main_call1.v1 maximumf,
    StableHlo.unary main_arg6 main_v53 ((transpose S10x10 [1, 0] · transposes_S10x10_S10x10_1_0) : BC F S10x10 .f32 → BC F S10x10 .f32),
    StableHlo.binary main_v52 main_v53 main_v54 ((fun l r => Host.dotGeneral dot_S5000x10_S10x10_S5000x10_1_0_0_1_n_n none l r) : BC F S5000x10 .f32 → BC F S10x10 .f32 → BC F S5000x10 .f32),
    StableHlo.unary main_arg7 main_v55 (broadcastInDim S1x10 ![1] bcast_S10_S1x10_1 : BC F S10 .f32 → BC F S1x10 .f32),
    StableHlo.unary main_v55 main_v56 (broadcastInDim S5000x10 ![0, 1] bcast_S1x10_S5000x10_0_1 : BC F S1x10 .f32 → BC F S5000x10 .f32),
    StableHlo.binary main_v54 main_v56 main_v57 (addf : BC F S5000x10 .f32 → BC F S5000x10 .f32 → BC F S5000x10 .f32),
    StableHlo.nullary main_cst_9 (constant S_ .f32 0x00000000#32),
    StableHlo.binary main_v57 main_cst_9 main_v58 ((fun x v => Host.reduceAdd x v reducesTo_S5000x10_S10_d0 h_S_) : BC F S5000x10 .f32 → BC F S_ .f32 → BC F S10 .f32),
    StableHlo.nullary main_cst_10 (constant S_ .f32 0x459C4000#32),
    StableHlo.unary main_cst_10 main_v59 (broadcastInDim S10 ![] bcast_S_S10 : BC F S_ .f32 → BC F S10 .f32),
    StableHlo.binary main_v58 main_v59 main_v60 (Host.divf : BC F S10 .f32 → BC F S10 .f32 → BC F S10 .f32),
    StableHlo.nullary main_c_11 (constantI S_ 32 0#32),
    StableHlo.TRef.nullary main_call2.cst (constant S_ .f32 0x00000000#32),
    StableHlo.TRef.binary (.of main_v57 : StableHlo.TRef sig ⟨S5000x10, .f32⟩) main_call2.cst main_call2.v0 (fun x v => Host.reduceAdd x v reducesTo_S5000x10_S10_d0 h_S_),
    StableHlo.TRef.unary main_call2.v0 main_call2.v1 (broadcastInDim S1x10 ![1] bcast_S10_S1x10_1),
    StableHlo.TRef.nullary main_call2.cst_0 (constant S_ .f32 0x459C4000#32),
    StableHlo.TRef.unary main_call2.cst_0 main_call2.v2 (broadcastInDim S1x10 ![] bcast_S_S1x10),
    StableHlo.TRef.binary main_call2.v1 main_call2.v2 main_call2.v3 Host.divf,
    StableHlo.TRef.unary main_call2.v3 main_call2.v4 (broadcastInDim S5000x10 ![0, 1] bcast_S1x10_S5000x10_0_1),
    StableHlo.TRef.binary (.of main_v57 : StableHlo.TRef sig ⟨S5000x10, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x459C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S5000x10_S10_d0 h_S_),
    StableHlo.TRef.unary main_call2.v8 main_call2.v10 (broadcastInDim S10 ![] bcast_S_S10),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S10 ![] bcast_S_S10),
    StableHlo.TRef.ternary main_call2.v12 main_call2.v11 main_call2.call0.v1 main_call2.call0.v2 (fun p a b => select (broadcastInDim S10 ![] bcast_S_S10 p) a b),
    StableHlo.unary main_v60 main_v62 (broadcastInDim S1x10 ![1] bcast_S10_S1x10_1 : BC F S10 .f32 → BC F S1x10 .f32),
    StableHlo.unary main_v62 main_v63 (broadcastInDim S5000x10 ![0, 1] bcast_S1x10_S5000x10_0_1 : BC F S1x10 .f32 → BC F S5000x10 .f32),
    StableHlo.binary main_v57 main_v63 main_v64 (subf : BC F S5000x10 .f32 → BC F S5000x10 .f32 → BC F S5000x10 .f32),
    StableHlo.unary main_arg16 main_v65 (broadcastInDim S1x10 ![1] bcast_S10_S1x10_1 : BC F S10 .f32 → BC F S1x10 .f32),
    StableHlo.unary main_v65 main_v66 (broadcastInDim S5000x10 ![0, 1] bcast_S1x10_S5000x10_0_1 : BC F S1x10 .f32 → BC F S5000x10 .f32),
    StableHlo.binary main_v66 main_v64 main_v67 (mulf : BC F S5000x10 .f32 → BC F S5000x10 .f32 → BC F S5000x10 .f32),
    StableHlo.nullary main_cst_12 (constant S_ .f32 0x3727C5AC#32),
    StableHlo.unary main_cst_12 main_v68 (broadcastInDim S10 ![] bcast_S_S10 : BC F S_ .f32 → BC F S10 .f32),
    StableHlo.binary main_v61 main_v68 main_v69 (addf : BC F S10 .f32 → BC F S10 .f32 → BC F S10 .f32),
    StableHlo.unary main_v69 main_v70 (Host.sqrt : BC F S10 .f32 → BC F S10 .f32),
    StableHlo.unary main_v70 main_v71 (broadcastInDim S1x10 ![1] bcast_S10_S1x10_1 : BC F S10 .f32 → BC F S1x10 .f32),
    StableHlo.unary main_v71 main_v72 (broadcastInDim S5000x10 ![0, 1] bcast_S1x10_S5000x10_0_1 : BC F S1x10 .f32 → BC F S5000x10 .f32),
    StableHlo.binary main_v67 main_v72 main_v73 (Host.divf : BC F S5000x10 .f32 → BC F S5000x10 .f32 → BC F S5000x10 .f32),
    StableHlo.unary main_arg17 main_v74 (broadcastInDim S1x10 ![1] bcast_S10_S1x10_1 : BC F S10 .f32 → BC F S1x10 .f32),
    StableHlo.unary main_v74 main_v75 (broadcastInDim S5000x10 ![0, 1] bcast_S1x10_S5000x10_0_1 : BC F S1x10 .f32 → BC F S5000x10 .f32),
    StableHlo.binary main_v73 main_v75 main_v76 (addf : BC F S5000x10 .f32 → BC F S5000x10 .f32 → BC F S5000x10 .f32),
    StableHlo.TRef.nullary main_call3.cst (constant S_ .f32 0x00000000#32),
    StableHlo.TRef.unary main_call3.cst main_call3.v0 (broadcastInDim S5000x10 ![] bcast_S_S5000x10),
    StableHlo.TRef.binary (.of main_v76 : StableHlo.TRef sig ⟨S5000x10, .f32⟩) main_call3.v0 main_call3.v1 maximumf,
    StableHlo.unary main_arg8 main_v78 ((transpose S10x10 [1, 0] · transposes_S10x10_S10x10_1_0) : BC F S10x10 .f32 → BC F S10x10 .f32),
    StableHlo.binary main_v77 main_v78 main_v79 ((fun l r => Host.dotGeneral dot_S5000x10_S10x10_S5000x10_1_0_0_1_n_n none l r) : BC F S5000x10 .f32 → BC F S10x10 .f32 → BC F S5000x10 .f32),
    StableHlo.unary main_arg9 main_v80 (broadcastInDim S1x10 ![1] bcast_S10_S1x10_1 : BC F S10 .f32 → BC F S1x10 .f32),
    StableHlo.unary main_v80 main_v81 (broadcastInDim S5000x10 ![0, 1] bcast_S1x10_S5000x10_0_1 : BC F S1x10 .f32 → BC F S5000x10 .f32),
    StableHlo.binary main_v79 main_v81 main_v82 (addf : BC F S5000x10 .f32 → BC F S5000x10 .f32 → BC F S5000x10 .f32),
    StableHlo.nullary main_cst_13 (constant S_ .f32 0x00000000#32),
    StableHlo.binary main_v82 main_cst_13 main_v83 ((fun x v => Host.reduceAdd x v reducesTo_S5000x10_S10_d0 h_S_) : BC F S5000x10 .f32 → BC F S_ .f32 → BC F S10 .f32),
    StableHlo.nullary main_cst_14 (constant S_ .f32 0x459C4000#32),
    StableHlo.unary main_cst_14 main_v84 (broadcastInDim S10 ![] bcast_S_S10 : BC F S_ .f32 → BC F S10 .f32),
    StableHlo.binary main_v83 main_v84 main_v85 (Host.divf : BC F S10 .f32 → BC F S10 .f32 → BC F S10 .f32),
    StableHlo.nullary main_c_15 (constantI S_ 32 0#32),
    StableHlo.TRef.nullary main_call4.cst (constant S_ .f32 0x00000000#32),
    StableHlo.TRef.binary (.of main_v82 : StableHlo.TRef sig ⟨S5000x10, .f32⟩) main_call4.cst main_call4.v0 (fun x v => Host.reduceAdd x v reducesTo_S5000x10_S10_d0 h_S_),
    StableHlo.TRef.unary main_call4.v0 main_call4.v1 (broadcastInDim S1x10 ![1] bcast_S10_S1x10_1),
    StableHlo.TRef.nullary main_call4.cst_0 (constant S_ .f32 0x459C4000#32),
    StableHlo.TRef.unary main_call4.cst_0 main_call4.v2 (broadcastInDim S1x10 ![] bcast_S_S1x10),
    StableHlo.TRef.binary main_call4.v1 main_call4.v2 main_call4.v3 Host.divf,
    StableHlo.TRef.unary main_call4.v3 main_call4.v4 (broadcastInDim S5000x10 ![0, 1] bcast_S1x10_S5000x10_0_1),
    StableHlo.TRef.binary (.of main_v82 : StableHlo.TRef sig ⟨S5000x10, .f32⟩) main_call4.v4 main_call4.v5 subf,
    StableHlo.TRef.binary main_call4.v5 main_call4.v5 main_call4.v6 mulf,
    StableHlo.TRef.unary (.of main_c_15 : StableHlo.TRef sig ⟨S_, .i32⟩) main_call4.v7 (sitofp .f32),
    StableHlo.TRef.nullary main_call4.cst_1 (constant S_ .f32 0x459C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S5000x10_S10_d0 h_S_),
    StableHlo.TRef.unary main_call4.v8 main_call4.v10 (broadcastInDim S10 ![] bcast_S_S10),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S10 ![] bcast_S_S10),
    StableHlo.TRef.ternary main_call4.v12 main_call4.v11 main_call4.call0.v1 main_call4.call0.v2 (fun p a b => select (broadcastInDim S10 ![] bcast_S_S10 p) a b),
    StableHlo.unary main_v85 main_v87 (broadcastInDim S1x10 ![1] bcast_S10_S1x10_1 : BC F S10 .f32 → BC F S1x10 .f32),
    StableHlo.unary main_v87 main_v88 (broadcastInDim S5000x10 ![0, 1] bcast_S1x10_S5000x10_0_1 : BC F S1x10 .f32 → BC F S5000x10 .f32),
    StableHlo.binary main_v82 main_v88 main_v89 (subf : BC F S5000x10 .f32 → BC F S5000x10 .f32 → BC F S5000x10 .f32),
    StableHlo.unary main_arg18 main_v90 (broadcastInDim S1x10 ![1] bcast_S10_S1x10_1 : BC F S10 .f32 → BC F S1x10 .f32),
    StableHlo.unary main_v90 main_v91 (broadcastInDim S5000x10 ![0, 1] bcast_S1x10_S5000x10_0_1 : BC F S1x10 .f32 → BC F S5000x10 .f32),
    StableHlo.binary main_v91 main_v89 main_v92 (mulf : BC F S5000x10 .f32 → BC F S5000x10 .f32 → BC F S5000x10 .f32),
    StableHlo.nullary main_cst_16 (constant S_ .f32 0x3727C5AC#32),
    StableHlo.unary main_cst_16 main_v93 (broadcastInDim S10 ![] bcast_S_S10 : BC F S_ .f32 → BC F S10 .f32),
    StableHlo.binary main_v86 main_v93 main_v94 (addf : BC F S10 .f32 → BC F S10 .f32 → BC F S10 .f32),
    StableHlo.unary main_v94 main_v95 (Host.sqrt : BC F S10 .f32 → BC F S10 .f32),
    StableHlo.unary main_v95 main_v96 (broadcastInDim S1x10 ![1] bcast_S10_S1x10_1 : BC F S10 .f32 → BC F S1x10 .f32),
    StableHlo.unary main_v96 main_v97 (broadcastInDim S5000x10 ![0, 1] bcast_S1x10_S5000x10_0_1 : BC F S1x10 .f32 → BC F S5000x10 .f32),
    StableHlo.binary main_v92 main_v97 main_v98 (Host.divf : BC F S5000x10 .f32 → BC F S5000x10 .f32 → BC F S5000x10 .f32),
    StableHlo.unary main_arg19 main_v99 (broadcastInDim S1x10 ![1] bcast_S10_S1x10_1 : BC F S10 .f32 → BC F S1x10 .f32),
    StableHlo.unary main_v99 main_v100 (broadcastInDim S5000x10 ![0, 1] bcast_S1x10_S5000x10_0_1 : BC F S1x10 .f32 → BC F S5000x10 .f32) ]

abbrev ys1 : List (Ref sig .tc) :=
  [main_v49, main_v50, main_v51, main_call1_cst, main_call1_v0, main_v52, main_v53, main_v54, main_v55, main_v56, main_v57, main_cst_9, main_v58, main_cst_10, main_v59, main_v60, main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v61, main_v62, main_v63, main_v64, main_v65, main_v66, main_v67, main_cst_12, main_v68, main_v69, main_v70, main_v71, main_v72, main_v73, main_v74, main_v75, main_v76, main_call3_cst, main_call3_v0, main_v77, main_v78, main_v79, main_v80, main_v81, main_v82, main_cst_13, main_v83, main_cst_14, main_v84, main_v85, main_c_15, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v86, main_v87, main_v88, main_v89, main_v90, main_v91, main_v92, main_cst_16, main_v93, main_v94, main_v95, main_v96, main_v97, main_v98, main_v99, main_v100]

abbrev ops2 : List (HloOp τ sig (Elt F)) :=
  [ StableHlo.binary main_v98 main_v100 main_v101 (addf : BC F S5000x10 .f32 → BC F S5000x10 .f32 → BC F S5000x10 .f32),
    StableHlo.TRef.nullary main_call5.cst (constant S_ .f32 0x00000000#32),
    StableHlo.TRef.unary main_call5.cst main_call5.v0 (broadcastInDim S5000x10 ![] bcast_S_S5000x10),
    StableHlo.TRef.binary (.of main_v101 : StableHlo.TRef sig ⟨S5000x10, .f32⟩) main_call5.v0 main_call5.v1 maximumf,
    StableHlo.unary main_arg10 main_v103 ((transpose S10x10 [1, 0] · transposes_S10x10_S10x10_1_0) : BC F S10x10 .f32 → BC F S10x10 .f32),
    StableHlo.binary main_v102 main_v103 main_v104 ((fun l r => Host.dotGeneral dot_S5000x10_S10x10_S5000x10_1_0_0_1_n_n none l r) : BC F S5000x10 .f32 → BC F S10x10 .f32 → BC F S5000x10 .f32),
    StableHlo.unary main_arg11 main_v105 (broadcastInDim S1x10 ![1] bcast_S10_S1x10_1 : BC F S10 .f32 → BC F S1x10 .f32),
    StableHlo.unary main_v105 main_v106 (broadcastInDim S5000x10 ![0, 1] bcast_S1x10_S5000x10_0_1 : BC F S1x10 .f32 → BC F S5000x10 .f32),
    StableHlo.binary main_v104 main_v106 main_v107 (addf : BC F S5000x10 .f32 → BC F S5000x10 .f32 → BC F S5000x10 .f32),
    StableHlo.nullary main_cst_17 (constant S_ .f32 0x00000000#32),
    StableHlo.binary main_v107 main_cst_17 main_v108 ((fun x v => Host.reduceAdd x v reducesTo_S5000x10_S10_d0 h_S_) : BC F S5000x10 .f32 → BC F S_ .f32 → BC F S10 .f32),
    StableHlo.nullary main_cst_18 (constant S_ .f32 0x459C4000#32),
    StableHlo.unary main_cst_18 main_v109 (broadcastInDim S10 ![] bcast_S_S10 : BC F S_ .f32 → BC F S10 .f32),
    StableHlo.binary main_v108 main_v109 main_v110 (Host.divf : BC F S10 .f32 → BC F S10 .f32 → BC F S10 .f32),
    StableHlo.nullary main_c_19 (constantI S_ 32 0#32),
    StableHlo.TRef.nullary main_call6.cst (constant S_ .f32 0x00000000#32),
    StableHlo.TRef.binary (.of main_v107 : StableHlo.TRef sig ⟨S5000x10, .f32⟩) main_call6.cst main_call6.v0 (fun x v => Host.reduceAdd x v reducesTo_S5000x10_S10_d0 h_S_),
    StableHlo.TRef.unary main_call6.v0 main_call6.v1 (broadcastInDim S1x10 ![1] bcast_S10_S1x10_1),
    StableHlo.TRef.nullary main_call6.cst_0 (constant S_ .f32 0x459C4000#32),
    StableHlo.TRef.unary main_call6.cst_0 main_call6.v2 (broadcastInDim S1x10 ![] bcast_S_S1x10),
    StableHlo.TRef.binary main_call6.v1 main_call6.v2 main_call6.v3 Host.divf,
    StableHlo.TRef.unary main_call6.v3 main_call6.v4 (broadcastInDim S5000x10 ![0, 1] bcast_S1x10_S5000x10_0_1),
    StableHlo.TRef.binary (.of main_v107 : StableHlo.TRef sig ⟨S5000x10, .f32⟩) main_call6.v4 main_call6.v5 subf,
    StableHlo.TRef.binary main_call6.v5 main_call6.v5 main_call6.v6 mulf,
    StableHlo.TRef.unary (.of main_c_19 : StableHlo.TRef sig ⟨S_, .i32⟩) main_call6.v7 (sitofp .f32),
    StableHlo.TRef.nullary main_call6.cst_1 (constant S_ .f32 0x459C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S5000x10_S10_d0 h_S_),
    StableHlo.TRef.unary main_call6.v8 main_call6.v10 (broadcastInDim S10 ![] bcast_S_S10),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S10 ![] bcast_S_S10),
    StableHlo.TRef.ternary main_call6.v12 main_call6.v11 main_call6.call0.v1 main_call6.call0.v2 (fun p a b => select (broadcastInDim S10 ![] bcast_S_S10 p) a b),
    StableHlo.unary main_v110 main_v112 (broadcastInDim S1x10 ![1] bcast_S10_S1x10_1 : BC F S10 .f32 → BC F S1x10 .f32),
    StableHlo.unary main_v112 main_v113 (broadcastInDim S5000x10 ![0, 1] bcast_S1x10_S5000x10_0_1 : BC F S1x10 .f32 → BC F S5000x10 .f32),
    StableHlo.binary main_v107 main_v113 main_v114 (subf : BC F S5000x10 .f32 → BC F S5000x10 .f32 → BC F S5000x10 .f32),
    StableHlo.unary main_arg20 main_v115 (broadcastInDim S1x10 ![1] bcast_S10_S1x10_1 : BC F S10 .f32 → BC F S1x10 .f32),
    StableHlo.unary main_v115 main_v116 (broadcastInDim S5000x10 ![0, 1] bcast_S1x10_S5000x10_0_1 : BC F S1x10 .f32 → BC F S5000x10 .f32),
    StableHlo.binary main_v116 main_v114 main_v117 (mulf : BC F S5000x10 .f32 → BC F S5000x10 .f32 → BC F S5000x10 .f32),
    StableHlo.nullary main_cst_20 (constant S_ .f32 0x3727C5AC#32),
    StableHlo.unary main_cst_20 main_v118 (broadcastInDim S10 ![] bcast_S_S10 : BC F S_ .f32 → BC F S10 .f32),
    StableHlo.binary main_v111 main_v118 main_v119 (addf : BC F S10 .f32 → BC F S10 .f32 → BC F S10 .f32),
    StableHlo.unary main_v119 main_v120 (Host.sqrt : BC F S10 .f32 → BC F S10 .f32),
    StableHlo.unary main_v120 main_v121 (broadcastInDim S1x10 ![1] bcast_S10_S1x10_1 : BC F S10 .f32 → BC F S1x10 .f32),
    StableHlo.unary main_v121 main_v122 (broadcastInDim S5000x10 ![0, 1] bcast_S1x10_S5000x10_0_1 : BC F S1x10 .f32 → BC F S5000x10 .f32),
    StableHlo.binary main_v117 main_v122 main_v123 (Host.divf : BC F S5000x10 .f32 → BC F S5000x10 .f32 → BC F S5000x10 .f32),
    StableHlo.unary main_arg21 main_v124 (broadcastInDim S1x10 ![1] bcast_S10_S1x10_1 : BC F S10 .f32 → BC F S1x10 .f32),
    StableHlo.unary main_v124 main_v125 (broadcastInDim S5000x10 ![0, 1] bcast_S1x10_S5000x10_0_1 : BC F S1x10 .f32 → BC F S5000x10 .f32),
    StableHlo.binary main_v123 main_v125 main_v126 (addf : BC F S5000x10 .f32 → BC F S5000x10 .f32 → BC F S5000x10 .f32),
    StableHlo.binary main_v126 main_v77 main_v127 (addf : BC F S5000x10 .f32 → BC F S5000x10 .f32 → BC F S5000x10 .f32),
    StableHlo.TRef.nullary main_call7.cst (constant S_ .f32 0x00000000#32),
    StableHlo.TRef.unary main_call7.cst main_call7.v0 (broadcastInDim S5000x10 ![] bcast_S_S5000x10),
    StableHlo.TRef.binary (.of main_v127 : StableHlo.TRef sig ⟨S5000x10, .f32⟩) main_call7.v0 main_call7.v1 maximumf,
    StableHlo.unary main_arg12 main_v129 ((transpose S10x1 [1, 0] · transposes_S1x10_S10x1_1_0) : BC F S1x10 .f32 → BC F S10x1 .f32),
    StableHlo.binary main_v128 main_v129 main_v130 ((fun l r => Host.dotGeneral dot_S5000x10_S10x1_S5000x1_1_0_0_1_n_n none l r) : BC F S5000x10 .f32 → BC F S10x1 .f32 → BC F S5000x1 .f32),
    StableHlo.unary main_arg13 main_v131 (broadcastInDim S1x1 ![1] bcast_S1_S1x1_1 : BC F S1 .f32 → BC F S1x1 .f32),
    StableHlo.unary main_v131 main_v132 (broadcastInDim S5000x1 ![0, 1] bcast_S1x1_S5000x1_0_1 : BC F S1x1 .f32 → BC F S5000x1 .f32),
    StableHlo.binary main_v130 main_v132 main_v133 (addf : BC F S5000x1 .f32 → BC F S5000x1 .f32 → BC F S5000x1 .f32) ]

abbrev ys2 : List (Ref sig .tc) :=
  [main_v101, main_call5_cst, main_call5_v0, main_v102, main_v103, main_v104, main_v105, main_v106, main_v107, main_cst_17, main_v108, main_cst_18, main_v109, main_v110, main_c_19, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v111, main_v112, main_v113, main_v114, main_v115, main_v116, main_v117, main_cst_20, main_v118, main_v119, main_v120, main_v121, main_v122, main_v123, main_v124, main_v125, main_v126, main_v127, main_call7_cst, main_call7_v0, main_v128, main_v129, main_v130, main_v131, main_v132, main_v133]

abbrev ops : List (HloOp τ sig (Elt F)) := ops0 ++ ops1 ++ ops2

abbrev ys : List (Ref sig .tc) := ys0 ++ ys1 ++ ys2

theorem hW0 : Cert.LibStretch.WritesAre (ops0 (F := F)) ys0 := by writes_are
theorem hW1 : Cert.LibStretch.WritesAre (ops1 (F := F)) ys1 := by writes_are
theorem hW2 : Cert.LibStretch.WritesAre (ops2 (F := F)) ys2 := by writes_are

theorem hW : Cert.LibStretch.WritesAre (ops (F := F)) ys :=
  List.rel_append (List.rel_append (hW0) hW1) hW2

end Cert.ReferenceIdeal.Hand

end
-- ==== Proof.Ref.Run.lean ====
import proofs.«404605_j2911987826902_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem main_eq0 (d : Dev nD) : main_part0 (F := F) d = StableHlo.seq (ops0 (F := F)) := rfl
theorem main_eq1 (d : Dev nD) : main_part1 (F := F) d = StableHlo.seq (ops1 (F := F)) := rfl
theorem main_eq2 (d : Dev nD) : main_part2 (F := F) d = StableHlo.seq (ops2 (F := F)) := rfl

theorem main_eq (d : Dev nD) : main (F := F) d = StableHlo.seq (ops (F := F)) := by
  show main (F := F) d = StableHlo.seq (ops0 ++ ops1 ++ ops2)
  rw [List.append_assoc, seq_append, seq_append, ← main_eq0 d, ← main_eq1 d, ← main_eq2 d]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig := by
  refine List.forall_append.mpr ⟨List.forall_append.mpr ⟨?_, ?_⟩, ?_⟩ <;> simp only [List.Forall] <;>
    and_intros <;> with_reducible first | exact nullary_bufs_sub .. | exact unary_bufs_sub .. | exact binary_bufs_sub .. | exact ternary_bufs_sub .. | exact reshape_bufs_sub ..

theorem ops_fresh : (ops (F := F)).Forall fun op => op.fresh = ∅ := by
  refine List.forall_append.mpr ⟨List.forall_append.mpr ⟨?_, ?_⟩, ?_⟩ <;> simp only [List.Forall] <;> repeat' constructor

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v133) = StableHlo.after (ops (F := F)) (fun b => m (c, b)) (Proc.devRef .tc main_v133)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun x h c =>
    have k : ∀ r : Ref sig .tc, r ∉ ys → x.2.mem ((c.tc : Thread nD τ).loc r) = m ((c.tc : Thread nD τ).loc r) :=
      fun r hr => (h c r).trans (Cert.LibSsa.keeps hW _ r hr)
    ⟨h c main_v133,
      k main_arg0 (by decide), k main_arg1 (by decide), k main_arg2 (by decide), k main_arg3 (by decide), k main_arg4 (by decide), k main_arg5 (by decide),
      k main_arg6 (by decide), k main_arg7 (by decide), k main_arg8 (by decide), k main_arg9 (by decide), k main_arg10 (by decide), k main_arg11 (by decide),
      k main_arg12 (by decide), k main_arg13 (by decide), k main_arg14 (by decide), k main_arg15 (by decide), k main_arg16 (by decide), k main_arg17 (by decide),
      k main_arg18 (by decide), k main_arg19 (by decide), k main_arg20 (by decide), k main_arg21 (by decide)⟩)
    (run_seq scopedRefs_eq scopedSems_eq defs main (fun _ => ops) main_eq (fun _ => ops_sub) m ρ
      (fun _ => List.forall_iff_forall_mem.mp ops_fresh))

end Cert.ReferenceIdeal.Hand

end
-- ==== Proof.Ref.Steps.lean ====
import Idealize.ShloMosaic.PureOps.Ideal
import proofs.«404605_j2911987826902_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.LibSsa Cert.LibStretch

variable (W : Valuation τ sig (Elt Ideal))

-- What the buffers hold after the whole line, run from the launch contents W (kept folded).
def finV : Valuation τ sig (Elt Ideal) := StableHlo.after (ops (F := Ideal)) W
abbrev fin (r : Ref sig .tc) := finV W (Proc.devRef .tc r)

abbrev fin_main_arg0 : FVec Ideal S500000x10 .f32 := fin W main_arg0
abbrev fin_main_arg1 : IVec S2x8000000 32 := fin W main_arg1
abbrev fin_main_arg2 : FVec Ideal S8000000 .f32 := fin W main_arg2
abbrev fin_main_arg3 : IVec S500000 32 := fin W main_arg3
abbrev fin_main_arg4 : FVec Ideal S10x10 .f32 := fin W main_arg4
abbrev fin_main_arg5 : FVec Ideal S10 .f32 := fin W main_arg5
abbrev fin_main_arg6 : FVec Ideal S10x10 .f32 := fin W main_arg6
abbrev fin_main_arg7 : FVec Ideal S10 .f32 := fin W main_arg7
abbrev fin_main_arg8 : FVec Ideal S10x10 .f32 := fin W main_arg8
abbrev fin_main_arg9 : FVec Ideal S10 .f32 := fin W main_arg9
abbrev fin_main_arg10 : FVec Ideal S10x10 .f32 := fin W main_arg10
abbrev fin_main_arg11 : FVec Ideal S10 .f32 := fin W main_arg11
abbrev fin_main_arg12 : FVec Ideal S1x10 .f32 := fin W main_arg12
abbrev fin_main_arg13 : FVec Ideal S1 .f32 := fin W main_arg13
abbrev fin_main_arg14 : FVec Ideal S10 .f32 := fin W main_arg14
abbrev fin_main_arg15 : FVec Ideal S10 .f32 := fin W main_arg15
abbrev fin_main_arg16 : FVec Ideal S10 .f32 := fin W main_arg16
abbrev fin_main_arg17 : FVec Ideal S10 .f32 := fin W main_arg17
abbrev fin_main_arg18 : FVec Ideal S10 .f32 := fin W main_arg18
abbrev fin_main_arg19 : FVec Ideal S10 .f32 := fin W main_arg19
abbrev fin_main_arg20 : FVec Ideal S10 .f32 := fin W main_arg20
abbrev fin_main_arg21 : FVec Ideal S10 .f32 := fin W main_arg21
abbrev fin_main_v0 : IVec S1x8000000 32 := fin W main_v0
abbrev fin_main_v1 : IVec S8000000 32 := fin W main_v1
abbrev fin_main_v2 : IVec S1x8000000 32 := fin W main_v2
abbrev fin_main_v3 : IVec S8000000 32 := fin W main_v3
abbrev fin_main_c : IVec S_ 32 := fin W main_c
abbrev fin_main_v4 : IVec S8000000 32 := fin W main_v4
abbrev fin_main_v5 : IVec S8000000 1 := fin W main_v5
abbrev fin_main_c_0 : IVec S_ 32 := fin W main_c_0
abbrev fin_main_v6 : IVec S8000000 32 := fin W main_v6
abbrev fin_main_v7 : IVec S8000000 32 := fin W main_v7
abbrev fin_main_v8 : IVec S8000000 32 := fin W main_v8
abbrev fin_main_v9 : IVec S8000000x1 32 := fin W main_v9
abbrev fin_main_v10 : FVec Ideal S8000000x10 .f32 := fin W main_v10
abbrev fin_main_v11 : FVec Ideal S8000000x1 .f32 := fin W main_v11
abbrev fin_main_v12 : FVec Ideal S8000000x10 .f32 := fin W main_v12
abbrev fin_main_v13 : FVec Ideal S8000000x10 .f32 := fin W main_v13
abbrev fin_main_cst : FVec Ideal S_ .f32 := fin W main_cst
abbrev fin_main_v14 : FVec Ideal S500000x10 .f32 := fin W main_v14
abbrev fin_main_v15 : IVec S8000000x1 32 := fin W main_v15
abbrev fin_main_v16 : FVec Ideal S500000x10 .f32 := fin W main_v16
abbrev fin_main_cst_1 : FVec Ideal S_ .f32 := fin W main_cst_1
abbrev fin_main_v17 : FVec Ideal S5000x10 .f32 := fin W main_v17
abbrev fin_main_v18 : IVec S500000x1 32 := fin W main_v18
abbrev fin_main_v19 : FVec Ideal S5000x10 .f32 := fin W main_v19
abbrev fin_main_cst_2 : FVec Ideal S_ .f32 := fin W main_cst_2
abbrev fin_main_v20 : FVec Ideal S500000x1 .f32 := fin W main_v20
abbrev fin_main_cst_3 : FVec Ideal S_ .f32 := fin W main_cst_3
abbrev fin_main_v21 : FVec Ideal S5000x1 .f32 := fin W main_v21
abbrev fin_main_v22 : IVec S500000x1 32 := fin W main_v22
abbrev fin_main_v23 : FVec Ideal S5000x1 .f32 := fin W main_v23
abbrev fin_main_cst_4 : FVec Ideal S_ .f32 := fin W main_cst_4
abbrev fin_main_v24 : FVec Ideal S5000x1 .f32 := fin W main_v24
abbrev fin_main_v25 : FVec Ideal S5000x1 .f32 := fin W main_v25
abbrev fin_main_v26 : FVec Ideal S5000x10 .f32 := fin W main_v26
abbrev fin_main_v27 : FVec Ideal S5000x10 .f32 := fin W main_v27
abbrev fin_main_v28 : FVec Ideal S10x10 .f32 := fin W main_v28
abbrev fin_main_v29 : FVec Ideal S5000x10 .f32 := fin W main_v29
abbrev fin_main_v30 : FVec Ideal S1x10 .f32 := fin W main_v30
abbrev fin_main_v31 : FVec Ideal S5000x10 .f32 := fin W main_v31
abbrev fin_main_v32 : FVec Ideal S5000x10 .f32 := fin W main_v32
abbrev fin_main_cst_5 : FVec Ideal S_ .f32 := fin W main_cst_5
abbrev fin_main_v33 : FVec Ideal S10 .f32 := fin W main_v33
abbrev fin_main_cst_6 : FVec Ideal S_ .f32 := fin W main_cst_6
abbrev fin_main_v34 : FVec Ideal S10 .f32 := fin W main_v34
abbrev fin_main_v35 : FVec Ideal S10 .f32 := fin W main_v35
abbrev fin_main_c_7 : IVec S_ 32 := fin W main_c_7
abbrev fin_main_call0_cst : FVec Ideal S_ .f32 := fin W main_call0_cst
abbrev fin_main_call0_v0 : FVec Ideal S10 .f32 := fin W main_call0_v0
abbrev fin_main_call0_v1 : FVec Ideal S1x10 .f32 := fin W main_call0_v1
abbrev fin_main_call0_cst_0 : FVec Ideal S_ .f32 := fin W main_call0_cst_0
abbrev fin_main_call0_v2 : FVec Ideal S1x10 .f32 := fin W main_call0_v2
abbrev fin_main_call0_v3 : FVec Ideal S1x10 .f32 := fin W main_call0_v3
abbrev fin_main_call0_v4 : FVec Ideal S5000x10 .f32 := fin W main_call0_v4
abbrev fin_main_call0_v5 : FVec Ideal S5000x10 .f32 := fin W main_call0_v5
abbrev fin_main_call0_v6 : FVec Ideal S5000x10 .f32 := fin W main_call0_v6
abbrev fin_main_call0_v7 : FVec Ideal S_ .f32 := fin W main_call0_v7
abbrev fin_main_call0_cst_1 : FVec Ideal S_ .f32 := fin W main_call0_cst_1
abbrev fin_main_call0_v8 : FVec Ideal S_ .f32 := fin W main_call0_v8
abbrev fin_main_call0_cst_2 : FVec Ideal S_ .f32 := fin W main_call0_cst_2
abbrev fin_main_call0_v9 : FVec Ideal S10 .f32 := fin W main_call0_v9
abbrev fin_main_call0_v10 : FVec Ideal S10 .f32 := fin W main_call0_v10
abbrev fin_main_call0_v11 : FVec Ideal S10 .f32 := fin W main_call0_v11
abbrev fin_main_call0_cst_3 : FVec Ideal S_ .f32 := fin W main_call0_cst_3
abbrev fin_main_call0_v12 : IVec S_ 1 := fin W main_call0_v12
abbrev fin_main_call0_cst_4 : FVec Ideal S_ .f32 := fin W main_call0_cst_4
abbrev fin_main_call0_call0_v0 : FVec Ideal S_ .f32 := fin W main_call0_call0_v0
abbrev fin_main_call0_call0_v1 : FVec Ideal S10 .f32 := fin W main_call0_call0_v1
abbrev fin_main_v36 : FVec Ideal S10 .f32 := fin W main_v36
abbrev fin_main_v37 : FVec Ideal S1x10 .f32 := fin W main_v37
abbrev fin_main_v38 : FVec Ideal S5000x10 .f32 := fin W main_v38
abbrev fin_main_v39 : FVec Ideal S5000x10 .f32 := fin W main_v39
abbrev fin_main_v40 : FVec Ideal S1x10 .f32 := fin W main_v40
abbrev fin_main_v41 : FVec Ideal S5000x10 .f32 := fin W main_v41
abbrev fin_main_v42 : FVec Ideal S5000x10 .f32 := fin W main_v42
abbrev fin_main_cst_8 : FVec Ideal S_ .f32 := fin W main_cst_8
abbrev fin_main_v43 : FVec Ideal S10 .f32 := fin W main_v43
abbrev fin_main_v44 : FVec Ideal S10 .f32 := fin W main_v44
abbrev fin_main_v45 : FVec Ideal S10 .f32 := fin W main_v45
abbrev fin_main_v46 : FVec Ideal S1x10 .f32 := fin W main_v46
abbrev fin_main_v47 : FVec Ideal S5000x10 .f32 := fin W main_v47
abbrev fin_main_v48 : FVec Ideal S5000x10 .f32 := fin W main_v48
abbrev fin_main_v49 : FVec Ideal S1x10 .f32 := fin W main_v49
abbrev fin_main_v50 : FVec Ideal S5000x10 .f32 := fin W main_v50
abbrev fin_main_v51 : FVec Ideal S5000x10 .f32 := fin W main_v51
abbrev fin_main_call1_cst : FVec Ideal S_ .f32 := fin W main_call1_cst
abbrev fin_main_call1_v0 : FVec Ideal S5000x10 .f32 := fin W main_call1_v0
abbrev fin_main_v52 : FVec Ideal S5000x10 .f32 := fin W main_v52
abbrev fin_main_v53 : FVec Ideal S10x10 .f32 := fin W main_v53
abbrev fin_main_v54 : FVec Ideal S5000x10 .f32 := fin W main_v54
abbrev fin_main_v55 : FVec Ideal S1x10 .f32 := fin W main_v55
abbrev fin_main_v56 : FVec Ideal S5000x10 .f32 := fin W main_v56
abbrev fin_main_v57 : FVec Ideal S5000x10 .f32 := fin W main_v57
abbrev fin_main_cst_9 : FVec Ideal S_ .f32 := fin W main_cst_9
abbrev fin_main_v58 : FVec Ideal S10 .f32 := fin W main_v58
abbrev fin_main_cst_10 : FVec Ideal S_ .f32 := fin W main_cst_10
abbrev fin_main_v59 : FVec Ideal S10 .f32 := fin W main_v59
abbrev fin_main_v60 : FVec Ideal S10 .f32 := fin W main_v60
abbrev fin_main_c_11 : IVec S_ 32 := fin W main_c_11
abbrev fin_main_call2_cst : FVec Ideal S_ .f32 := fin W main_call2_cst
abbrev fin_main_call2_v0 : FVec Ideal S10 .f32 := fin W main_call2_v0
abbrev fin_main_call2_v1 : FVec Ideal S1x10 .f32 := fin W main_call2_v1
abbrev fin_main_call2_cst_0 : FVec Ideal S_ .f32 := fin W main_call2_cst_0
abbrev fin_main_call2_v2 : FVec Ideal S1x10 .f32 := fin W main_call2_v2
abbrev fin_main_call2_v3 : FVec Ideal S1x10 .f32 := fin W main_call2_v3
abbrev fin_main_call2_v4 : FVec Ideal S5000x10 .f32 := fin W main_call2_v4
abbrev fin_main_call2_v5 : FVec Ideal S5000x10 .f32 := fin W main_call2_v5
abbrev fin_main_call2_v6 : FVec Ideal S5000x10 .f32 := fin W main_call2_v6
abbrev fin_main_call2_v7 : FVec Ideal S_ .f32 := fin W main_call2_v7
abbrev fin_main_call2_cst_1 : FVec Ideal S_ .f32 := fin W main_call2_cst_1
abbrev fin_main_call2_v8 : FVec Ideal S_ .f32 := fin W main_call2_v8
abbrev fin_main_call2_cst_2 : FVec Ideal S_ .f32 := fin W main_call2_cst_2
abbrev fin_main_call2_v9 : FVec Ideal S10 .f32 := fin W main_call2_v9
abbrev fin_main_call2_v10 : FVec Ideal S10 .f32 := fin W main_call2_v10
abbrev fin_main_call2_v11 : FVec Ideal S10 .f32 := fin W main_call2_v11
abbrev fin_main_call2_cst_3 : FVec Ideal S_ .f32 := fin W main_call2_cst_3
abbrev fin_main_call2_v12 : IVec S_ 1 := fin W main_call2_v12
abbrev fin_main_call2_cst_4 : FVec Ideal S_ .f32 := fin W main_call2_cst_4
abbrev fin_main_call2_call0_v0 : FVec Ideal S_ .f32 := fin W main_call2_call0_v0
abbrev fin_main_call2_call0_v1 : FVec Ideal S10 .f32 := fin W main_call2_call0_v1
abbrev fin_main_v61 : FVec Ideal S10 .f32 := fin W main_v61
abbrev fin_main_v62 : FVec Ideal S1x10 .f32 := fin W main_v62
abbrev fin_main_v63 : FVec Ideal S5000x10 .f32 := fin W main_v63
abbrev fin_main_v64 : FVec Ideal S5000x10 .f32 := fin W main_v64
abbrev fin_main_v65 : FVec Ideal S1x10 .f32 := fin W main_v65
abbrev fin_main_v66 : FVec Ideal S5000x10 .f32 := fin W main_v66
abbrev fin_main_v67 : FVec Ideal S5000x10 .f32 := fin W main_v67
abbrev fin_main_cst_12 : FVec Ideal S_ .f32 := fin W main_cst_12
abbrev fin_main_v68 : FVec Ideal S10 .f32 := fin W main_v68
abbrev fin_main_v69 : FVec Ideal S10 .f32 := fin W main_v69
abbrev fin_main_v70 : FVec Ideal S10 .f32 := fin W main_v70
abbrev fin_main_v71 : FVec Ideal S1x10 .f32 := fin W main_v71
abbrev fin_main_v72 : FVec Ideal S5000x10 .f32 := fin W main_v72
abbrev fin_main_v73 : FVec Ideal S5000x10 .f32 := fin W main_v73
abbrev fin_main_v74 : FVec Ideal S1x10 .f32 := fin W main_v74
abbrev fin_main_v75 : FVec Ideal S5000x10 .f32 := fin W main_v75
abbrev fin_main_v76 : FVec Ideal S5000x10 .f32 := fin W main_v76
abbrev fin_main_call3_cst : FVec Ideal S_ .f32 := fin W main_call3_cst
abbrev fin_main_call3_v0 : FVec Ideal S5000x10 .f32 := fin W main_call3_v0
abbrev fin_main_v77 : FVec Ideal S5000x10 .f32 := fin W main_v77
abbrev fin_main_v78 : FVec Ideal S10x10 .f32 := fin W main_v78
abbrev fin_main_v79 : FVec Ideal S5000x10 .f32 := fin W main_v79
abbrev fin_main_v80 : FVec Ideal S1x10 .f32 := fin W main_v80
abbrev fin_main_v81 : FVec Ideal S5000x10 .f32 := fin W main_v81
abbrev fin_main_v82 : FVec Ideal S5000x10 .f32 := fin W main_v82
abbrev fin_main_cst_13 : FVec Ideal S_ .f32 := fin W main_cst_13
abbrev fin_main_v83 : FVec Ideal S10 .f32 := fin W main_v83
abbrev fin_main_cst_14 : FVec Ideal S_ .f32 := fin W main_cst_14
abbrev fin_main_v84 : FVec Ideal S10 .f32 := fin W main_v84
abbrev fin_main_v85 : FVec Ideal S10 .f32 := fin W main_v85
abbrev fin_main_c_15 : IVec S_ 32 := fin W main_c_15
abbrev fin_main_call4_cst : FVec Ideal S_ .f32 := fin W main_call4_cst
abbrev fin_main_call4_v0 : FVec Ideal S10 .f32 := fin W main_call4_v0
abbrev fin_main_call4_v1 : FVec Ideal S1x10 .f32 := fin W main_call4_v1
abbrev fin_main_call4_cst_0 : FVec Ideal S_ .f32 := fin W main_call4_cst_0
abbrev fin_main_call4_v2 : FVec Ideal S1x10 .f32 := fin W main_call4_v2
abbrev fin_main_call4_v3 : FVec Ideal S1x10 .f32 := fin W main_call4_v3
abbrev fin_main_call4_v4 : FVec Ideal S5000x10 .f32 := fin W main_call4_v4
abbrev fin_main_call4_v5 : FVec Ideal S5000x10 .f32 := fin W main_call4_v5
abbrev fin_main_call4_v6 : FVec Ideal S5000x10 .f32 := fin W main_call4_v6
abbrev fin_main_call4_v7 : FVec Ideal S_ .f32 := fin W main_call4_v7
abbrev fin_main_call4_cst_1 : FVec Ideal S_ .f32 := fin W main_call4_cst_1
abbrev fin_main_call4_v8 : FVec Ideal S_ .f32 := fin W main_call4_v8
abbrev fin_main_call4_cst_2 : FVec Ideal S_ .f32 := fin W main_call4_cst_2
abbrev fin_main_call4_v9 : FVec Ideal S10 .f32 := fin W main_call4_v9
abbrev fin_main_call4_v10 : FVec Ideal S10 .f32 := fin W main_call4_v10
abbrev fin_main_call4_v11 : FVec Ideal S10 .f32 := fin W main_call4_v11
abbrev fin_main_call4_cst_3 : FVec Ideal S_ .f32 := fin W main_call4_cst_3
abbrev fin_main_call4_v12 : IVec S_ 1 := fin W main_call4_v12
abbrev fin_main_call4_cst_4 : FVec Ideal S_ .f32 := fin W main_call4_cst_4
abbrev fin_main_call4_call0_v0 : FVec Ideal S_ .f32 := fin W main_call4_call0_v0
abbrev fin_main_call4_call0_v1 : FVec Ideal S10 .f32 := fin W main_call4_call0_v1
abbrev fin_main_v86 : FVec Ideal S10 .f32 := fin W main_v86
abbrev fin_main_v87 : FVec Ideal S1x10 .f32 := fin W main_v87
abbrev fin_main_v88 : FVec Ideal S5000x10 .f32 := fin W main_v88
abbrev fin_main_v89 : FVec Ideal S5000x10 .f32 := fin W main_v89
abbrev fin_main_v90 : FVec Ideal S1x10 .f32 := fin W main_v90
abbrev fin_main_v91 : FVec Ideal S5000x10 .f32 := fin W main_v91
abbrev fin_main_v92 : FVec Ideal S5000x10 .f32 := fin W main_v92
abbrev fin_main_cst_16 : FVec Ideal S_ .f32 := fin W main_cst_16
abbrev fin_main_v93 : FVec Ideal S10 .f32 := fin W main_v93
abbrev fin_main_v94 : FVec Ideal S10 .f32 := fin W main_v94
abbrev fin_main_v95 : FVec Ideal S10 .f32 := fin W main_v95
abbrev fin_main_v96 : FVec Ideal S1x10 .f32 := fin W main_v96
abbrev fin_main_v97 : FVec Ideal S5000x10 .f32 := fin W main_v97
abbrev fin_main_v98 : FVec Ideal S5000x10 .f32 := fin W main_v98
abbrev fin_main_v99 : FVec Ideal S1x10 .f32 := fin W main_v99
abbrev fin_main_v100 : FVec Ideal S5000x10 .f32 := fin W main_v100
abbrev fin_main_v101 : FVec Ideal S5000x10 .f32 := fin W main_v101
abbrev fin_main_call5_cst : FVec Ideal S_ .f32 := fin W main_call5_cst
abbrev fin_main_call5_v0 : FVec Ideal S5000x10 .f32 := fin W main_call5_v0
abbrev fin_main_v102 : FVec Ideal S5000x10 .f32 := fin W main_v102
abbrev fin_main_v103 : FVec Ideal S10x10 .f32 := fin W main_v103
abbrev fin_main_v104 : FVec Ideal S5000x10 .f32 := fin W main_v104
abbrev fin_main_v105 : FVec Ideal S1x10 .f32 := fin W main_v105
abbrev fin_main_v106 : FVec Ideal S5000x10 .f32 := fin W main_v106
abbrev fin_main_v107 : FVec Ideal S5000x10 .f32 := fin W main_v107
abbrev fin_main_cst_17 : FVec Ideal S_ .f32 := fin W main_cst_17
abbrev fin_main_v108 : FVec Ideal S10 .f32 := fin W main_v108
abbrev fin_main_cst_18 : FVec Ideal S_ .f32 := fin W main_cst_18
abbrev fin_main_v109 : FVec Ideal S10 .f32 := fin W main_v109
abbrev fin_main_v110 : FVec Ideal S10 .f32 := fin W main_v110
abbrev fin_main_c_19 : IVec S_ 32 := fin W main_c_19
abbrev fin_main_call6_cst : FVec Ideal S_ .f32 := fin W main_call6_cst
abbrev fin_main_call6_v0 : FVec Ideal S10 .f32 := fin W main_call6_v0
abbrev fin_main_call6_v1 : FVec Ideal S1x10 .f32 := fin W main_call6_v1
abbrev fin_main_call6_cst_0 : FVec Ideal S_ .f32 := fin W main_call6_cst_0
abbrev fin_main_call6_v2 : FVec Ideal S1x10 .f32 := fin W main_call6_v2
abbrev fin_main_call6_v3 : FVec Ideal S1x10 .f32 := fin W main_call6_v3
abbrev fin_main_call6_v4 : FVec Ideal S5000x10 .f32 := fin W main_call6_v4
abbrev fin_main_call6_v5 : FVec Ideal S5000x10 .f32 := fin W main_call6_v5
abbrev fin_main_call6_v6 : FVec Ideal S5000x10 .f32 := fin W main_call6_v6
abbrev fin_main_call6_v7 : FVec Ideal S_ .f32 := fin W main_call6_v7
abbrev fin_main_call6_cst_1 : FVec Ideal S_ .f32 := fin W main_call6_cst_1
abbrev fin_main_call6_v8 : FVec Ideal S_ .f32 := fin W main_call6_v8
abbrev fin_main_call6_cst_2 : FVec Ideal S_ .f32 := fin W main_call6_cst_2
abbrev fin_main_call6_v9 : FVec Ideal S10 .f32 := fin W main_call6_v9
abbrev fin_main_call6_v10 : FVec Ideal S10 .f32 := fin W main_call6_v10
abbrev fin_main_call6_v11 : FVec Ideal S10 .f32 := fin W main_call6_v11
abbrev fin_main_call6_cst_3 : FVec Ideal S_ .f32 := fin W main_call6_cst_3
abbrev fin_main_call6_v12 : IVec S_ 1 := fin W main_call6_v12
abbrev fin_main_call6_cst_4 : FVec Ideal S_ .f32 := fin W main_call6_cst_4
abbrev fin_main_call6_call0_v0 : FVec Ideal S_ .f32 := fin W main_call6_call0_v0
abbrev fin_main_call6_call0_v1 : FVec Ideal S10 .f32 := fin W main_call6_call0_v1
abbrev fin_main_v111 : FVec Ideal S10 .f32 := fin W main_v111
abbrev fin_main_v112 : FVec Ideal S1x10 .f32 := fin W main_v112
abbrev fin_main_v113 : FVec Ideal S5000x10 .f32 := fin W main_v113
abbrev fin_main_v114 : FVec Ideal S5000x10 .f32 := fin W main_v114
abbrev fin_main_v115 : FVec Ideal S1x10 .f32 := fin W main_v115
abbrev fin_main_v116 : FVec Ideal S5000x10 .f32 := fin W main_v116
abbrev fin_main_v117 : FVec Ideal S5000x10 .f32 := fin W main_v117
abbrev fin_main_cst_20 : FVec Ideal S_ .f32 := fin W main_cst_20
abbrev fin_main_v118 : FVec Ideal S10 .f32 := fin W main_v118
abbrev fin_main_v119 : FVec Ideal S10 .f32 := fin W main_v119
abbrev fin_main_v120 : FVec Ideal S10 .f32 := fin W main_v120
abbrev fin_main_v121 : FVec Ideal S1x10 .f32 := fin W main_v121
abbrev fin_main_v122 : FVec Ideal S5000x10 .f32 := fin W main_v122
abbrev fin_main_v123 : FVec Ideal S5000x10 .f32 := fin W main_v123
abbrev fin_main_v124 : FVec Ideal S1x10 .f32 := fin W main_v124
abbrev fin_main_v125 : FVec Ideal S5000x10 .f32 := fin W main_v125
abbrev fin_main_v126 : FVec Ideal S5000x10 .f32 := fin W main_v126
abbrev fin_main_v127 : FVec Ideal S5000x10 .f32 := fin W main_v127
abbrev fin_main_call7_cst : FVec Ideal S_ .f32 := fin W main_call7_cst
abbrev fin_main_call7_v0 : FVec Ideal S5000x10 .f32 := fin W main_call7_v0
abbrev fin_main_v128 : FVec Ideal S5000x10 .f32 := fin W main_v128
abbrev fin_main_v129 : FVec Ideal S10x1 .f32 := fin W main_v129
abbrev fin_main_v130 : FVec Ideal S5000x1 .f32 := fin W main_v130
abbrev fin_main_v131 : FVec Ideal S1x1 .f32 := fin W main_v131
abbrev fin_main_v132 : FVec Ideal S5000x1 .f32 := fin W main_v132
abbrev fin_main_v133 : FVec Ideal S5000x1 .f32 := fin W main_v133

theorem keep_main_arg0 : fin_main_arg0 W = W (Proc.devRef .tc main_arg0) := keeps hW W _ (by decide)
theorem keep_main_arg1 : fin_main_arg1 W = W (Proc.devRef .tc main_arg1) := keeps hW W _ (by decide)
theorem keep_main_arg2 : fin_main_arg2 W = W (Proc.devRef .tc main_arg2) := keeps hW W _ (by decide)
theorem keep_main_arg3 : fin_main_arg3 W = W (Proc.devRef .tc main_arg3) := keeps hW W _ (by decide)
theorem keep_main_arg4 : fin_main_arg4 W = W (Proc.devRef .tc main_arg4) := keeps hW W _ (by decide)
theorem keep_main_arg5 : fin_main_arg5 W = W (Proc.devRef .tc main_arg5) := keeps hW W _ (by decide)
theorem keep_main_arg6 : fin_main_arg6 W = W (Proc.devRef .tc main_arg6) := keeps hW W _ (by decide)
theorem keep_main_arg7 : fin_main_arg7 W = W (Proc.devRef .tc main_arg7) := keeps hW W _ (by decide)
theorem keep_main_arg8 : fin_main_arg8 W = W (Proc.devRef .tc main_arg8) := keeps hW W _ (by decide)
theorem keep_main_arg9 : fin_main_arg9 W = W (Proc.devRef .tc main_arg9) := keeps hW W _ (by decide)
theorem keep_main_arg10 : fin_main_arg10 W = W (Proc.devRef .tc main_arg10) := keeps hW W _ (by decide)
theorem keep_main_arg11 : fin_main_arg11 W = W (Proc.devRef .tc main_arg11) := keeps hW W _ (by decide)
theorem keep_main_arg12 : fin_main_arg12 W = W (Proc.devRef .tc main_arg12) := keeps hW W _ (by decide)
theorem keep_main_arg13 : fin_main_arg13 W = W (Proc.devRef .tc main_arg13) := keeps hW W _ (by decide)
theorem keep_main_arg14 : fin_main_arg14 W = W (Proc.devRef .tc main_arg14) := keeps hW W _ (by decide)
theorem keep_main_arg15 : fin_main_arg15 W = W (Proc.devRef .tc main_arg15) := keeps hW W _ (by decide)
theorem keep_main_arg16 : fin_main_arg16 W = W (Proc.devRef .tc main_arg16) := keeps hW W _ (by decide)
theorem keep_main_arg17 : fin_main_arg17 W = W (Proc.devRef .tc main_arg17) := keeps hW W _ (by decide)
theorem keep_main_arg18 : fin_main_arg18 W = W (Proc.devRef .tc main_arg18) := keeps hW W _ (by decide)
theorem keep_main_arg19 : fin_main_arg19 W = W (Proc.devRef .tc main_arg19) := keeps hW W _ (by decide)
theorem keep_main_arg20 : fin_main_arg20 W = W (Proc.devRef .tc main_arg20) := keeps hW W _ (by decide)
theorem keep_main_arg21 : fin_main_arg21 W = W (Proc.devRef .tc main_arg21) := keeps hW W _ (by decide)

theorem at_main_v0 : fin_main_v0 W = extractStridedSlice S1x8000000 ![0, 0] (fin_main_arg1 W) slices_S2x8000000_S1x8000000_0_0 :=
  at_unary hW 0 W _ _ _ rfl (by decide) (by decide)
theorem at_main_v1 : fin_main_v1 W = shapeCast S8000000 (fin_main_v0 W) shapeCasts_S1x8000000_S8000000 :=
  at_reshape hW 1 W _ _ _ _ rfl (by decide) (by decide)
theorem at_main_v2 : fin_main_v2 W = extractStridedSlice S1x8000000 ![1, 0] (fin_main_arg1 W) slices_S2x8000000_S1x8000000_1_0 :=
  at_unary hW 2 W _ _ _ rfl (by decide) (by decide)
theorem at_main_v3 : fin_main_v3 W = shapeCast S8000000 (fin_main_v2 W) shapeCasts_S1x8000000_S8000000 :=
  at_reshape hW 3 W _ _ _ _ rfl (by decide) (by decide)
theorem at_main_c : fin_main_c W = constantI S_ 32 0#32 :=
  at_nullary hW 4 W _ _ rfl (by decide)
theorem at_main_v4 : fin_main_v4 W = broadcastInDim S8000000 ![] bcast_S_S8000000 (fin_main_c W) :=
  at_unary hW 5 W _ _ _ rfl (by decide) (by decide)
theorem at_main_v5 : fin_main_v5 W = cmpi .slt (fin_main_v1 W) (fin_main_v4 W) :=
  at_binary hW 6 W _ _ _ _ rfl (by decide) (by decide) (by decide)
theorem at_main_c_0 : fin_main_c_0 W = constantI S_ 32 500000#32 :=
  at_nullary hW 7 W _ _ rfl (by decide)
theorem at_main_v6 : fin_main_v6 W = broadcastInDim S8000000 ![] bcast_S_S8000000 (fin_main_c_0 W) :=
  at_unary hW 8 W _ _ _ rfl (by decide) (by decide)
theorem at_main_v7 : fin_main_v7 W = addi (fin_main_v1 W) (fin_main_v6 W) :=
  at_binary hW 9 W _ _ _ _ rfl (by decide) (by decide) (by decide)
theorem at_main_v8 : fin_main_v8 W = select (fin_main_v5 W) (fin_main_v7 W) (fin_main_v1 W) :=
  at_ternary hW 10 W _ _ _ _ _ rfl (by decide) (by decide) (by decide) (by decide)
theorem at_main_v9 : fin_main_v9 W = broadcastInDim S8000000x1 ![0] bcast_S8000000_S8000000x1_0 (fin_main_v8 W) :=
  at_unary hW 11 W _ _ _ rfl (by decide) (by decide)
theorem at_main_v10 : fin_main_v10 W = Host.gather gather_S500000x10_S8000000x1_S8000000x10_1_0_n_n_0_1_110 (fin_main_arg0 W) (fin_main_v9 W) :=
  at_binary hW 12 W _ _ _ _ rfl (by decide) (by decide) (by decide)
theorem at_main_v11 : fin_main_v11 W = broadcastInDim S8000000x1 ![0] bcast_S8000000_S8000000x1_0 (fin_main_arg2 W) :=
  at_unary hW 13 W _ _ _ rfl (by decide) (by decide)
theorem at_main_v12 : fin_main_v12 W = broadcastInDim S8000000x10 ![0, 1] bcast_S8000000x1_S8000000x10_0_1 (fin_main_v11 W) :=
  at_unary hW 14 W _ _ _ rfl (by decide) (by decide)
theorem at_main_v13 : fin_main_v13 W = mulf (F := Ideal) (fin_main_v10 W) (fin_main_v12 W) :=
  at_binary hW 15 W _ _ _ _ rfl (by decide) (by decide) (by decide)
theorem at_main_cst : fin_main_cst W = constant (F := Ideal) S_ .f32 0x00000000#32 :=
  at_nullary hW 16 W _ _ rfl (by decide)
theorem at_main_v14 : fin_main_v14 W = broadcastInDim S500000x10 ![] bcast_S_S500000x10 (fin_main_cst W) :=
  at_unary hW 17 W _ _ _ rfl (by decide) (by decide)
theorem at_main_v15 : fin_main_v15 W = broadcastInDim S8000000x1 ![0] bcast_S8000000_S8000000x1_0 (fin_main_v3 W) :=
  at_unary hW 18 W _ _ _ rfl (by decide) (by decide)
theorem at_main_v16 : fin_main_v16 W = Host.scatterAdd (F := Ideal) scatter_S500000x10_S8000000x1_S8000000x10_1_0_0_1 (fin_main_v14 W) (fin_main_v15 W) (fin_main_v13 W) :=
  at_ternary hW 19 W _ _ _ _ _ rfl (by decide) (by decide) (by decide) (by decide)
theorem at_main_cst_1 : fin_main_cst_1 W = constant (F := Ideal) S_ .f32 0x00000000#32 :=
  at_nullary hW 20 W _ _ rfl (by decide)
theorem at_main_v17 : fin_main_v17 W = broadcastInDim S5000x10 ![] bcast_S_S5000x10 (fin_main_cst_1 W) :=
  at_unary hW 21 W _ _ _ rfl (by decide) (by decide)
theorem at_main_v18 : fin_main_v18 W = broadcastInDim S500000x1 ![0] bcast_S500000_S500000x1_0 (fin_main_arg3 W) :=
  at_unary hW 22 W _ _ _ rfl (by decide) (by decide)
theorem at_main_v19 : fin_main_v19 W = Host.scatterAdd (F := Ideal) scatter_S5000x10_S500000x1_S500000x10_1_0_0_1 (fin_main_v17 W) (fin_main_v18 W) (fin_main_v16 W) :=
  at_ternary hW 23 W _ _ _ _ _ rfl (by decide) (by decide) (by decide) (by decide)
theorem at_main_cst_2 : fin_main_cst_2 W = constant (F := Ideal) S_ .f32 0x3F800000#32 :=
  at_nullary hW 24 W _ _ rfl (by decide)
theorem at_main_v20 : fin_main_v20 W = broadcastInDim S500000x1 ![] bcast_S_S500000x1 (fin_main_cst_2 W) :=
  at_unary hW 25 W _ _ _ rfl (by decide) (by decide)
theorem at_main_cst_3 : fin_main_cst_3 W = constant (F := Ideal) S_ .f32 0x00000000#32 :=
  at_nullary hW 26 W _ _ rfl (by decide)
theorem at_main_v21 : fin_main_v21 W = broadcastInDim S5000x1 ![] bcast_S_S5000x1 (fin_main_cst_3 W) :=
  at_unary hW 27 W _ _ _ rfl (by decide) (by decide)
theorem at_main_v22 : fin_main_v22 W = broadcastInDim S500000x1 ![0] bcast_S500000_S500000x1_0 (fin_main_arg3 W) :=
  at_unary hW 28 W _ _ _ rfl (by decide) (by decide)
theorem at_main_v23 : fin_main_v23 W = Host.scatterAdd (F := Ideal) scatter_S5000x1_S500000x1_S500000x1_1_0_0_1 (fin_main_v21 W) (fin_main_v22 W) (fin_main_v20 W) :=
  at_ternary hW 29 W _ _ _ _ _ rfl (by decide) (by decide) (by decide) (by decide)
theorem at_main_cst_4 : fin_main_cst_4 W = constant (F := Ideal) S_ .f32 0x3F800000#32 :=
  at_nullary hW 30 W _ _ rfl (by decide)
theorem at_main_v24 : fin_main_v24 W = broadcastInDim S5000x1 ![] bcast_S_S5000x1 (fin_main_cst_4 W) :=
  at_unary hW 31 W _ _ _ rfl (by decide) (by decide)
theorem at_main_v25 : fin_main_v25 W = maximumf (F := Ideal) (fin_main_v23 W) (fin_main_v24 W) :=
  at_binary hW 32 W _ _ _ _ rfl (by decide) (by decide) (by decide)
theorem at_main_v26 : fin_main_v26 W = broadcastInDim S5000x10 ![0, 1] bcast_S5000x1_S5000x10_0_1 (fin_main_v25 W) :=
  at_unary hW 33 W _ _ _ rfl (by decide) (by decide)
theorem at_main_v27 : fin_main_v27 W = Host.divf (F := Ideal) (fin_main_v19 W) (fin_main_v26 W) :=
  at_binary hW 34 W _ _ _ _ rfl (by decide) (by decide) (by decide)
theorem at_main_v28 : fin_main_v28 W = transpose S10x10 [1, 0] (fin_main_arg4 W) transposes_S10x10_S10x10_1_0 :=
  at_unary hW 35 W _ _ _ rfl (by decide) (by decide)
theorem at_main_v29 : fin_main_v29 W = Host.dotGeneral (F := Ideal) dot_S5000x10_S10x10_S5000x10_1_0_0_1_n_n none (fin_main_v27 W) (fin_main_v28 W) :=
  at_binary hW 36 W _ _ _ _ rfl (by decide) (by decide) (by decide)
theorem at_main_v30 : fin_main_v30 W = broadcastInDim S1x10 ![1] bcast_S10_S1x10_1 (fin_main_arg5 W) :=
  at_unary hW 37 W _ _ _ rfl (by decide) (by decide)
theorem at_main_v31 : fin_main_v31 W = broadcastInDim S5000x10 ![0, 1] bcast_S1x10_S5000x10_0_1 (fin_main_v30 W) :=
  at_unary hW 38 W _ _ _ rfl (by decide) (by decide)
theorem at_main_v32 : fin_main_v32 W = addf (F := Ideal) (fin_main_v29 W) (fin_main_v31 W) :=
  at_binary hW 39 W _ _ _ _ rfl (by decide) (by decide) (by decide)
theorem at_main_cst_5 : fin_main_cst_5 W = constant (F := Ideal) S_ .f32 0x00000000#32 :=
  at_nullary hW 40 W _ _ rfl (by decide)
theorem at_main_v33 : fin_main_v33 W = Host.reduceAdd (F := Ideal) (fin_main_v32 W) (fin_main_cst_5 W) reducesTo_S5000x10_S10_d0 h_S_ :=
  at_binary hW 41 W _ _ _ _ rfl (by decide) (by decide) (by decide)
theorem at_main_cst_6 : fin_main_cst_6 W = constant (F := Ideal) S_ .f32 0x459C4000#32 :=
  at_nullary hW 42 W _ _ rfl (by decide)
theorem at_main_v34 : fin_main_v34 W = broadcastInDim S10 ![] bcast_S_S10 (fin_main_cst_6 W) :=
  at_unary hW 43 W _ _ _ rfl (by decide) (by decide)
theorem at_main_v35 : fin_main_v35 W = Host.divf (F := Ideal) (fin_main_v33 W) (fin_main_v34 W) :=
  at_binary hW 44 W _ _ _ _ rfl (by decide) (by decide) (by decide)
theorem at_main_c_7 : fin_main_c_7 W = constantI S_ 32 0#32 :=
  at_nullary hW 45 W _ _ rfl (by decide)
theorem at_main_call0_cst : fin_main_call0_cst W = constant (F := Ideal) S_ .f32 0x00000000#32 :=
  at_tnullary hW 46 W _ _ rfl (by decide) (finV W) rfl
theorem at_main_call0_v0 : fin_main_call0_v0 W = Host.reduceAdd (F := Ideal) (fin_main_v32 W) (fin_main_call0_cst W) reducesTo_S5000x10_S10_d0 h_S_ :=
  at_tbinary hW 47 W _ _ _ _ rfl (by decide) (by decide) (by decide) (finV W) rfl
theorem at_main_call0_v1 : fin_main_call0_v1 W = (broadcastInDim S1x10 ![1] bcast_S10_S1x10_1) (fin_main_call0_v0 W) :=
  at_tunary hW 48 W _ _ _ rfl (by decide) (by decide) (finV W) rfl
theorem at_main_call0_cst_0 : fin_main_call0_cst_0 W = constant (F := Ideal) S_ .f32 0x459C4000#32 :=
  at_tnullary hW 49 W _ _ rfl (by decide) (finV W) rfl
theorem at_main_call0_v2 : fin_main_call0_v2 W = (broadcastInDim S1x10 ![] bcast_S_S1x10) (fin_main_call0_cst_0 W) :=
  at_tunary hW 50 W _ _ _ rfl (by decide) (by decide) (finV W) rfl
theorem at_main_call0_v3 : fin_main_call0_v3 W = Host.divf (F := Ideal) (fin_main_call0_v1 W) (fin_main_call0_v2 W) :=
  at_tbinary hW 51 W _ _ _ _ rfl (by decide) (by decide) (by decide) (finV W) rfl
theorem at_main_call0_v4 : fin_main_call0_v4 W = (broadcastInDim S5000x10 ![0, 1] bcast_S1x10_S5000x10_0_1) (fin_main_call0_v3 W) :=
  at_tunary hW 52 W _ _ _ rfl (by decide) (by decide) (finV W) rfl
theorem at_main_call0_v5 : fin_main_call0_v5 W = subf (F := Ideal) (fin_main_v32 W) (fin_main_call0_v4 W) :=
  at_tbinary hW 53 W _ _ _ _ rfl (by decide) (by decide) (by decide) (finV W) rfl
theorem at_main_call0_v6 : fin_main_call0_v6 W = mulf (F := Ideal) (fin_main_call0_v5 W) (fin_main_call0_v5 W) :=
  at_tbinary hW 54 W _ _ _ _ rfl (by decide) (by decide) (by decide) (finV W) rfl
theorem at_main_call0_v7 : fin_main_call0_v7 W = (sitofp (F := Ideal) .f32) (fin_main_c_7 W) :=
  at_tunary hW 55 W _ _ _ rfl (by decide) (by decide) (finV W) rfl
theorem at_main_call0_cst_1 : fin_main_call0_cst_1 W = constant (F := Ideal) S_ .f32 0x459C4000#32 :=
  at_tnullary hW 56 W _ _ rfl (by decide) (finV W) rfl
theorem at_main_call0_v8 : fin_main_call0_v8 W = subf (F := Ideal) (fin_main_call0_cst_1 W) (fin_main_call0_v7 W) :=
  at_tbinary hW 57 W _ _ _ _ rfl (by decide) (by decide) (by decide) (finV W) rfl
theorem at_main_call0_cst_2 : fin_main_call0_cst_2 W = constant (F := Ideal) S_ .f32 0x00000000#32 :=
  at_tnullary hW 58 W _ _ rfl (by decide) (finV W) rfl
theorem at_main_call0_v9 : fin_main_call0_v9 W = Host.reduceAdd (F := Ideal) (fin_main_call0_v6 W) (fin_main_call0_cst_2 W) reducesTo_S5000x10_S10_d0 h_S_ :=
  at_tbinary hW 59 W _ _ _ _ rfl (by decide) (by decide) (by decide) (finV W) rfl
theorem at_main_call0_v10 : fin_main_call0_v10 W = (broadcastInDim S10 ![] bcast_S_S10) (fin_main_call0_v8 W) :=
  at_tunary hW 60 W _ _ _ rfl (by decide) (by decide) (finV W) rfl
theorem at_main_call0_v11 : fin_main_call0_v11 W = Host.divf (F := Ideal) (fin_main_call0_v9 W) (fin_main_call0_v10 W) :=
  at_tbinary hW 61 W _ _ _ _ rfl (by decide) (by decide) (by decide) (finV W) rfl
theorem at_main_call0_cst_3 : fin_main_call0_cst_3 W = constant (F := Ideal) S_ .f32 0x00000000#32 :=
  at_tnullary hW 62 W _ _ rfl (by decide) (finV W) rfl
theorem at_main_call0_v12 : fin_main_call0_v12 W = (cmpf (F := Ideal) .ogt) (fin_main_call0_v8 W) (fin_main_call0_cst_3 W) :=
  at_tbinary hW 63 W _ _ _ _ rfl (by decide) (by decide) (by decide) (finV W) rfl
theorem at_main_call0_cst_4 : fin_main_call0_cst_4 W = constant (F := Ideal) S_ .f32 0x7FC00000#32 :=
  at_tnullary hW 64 W _ _ rfl (by decide) (finV W) rfl
theorem at_main_call0_call0_v0 : fin_main_call0_call0_v0 W = (fin_main_call0_cst_4 W) :=
  at_tunary hW 65 W _ _ _ rfl (by decide) (by decide) (finV W) rfl
theorem at_main_call0_call0_v1 : fin_main_call0_call0_v1 W = (broadcastInDim S10 ![] bcast_S_S10) (fin_main_call0_call0_v0 W) :=
  at_tunary hW 66 W _ _ _ rfl (by decide) (by decide) (finV W) rfl
theorem at_main_v36 : fin_main_v36 W = select (broadcastInDim S10 ![] bcast_S_S10 (fin_main_call0_v12 W)) (fin_main_call0_v11 W) (fin_main_call0_call0_v1 W) :=
  at_tternary hW 67 W _ _ _ _ _ rfl (by decide) (by decide) (by decide) (by decide) (finV W) rfl
theorem at_main_v37 : fin_main_v37 W = broadcastInDim S1x10 ![1] bcast_S10_S1x10_1 (fin_main_v35 W) :=
  at_unary hW 68 W _ _ _ rfl (by decide) (by decide)
theorem at_main_v38 : fin_main_v38 W = broadcastInDim S5000x10 ![0, 1] bcast_S1x10_S5000x10_0_1 (fin_main_v37 W) :=
  at_unary hW 69 W _ _ _ rfl (by decide) (by decide)
theorem at_main_v39 : fin_main_v39 W = subf (F := Ideal) (fin_main_v32 W) (fin_main_v38 W) :=
  at_binary hW 70 W _ _ _ _ rfl (by decide) (by decide) (by decide)
theorem at_main_v40 : fin_main_v40 W = broadcastInDim S1x10 ![1] bcast_S10_S1x10_1 (fin_main_arg14 W) :=
  at_unary hW 71 W _ _ _ rfl (by decide) (by decide)
theorem at_main_v41 : fin_main_v41 W = broadcastInDim S5000x10 ![0, 1] bcast_S1x10_S5000x10_0_1 (fin_main_v40 W) :=
  at_unary hW 72 W _ _ _ rfl (by decide) (by decide)
theorem at_main_v42 : fin_main_v42 W = mulf (F := Ideal) (fin_main_v41 W) (fin_main_v39 W) :=
  at_binary hW 73 W _ _ _ _ rfl (by decide) (by decide) (by decide)
theorem at_main_cst_8 : fin_main_cst_8 W = constant (F := Ideal) S_ .f32 0x3727C5AC#32 :=
  at_nullary hW 74 W _ _ rfl (by decide)
theorem at_main_v43 : fin_main_v43 W = broadcastInDim S10 ![] bcast_S_S10 (fin_main_cst_8 W) :=
  at_unary hW 75 W _ _ _ rfl (by decide) (by decide)
theorem at_main_v44 : fin_main_v44 W = addf (F := Ideal) (fin_main_v36 W) (fin_main_v43 W) :=
  at_binary hW 76 W _ _ _ _ rfl (by decide) (by decide) (by decide)
theorem at_main_v45 : fin_main_v45 W = Host.sqrt (F := Ideal) (fin_main_v44 W) :=
  at_unary hW 77 W _ _ _ rfl (by decide) (by decide)
theorem at_main_v46 : fin_main_v46 W = broadcastInDim S1x10 ![1] bcast_S10_S1x10_1 (fin_main_v45 W) :=
  at_unary hW 78 W _ _ _ rfl (by decide) (by decide)
theorem at_main_v47 : fin_main_v47 W = broadcastInDim S5000x10 ![0, 1] bcast_S1x10_S5000x10_0_1 (fin_main_v46 W) :=
  at_unary hW 79 W _ _ _ rfl (by decide) (by decide)
theorem at_main_v48 : fin_main_v48 W = Host.divf (F := Ideal) (fin_main_v42 W) (fin_main_v47 W) :=
  at_binary hW 80 W _ _ _ _ rfl (by decide) (by decide) (by decide)
theorem at_main_v49 : fin_main_v49 W = broadcastInDim S1x10 ![1] bcast_S10_S1x10_1 (fin_main_arg15 W) :=
  at_unary hW 81 W _ _ _ rfl (by decide) (by decide)
theorem at_main_v50 : fin_main_v50 W = broadcastInDim S5000x10 ![0, 1] bcast_S1x10_S5000x10_0_1 (fin_main_v49 W) :=
  at_unary hW 82 W _ _ _ rfl (by decide) (by decide)
theorem at_main_v51 : fin_main_v51 W = addf (F := Ideal) (fin_main_v48 W) (fin_main_v50 W) :=
  at_binary hW 83 W _ _ _ _ rfl (by decide) (by decide) (by decide)
theorem at_main_call1_cst : fin_main_call1_cst W = constant (F := Ideal) S_ .f32 0x00000000#32 :=
  at_tnullary hW 84 W _ _ rfl (by decide) (finV W) rfl
theorem at_main_call1_v0 : fin_main_call1_v0 W = (broadcastInDim S5000x10 ![] bcast_S_S5000x10) (fin_main_call1_cst W) :=
  at_tunary hW 85 W _ _ _ rfl (by decide) (by decide) (finV W) rfl
theorem at_main_v52 : fin_main_v52 W = maximumf (F := Ideal) (fin_main_v51 W) (fin_main_call1_v0 W) :=
  at_tbinary hW 86 W _ _ _ _ rfl (by decide) (by decide) (by decide) (finV W) rfl
theorem at_main_v53 : fin_main_v53 W = transpose S10x10 [1, 0] (fin_main_arg6 W) transposes_S10x10_S10x10_1_0 :=
  at_unary hW 87 W _ _ _ rfl (by decide) (by decide)
theorem at_main_v54 : fin_main_v54 W = Host.dotGeneral (F := Ideal) dot_S5000x10_S10x10_S5000x10_1_0_0_1_n_n none (fin_main_v52 W) (fin_main_v53 W) :=
  at_binary hW 88 W _ _ _ _ rfl (by decide) (by decide) (by decide)
theorem at_main_v55 : fin_main_v55 W = broadcastInDim S1x10 ![1] bcast_S10_S1x10_1 (fin_main_arg7 W) :=
  at_unary hW 89 W _ _ _ rfl (by decide) (by decide)
theorem at_main_v56 : fin_main_v56 W = broadcastInDim S5000x10 ![0, 1] bcast_S1x10_S5000x10_0_1 (fin_main_v55 W) :=
  at_unary hW 90 W _ _ _ rfl (by decide) (by decide)
theorem at_main_v57 : fin_main_v57 W = addf (F := Ideal) (fin_main_v54 W) (fin_main_v56 W) :=
  at_binary hW 91 W _ _ _ _ rfl (by decide) (by decide) (by decide)
theorem at_main_cst_9 : fin_main_cst_9 W = constant (F := Ideal) S_ .f32 0x00000000#32 :=
  at_nullary hW 92 W _ _ rfl (by decide)
theorem at_main_v58 : fin_main_v58 W = Host.reduceAdd (F := Ideal) (fin_main_v57 W) (fin_main_cst_9 W) reducesTo_S5000x10_S10_d0 h_S_ :=
  at_binary hW 93 W _ _ _ _ rfl (by decide) (by decide) (by decide)
theorem at_main_cst_10 : fin_main_cst_10 W = constant (F := Ideal) S_ .f32 0x459C4000#32 :=
  at_nullary hW 94 W _ _ rfl (by decide)
theorem at_main_v59 : fin_main_v59 W = broadcastInDim S10 ![] bcast_S_S10 (fin_main_cst_10 W) :=
  at_unary hW 95 W _ _ _ rfl (by decide) (by decide)
theorem at_main_v60 : fin_main_v60 W = Host.divf (F := Ideal) (fin_main_v58 W) (fin_main_v59 W) :=
  at_binary hW 96 W _ _ _ _ rfl (by decide) (by decide) (by decide)
theorem at_main_c_11 : fin_main_c_11 W = constantI S_ 32 0#32 :=
  at_nullary hW 97 W _ _ rfl (by decide)
theorem at_main_call2_cst : fin_main_call2_cst W = constant (F := Ideal) S_ .f32 0x00000000#32 :=
  at_tnullary hW 98 W _ _ rfl (by decide) (finV W) rfl
theorem at_main_call2_v0 : fin_main_call2_v0 W = Host.reduceAdd (F := Ideal) (fin_main_v57 W) (fin_main_call2_cst W) reducesTo_S5000x10_S10_d0 h_S_ :=
  at_tbinary hW 99 W _ _ _ _ rfl (by decide) (by decide) (by decide) (finV W) rfl
theorem at_main_call2_v1 : fin_main_call2_v1 W = (broadcastInDim S1x10 ![1] bcast_S10_S1x10_1) (fin_main_call2_v0 W) :=
  at_tunary hW 100 W _ _ _ rfl (by decide) (by decide) (finV W) rfl
theorem at_main_call2_cst_0 : fin_main_call2_cst_0 W = constant (F := Ideal) S_ .f32 0x459C4000#32 :=
  at_tnullary hW 101 W _ _ rfl (by decide) (finV W) rfl
theorem at_main_call2_v2 : fin_main_call2_v2 W = (broadcastInDim S1x10 ![] bcast_S_S1x10) (fin_main_call2_cst_0 W) :=
  at_tunary hW 102 W _ _ _ rfl (by decide) (by decide) (finV W) rfl
theorem at_main_call2_v3 : fin_main_call2_v3 W = Host.divf (F := Ideal) (fin_main_call2_v1 W) (fin_main_call2_v2 W) :=
  at_tbinary hW 103 W _ _ _ _ rfl (by decide) (by decide) (by decide) (finV W) rfl
theorem at_main_call2_v4 : fin_main_call2_v4 W = (broadcastInDim S5000x10 ![0, 1] bcast_S1x10_S5000x10_0_1) (fin_main_call2_v3 W) :=
  at_tunary hW 104 W _ _ _ rfl (by decide) (by decide) (finV W) rfl
theorem at_main_call2_v5 : fin_main_call2_v5 W = subf (F := Ideal) (fin_main_v57 W) (fin_main_call2_v4 W) :=
  at_tbinary hW 105 W _ _ _ _ rfl (by decide) (by decide) (by decide) (finV W) rfl
theorem at_main_call2_v6 : fin_main_call2_v6 W = mulf (F := Ideal) (fin_main_call2_v5 W) (fin_main_call2_v5 W) :=
  at_tbinary hW 106 W _ _ _ _ rfl (by decide) (by decide) (by decide) (finV W) rfl
theorem at_main_call2_v7 : fin_main_call2_v7 W = (sitofp (F := Ideal) .f32) (fin_main_c_11 W) :=
  at_tunary hW 107 W _ _ _ rfl (by decide) (by decide) (finV W) rfl
theorem at_main_call2_cst_1 : fin_main_call2_cst_1 W = constant (F := Ideal) S_ .f32 0x459C4000#32 :=
  at_tnullary hW 108 W _ _ rfl (by decide) (finV W) rfl
theorem at_main_call2_v8 : fin_main_call2_v8 W = subf (F := Ideal) (fin_main_call2_cst_1 W) (fin_main_call2_v7 W) :=
  at_tbinary hW 109 W _ _ _ _ rfl (by decide) (by decide) (by decide) (finV W) rfl
theorem at_main_call2_cst_2 : fin_main_call2_cst_2 W = constant (F := Ideal) S_ .f32 0x00000000#32 :=
  at_tnullary hW 110 W _ _ rfl (by decide) (finV W) rfl
theorem at_main_call2_v9 : fin_main_call2_v9 W = Host.reduceAdd (F := Ideal) (fin_main_call2_v6 W) (fin_main_call2_cst_2 W) reducesTo_S5000x10_S10_d0 h_S_ :=
  at_tbinary hW 111 W _ _ _ _ rfl (by decide) (by decide) (by decide) (finV W) rfl
theorem at_main_call2_v10 : fin_main_call2_v10 W = (broadcastInDim S10 ![] bcast_S_S10) (fin_main_call2_v8 W) :=
  at_tunary hW 112 W _ _ _ rfl (by decide) (by decide) (finV W) rfl
theorem at_main_call2_v11 : fin_main_call2_v11 W = Host.divf (F := Ideal) (fin_main_call2_v9 W) (fin_main_call2_v10 W) :=
  at_tbinary hW 113 W _ _ _ _ rfl (by decide) (by decide) (by decide) (finV W) rfl
theorem at_main_call2_cst_3 : fin_main_call2_cst_3 W = constant (F := Ideal) S_ .f32 0x00000000#32 :=
  at_tnullary hW 114 W _ _ rfl (by decide) (finV W) rfl
theorem at_main_call2_v12 : fin_main_call2_v12 W = (cmpf (F := Ideal) .ogt) (fin_main_call2_v8 W) (fin_main_call2_cst_3 W) :=
  at_tbinary hW 115 W _ _ _ _ rfl (by decide) (by decide) (by decide) (finV W) rfl
theorem at_main_call2_cst_4 : fin_main_call2_cst_4 W = constant (F := Ideal) S_ .f32 0x7FC00000#32 :=
  at_tnullary hW 116 W _ _ rfl (by decide) (finV W) rfl
theorem at_main_call2_call0_v0 : fin_main_call2_call0_v0 W = (fin_main_call2_cst_4 W) :=
  at_tunary hW 117 W _ _ _ rfl (by decide) (by decide) (finV W) rfl
theorem at_main_call2_call0_v1 : fin_main_call2_call0_v1 W = (broadcastInDim S10 ![] bcast_S_S10) (fin_main_call2_call0_v0 W) :=
  at_tunary hW 118 W _ _ _ rfl (by decide) (by decide) (finV W) rfl
theorem at_main_v61 : fin_main_v61 W = select (broadcastInDim S10 ![] bcast_S_S10 (fin_main_call2_v12 W)) (fin_main_call2_v11 W) (fin_main_call2_call0_v1 W) :=
  at_tternary hW 119 W _ _ _ _ _ rfl (by decide) (by decide) (by decide) (by decide) (finV W) rfl
theorem at_main_v62 : fin_main_v62 W = broadcastInDim S1x10 ![1] bcast_S10_S1x10_1 (fin_main_v60 W) :=
  at_unary hW 120 W _ _ _ rfl (by decide) (by decide)
theorem at_main_v63 : fin_main_v63 W = broadcastInDim S5000x10 ![0, 1] bcast_S1x10_S5000x10_0_1 (fin_main_v62 W) :=
  at_unary hW 121 W _ _ _ rfl (by decide) (by decide)
theorem at_main_v64 : fin_main_v64 W = subf (F := Ideal) (fin_main_v57 W) (fin_main_v63 W) :=
  at_binary hW 122 W _ _ _ _ rfl (by decide) (by decide) (by decide)
theorem at_main_v65 : fin_main_v65 W = broadcastInDim S1x10 ![1] bcast_S10_S1x10_1 (fin_main_arg16 W) :=
  at_unary hW 123 W _ _ _ rfl (by decide) (by decide)
theorem at_main_v66 : fin_main_v66 W = broadcastInDim S5000x10 ![0, 1] bcast_S1x10_S5000x10_0_1 (fin_main_v65 W) :=
  at_unary hW 124 W _ _ _ rfl (by decide) (by decide)
theorem at_main_v67 : fin_main_v67 W = mulf (F := Ideal) (fin_main_v66 W) (fin_main_v64 W) :=
  at_binary hW 125 W _ _ _ _ rfl (by decide) (by decide) (by decide)
theorem at_main_cst_12 : fin_main_cst_12 W = constant (F := Ideal) S_ .f32 0x3727C5AC#32 :=
  at_nullary hW 126 W _ _ rfl (by decide)
theorem at_main_v68 : fin_main_v68 W = broadcastInDim S10 ![] bcast_S_S10 (fin_main_cst_12 W) :=
  at_unary hW 127 W _ _ _ rfl (by decide) (by decide)
theorem at_main_v69 : fin_main_v69 W = addf (F := Ideal) (fin_main_v61 W) (fin_main_v68 W) :=
  at_binary hW 128 W _ _ _ _ rfl (by decide) (by decide) (by decide)
theorem at_main_v70 : fin_main_v70 W = Host.sqrt (F := Ideal) (fin_main_v69 W) :=
  at_unary hW 129 W _ _ _ rfl (by decide) (by decide)
theorem at_main_v71 : fin_main_v71 W = broadcastInDim S1x10 ![1] bcast_S10_S1x10_1 (fin_main_v70 W) :=
  at_unary hW 130 W _ _ _ rfl (by decide) (by decide)
theorem at_main_v72 : fin_main_v72 W = broadcastInDim S5000x10 ![0, 1] bcast_S1x10_S5000x10_0_1 (fin_main_v71 W) :=
  at_unary hW 131 W _ _ _ rfl (by decide) (by decide)
theorem at_main_v73 : fin_main_v73 W = Host.divf (F := Ideal) (fin_main_v67 W) (fin_main_v72 W) :=
  at_binary hW 132 W _ _ _ _ rfl (by decide) (by decide) (by decide)
theorem at_main_v74 : fin_main_v74 W = broadcastInDim S1x10 ![1] bcast_S10_S1x10_1 (fin_main_arg17 W) :=
  at_unary hW 133 W _ _ _ rfl (by decide) (by decide)
theorem at_main_v75 : fin_main_v75 W = broadcastInDim S5000x10 ![0, 1] bcast_S1x10_S5000x10_0_1 (fin_main_v74 W) :=
  at_unary hW 134 W _ _ _ rfl (by decide) (by decide)
theorem at_main_v76 : fin_main_v76 W = addf (F := Ideal) (fin_main_v73 W) (fin_main_v75 W) :=
  at_binary hW 135 W _ _ _ _ rfl (by decide) (by decide) (by decide)
theorem at_main_call3_cst : fin_main_call3_cst W = constant (F := Ideal) S_ .f32 0x00000000#32 :=
  at_tnullary hW 136 W _ _ rfl (by decide) (finV W) rfl
theorem at_main_call3_v0 : fin_main_call3_v0 W = (broadcastInDim S5000x10 ![] bcast_S_S5000x10) (fin_main_call3_cst W) :=
  at_tunary hW 137 W _ _ _ rfl (by decide) (by decide) (finV W) rfl
theorem at_main_v77 : fin_main_v77 W = maximumf (F := Ideal) (fin_main_v76 W) (fin_main_call3_v0 W) :=
  at_tbinary hW 138 W _ _ _ _ rfl (by decide) (by decide) (by decide) (finV W) rfl
theorem at_main_v78 : fin_main_v78 W = transpose S10x10 [1, 0] (fin_main_arg8 W) transposes_S10x10_S10x10_1_0 :=
  at_unary hW 139 W _ _ _ rfl (by decide) (by decide)
theorem at_main_v79 : fin_main_v79 W = Host.dotGeneral (F := Ideal) dot_S5000x10_S10x10_S5000x10_1_0_0_1_n_n none (fin_main_v77 W) (fin_main_v78 W) :=
  at_binary hW 140 W _ _ _ _ rfl (by decide) (by decide) (by decide)
theorem at_main_v80 : fin_main_v80 W = broadcastInDim S1x10 ![1] bcast_S10_S1x10_1 (fin_main_arg9 W) :=
  at_unary hW 141 W _ _ _ rfl (by decide) (by decide)
theorem at_main_v81 : fin_main_v81 W = broadcastInDim S5000x10 ![0, 1] bcast_S1x10_S5000x10_0_1 (fin_main_v80 W) :=
  at_unary hW 142 W _ _ _ rfl (by decide) (by decide)
theorem at_main_v82 : fin_main_v82 W = addf (F := Ideal) (fin_main_v79 W) (fin_main_v81 W) :=
  at_binary hW 143 W _ _ _ _ rfl (by decide) (by decide) (by decide)
theorem at_main_cst_13 : fin_main_cst_13 W = constant (F := Ideal) S_ .f32 0x00000000#32 :=
  at_nullary hW 144 W _ _ rfl (by decide)
theorem at_main_v83 : fin_main_v83 W = Host.reduceAdd (F := Ideal) (fin_main_v82 W) (fin_main_cst_13 W) reducesTo_S5000x10_S10_d0 h_S_ :=
  at_binary hW 145 W _ _ _ _ rfl (by decide) (by decide) (by decide)
theorem at_main_cst_14 : fin_main_cst_14 W = constant (F := Ideal) S_ .f32 0x459C4000#32 :=
  at_nullary hW 146 W _ _ rfl (by decide)
theorem at_main_v84 : fin_main_v84 W = broadcastInDim S10 ![] bcast_S_S10 (fin_main_cst_14 W) :=
  at_unary hW 147 W _ _ _ rfl (by decide) (by decide)
theorem at_main_v85 : fin_main_v85 W = Host.divf (F := Ideal) (fin_main_v83 W) (fin_main_v84 W) :=
  at_binary hW 148 W _ _ _ _ rfl (by decide) (by decide) (by decide)
theorem at_main_c_15 : fin_main_c_15 W = constantI S_ 32 0#32 :=
  at_nullary hW 149 W _ _ rfl (by decide)
theorem at_main_call4_cst : fin_main_call4_cst W = constant (F := Ideal) S_ .f32 0x00000000#32 :=
  at_tnullary hW 150 W _ _ rfl (by decide) (finV W) rfl
theorem at_main_call4_v0 : fin_main_call4_v0 W = Host.reduceAdd (F := Ideal) (fin_main_v82 W) (fin_main_call4_cst W) reducesTo_S5000x10_S10_d0 h_S_ :=
  at_tbinary hW 151 W _ _ _ _ rfl (by decide) (by decide) (by decide) (finV W) rfl
theorem at_main_call4_v1 : fin_main_call4_v1 W = (broadcastInDim S1x10 ![1] bcast_S10_S1x10_1) (fin_main_call4_v0 W) :=
  at_tunary hW 152 W _ _ _ rfl (by decide) (by decide) (finV W) rfl
theorem at_main_call4_cst_0 : fin_main_call4_cst_0 W = constant (F := Ideal) S_ .f32 0x459C4000#32 :=
  at_tnullary hW 153 W _ _ rfl (by decide) (finV W) rfl
theorem at_main_call4_v2 : fin_main_call4_v2 W = (broadcastInDim S1x10 ![] bcast_S_S1x10) (fin_main_call4_cst_0 W) :=
  at_tunary hW 154 W _ _ _ rfl (by decide) (by decide) (finV W) rfl
theorem at_main_call4_v3 : fin_main_call4_v3 W = Host.divf (F := Ideal) (fin_main_call4_v1 W) (fin_main_call4_v2 W) :=
  at_tbinary hW 155 W _ _ _ _ rfl (by decide) (by decide) (by decide) (finV W) rfl
theorem at_main_call4_v4 : fin_main_call4_v4 W = (broadcastInDim S5000x10 ![0, 1] bcast_S1x10_S5000x10_0_1) (fin_main_call4_v3 W) :=
  at_tunary hW 156 W _ _ _ rfl (by decide) (by decide) (finV W) rfl
theorem at_main_call4_v5 : fin_main_call4_v5 W = subf (F := Ideal) (fin_main_v82 W) (fin_main_call4_v4 W) :=
  at_tbinary hW 157 W _ _ _ _ rfl (by decide) (by decide) (by decide) (finV W) rfl
theorem at_main_call4_v6 : fin_main_call4_v6 W = mulf (F := Ideal) (fin_main_call4_v5 W) (fin_main_call4_v5 W) :=
  at_tbinary hW 158 W _ _ _ _ rfl (by decide) (by decide) (by decide) (finV W) rfl
theorem at_main_call4_v7 : fin_main_call4_v7 W = (sitofp (F := Ideal) .f32) (fin_main_c_15 W) :=
  at_tunary hW 159 W _ _ _ rfl (by decide) (by decide) (finV W) rfl
theorem at_main_call4_cst_1 : fin_main_call4_cst_1 W = constant (F := Ideal) S_ .f32 0x459C4000#32 :=
  at_tnullary hW 160 W _ _ rfl (by decide) (finV W) rfl
theorem at_main_call4_v8 : fin_main_call4_v8 W = subf (F := Ideal) (fin_main_call4_cst_1 W) (fin_main_call4_v7 W) :=
  at_tbinary hW 161 W _ _ _ _ rfl (by decide) (by decide) (by decide) (finV W) rfl
theorem at_main_call4_cst_2 : fin_main_call4_cst_2 W = constant (F := Ideal) S_ .f32 0x00000000#32 :=
  at_tnullary hW 162 W _ _ rfl (by decide) (finV W) rfl
theorem at_main_call4_v9 : fin_main_call4_v9 W = Host.reduceAdd (F := Ideal) (fin_main_call4_v6 W) (fin_main_call4_cst_2 W) reducesTo_S5000x10_S10_d0 h_S_ :=
  at_tbinary hW 163 W _ _ _ _ rfl (by decide) (by decide) (by decide) (finV W) rfl
theorem at_main_call4_v10 : fin_main_call4_v10 W = (broadcastInDim S10 ![] bcast_S_S10) (fin_main_call4_v8 W) :=
  at_tunary hW 164 W _ _ _ rfl (by decide) (by decide) (finV W) rfl
theorem at_main_call4_v11 : fin_main_call4_v11 W = Host.divf (F := Ideal) (fin_main_call4_v9 W) (fin_main_call4_v10 W) :=
  at_tbinary hW 165 W _ _ _ _ rfl (by decide) (by decide) (by decide) (finV W) rfl
theorem at_main_call4_cst_3 : fin_main_call4_cst_3 W = constant (F := Ideal) S_ .f32 0x00000000#32 :=
  at_tnullary hW 166 W _ _ rfl (by decide) (finV W) rfl
theorem at_main_call4_v12 : fin_main_call4_v12 W = (cmpf (F := Ideal) .ogt) (fin_main_call4_v8 W) (fin_main_call4_cst_3 W) :=
  at_tbinary hW 167 W _ _ _ _ rfl (by decide) (by decide) (by decide) (finV W) rfl
theorem at_main_call4_cst_4 : fin_main_call4_cst_4 W = constant (F := Ideal) S_ .f32 0x7FC00000#32 :=
  at_tnullary hW 168 W _ _ rfl (by decide) (finV W) rfl
theorem at_main_call4_call0_v0 : fin_main_call4_call0_v0 W = (fin_main_call4_cst_4 W) :=
  at_tunary hW 169 W _ _ _ rfl (by decide) (by decide) (finV W) rfl
theorem at_main_call4_call0_v1 : fin_main_call4_call0_v1 W = (broadcastInDim S10 ![] bcast_S_S10) (fin_main_call4_call0_v0 W) :=
  at_tunary hW 170 W _ _ _ rfl (by decide) (by decide) (finV W) rfl
theorem at_main_v86 : fin_main_v86 W = select (broadcastInDim S10 ![] bcast_S_S10 (fin_main_call4_v12 W)) (fin_main_call4_v11 W) (fin_main_call4_call0_v1 W) :=
  at_tternary hW 171 W _ _ _ _ _ rfl (by decide) (by decide) (by decide) (by decide) (finV W) rfl
theorem at_main_v87 : fin_main_v87 W = broadcastInDim S1x10 ![1] bcast_S10_S1x10_1 (fin_main_v85 W) :=
  at_unary hW 172 W _ _ _ rfl (by decide) (by decide)
theorem at_main_v88 : fin_main_v88 W = broadcastInDim S5000x10 ![0, 1] bcast_S1x10_S5000x10_0_1 (fin_main_v87 W) :=
  at_unary hW 173 W _ _ _ rfl (by decide) (by decide)
theorem at_main_v89 : fin_main_v89 W = subf (F := Ideal) (fin_main_v82 W) (fin_main_v88 W) :=
  at_binary hW 174 W _ _ _ _ rfl (by decide) (by decide) (by decide)
theorem at_main_v90 : fin_main_v90 W = broadcastInDim S1x10 ![1] bcast_S10_S1x10_1 (fin_main_arg18 W) :=
  at_unary hW 175 W _ _ _ rfl (by decide) (by decide)
theorem at_main_v91 : fin_main_v91 W = broadcastInDim S5000x10 ![0, 1] bcast_S1x10_S5000x10_0_1 (fin_main_v90 W) :=
  at_unary hW 176 W _ _ _ rfl (by decide) (by decide)
theorem at_main_v92 : fin_main_v92 W = mulf (F := Ideal) (fin_main_v91 W) (fin_main_v89 W) :=
  at_binary hW 177 W _ _ _ _ rfl (by decide) (by decide) (by decide)
theorem at_main_cst_16 : fin_main_cst_16 W = constant (F := Ideal) S_ .f32 0x3727C5AC#32 :=
  at_nullary hW 178 W _ _ rfl (by decide)
theorem at_main_v93 : fin_main_v93 W = broadcastInDim S10 ![] bcast_S_S10 (fin_main_cst_16 W) :=
  at_unary hW 179 W _ _ _ rfl (by decide) (by decide)
theorem at_main_v94 : fin_main_v94 W = addf (F := Ideal) (fin_main_v86 W) (fin_main_v93 W) :=
  at_binary hW 180 W _ _ _ _ rfl (by decide) (by decide) (by decide)
theorem at_main_v95 : fin_main_v95 W = Host.sqrt (F := Ideal) (fin_main_v94 W) :=
  at_unary hW 181 W _ _ _ rfl (by decide) (by decide)
theorem at_main_v96 : fin_main_v96 W = broadcastInDim S1x10 ![1] bcast_S10_S1x10_1 (fin_main_v95 W) :=
  at_unary hW 182 W _ _ _ rfl (by decide) (by decide)
theorem at_main_v97 : fin_main_v97 W = broadcastInDim S5000x10 ![0, 1] bcast_S1x10_S5000x10_0_1 (fin_main_v96 W) :=
  at_unary hW 183 W _ _ _ rfl (by decide) (by decide)
theorem at_main_v98 : fin_main_v98 W = Host.divf (F := Ideal) (fin_main_v92 W) (fin_main_v97 W) :=
  at_binary hW 184 W _ _ _ _ rfl (by decide) (by decide) (by decide)
theorem at_main_v99 : fin_main_v99 W = broadcastInDim S1x10 ![1] bcast_S10_S1x10_1 (fin_main_arg19 W) :=
  at_unary hW 185 W _ _ _ rfl (by decide) (by decide)
theorem at_main_v100 : fin_main_v100 W = broadcastInDim S5000x10 ![0, 1] bcast_S1x10_S5000x10_0_1 (fin_main_v99 W) :=
  at_unary hW 186 W _ _ _ rfl (by decide) (by decide)
theorem at_main_v101 : fin_main_v101 W = addf (F := Ideal) (fin_main_v98 W) (fin_main_v100 W) :=
  at_binary hW 187 W _ _ _ _ rfl (by decide) (by decide) (by decide)
theorem at_main_call5_cst : fin_main_call5_cst W = constant (F := Ideal) S_ .f32 0x00000000#32 :=
  at_tnullary hW 188 W _ _ rfl (by decide) (finV W) rfl
theorem at_main_call5_v0 : fin_main_call5_v0 W = (broadcastInDim S5000x10 ![] bcast_S_S5000x10) (fin_main_call5_cst W) :=
  at_tunary hW 189 W _ _ _ rfl (by decide) (by decide) (finV W) rfl
theorem at_main_v102 : fin_main_v102 W = maximumf (F := Ideal) (fin_main_v101 W) (fin_main_call5_v0 W) :=
  at_tbinary hW 190 W _ _ _ _ rfl (by decide) (by decide) (by decide) (finV W) rfl
theorem at_main_v103 : fin_main_v103 W = transpose S10x10 [1, 0] (fin_main_arg10 W) transposes_S10x10_S10x10_1_0 :=
  at_unary hW 191 W _ _ _ rfl (by decide) (by decide)
theorem at_main_v104 : fin_main_v104 W = Host.dotGeneral (F := Ideal) dot_S5000x10_S10x10_S5000x10_1_0_0_1_n_n none (fin_main_v102 W) (fin_main_v103 W) :=
  at_binary hW 192 W _ _ _ _ rfl (by decide) (by decide) (by decide)
theorem at_main_v105 : fin_main_v105 W = broadcastInDim S1x10 ![1] bcast_S10_S1x10_1 (fin_main_arg11 W) :=
  at_unary hW 193 W _ _ _ rfl (by decide) (by decide)
theorem at_main_v106 : fin_main_v106 W = broadcastInDim S5000x10 ![0, 1] bcast_S1x10_S5000x10_0_1 (fin_main_v105 W) :=
  at_unary hW 194 W _ _ _ rfl (by decide) (by decide)
theorem at_main_v107 : fin_main_v107 W = addf (F := Ideal) (fin_main_v104 W) (fin_main_v106 W) :=
  at_binary hW 195 W _ _ _ _ rfl (by decide) (by decide) (by decide)
theorem at_main_cst_17 : fin_main_cst_17 W = constant (F := Ideal) S_ .f32 0x00000000#32 :=
  at_nullary hW 196 W _ _ rfl (by decide)
theorem at_main_v108 : fin_main_v108 W = Host.reduceAdd (F := Ideal) (fin_main_v107 W) (fin_main_cst_17 W) reducesTo_S5000x10_S10_d0 h_S_ :=
  at_binary hW 197 W _ _ _ _ rfl (by decide) (by decide) (by decide)
theorem at_main_cst_18 : fin_main_cst_18 W = constant (F := Ideal) S_ .f32 0x459C4000#32 :=
  at_nullary hW 198 W _ _ rfl (by decide)
theorem at_main_v109 : fin_main_v109 W = broadcastInDim S10 ![] bcast_S_S10 (fin_main_cst_18 W) :=
  at_unary hW 199 W _ _ _ rfl (by decide) (by decide)
theorem at_main_v110 : fin_main_v110 W = Host.divf (F := Ideal) (fin_main_v108 W) (fin_main_v109 W) :=
  at_binary hW 200 W _ _ _ _ rfl (by decide) (by decide) (by decide)
theorem at_main_c_19 : fin_main_c_19 W = constantI S_ 32 0#32 :=
  at_nullary hW 201 W _ _ rfl (by decide)
theorem at_main_call6_cst : fin_main_call6_cst W = constant (F := Ideal) S_ .f32 0x00000000#32 :=
  at_tnullary hW 202 W _ _ rfl (by decide) (finV W) rfl
theorem at_main_call6_v0 : fin_main_call6_v0 W = Host.reduceAdd (F := Ideal) (fin_main_v107 W) (fin_main_call6_cst W) reducesTo_S5000x10_S10_d0 h_S_ :=
  at_tbinary hW 203 W _ _ _ _ rfl (by decide) (by decide) (by decide) (finV W) rfl
theorem at_main_call6_v1 : fin_main_call6_v1 W = (broadcastInDim S1x10 ![1] bcast_S10_S1x10_1) (fin_main_call6_v0 W) :=
  at_tunary hW 204 W _ _ _ rfl (by decide) (by decide) (finV W) rfl
theorem at_main_call6_cst_0 : fin_main_call6_cst_0 W = constant (F := Ideal) S_ .f32 0x459C4000#32 :=
  at_tnullary hW 205 W _ _ rfl (by decide) (finV W) rfl
theorem at_main_call6_v2 : fin_main_call6_v2 W = (broadcastInDim S1x10 ![] bcast_S_S1x10) (fin_main_call6_cst_0 W) :=
  at_tunary hW 206 W _ _ _ rfl (by decide) (by decide) (finV W) rfl
theorem at_main_call6_v3 : fin_main_call6_v3 W = Host.divf (F := Ideal) (fin_main_call6_v1 W) (fin_main_call6_v2 W) :=
  at_tbinary hW 207 W _ _ _ _ rfl (by decide) (by decide) (by decide) (finV W) rfl
theorem at_main_call6_v4 : fin_main_call6_v4 W = (broadcastInDim S5000x10 ![0, 1] bcast_S1x10_S5000x10_0_1) (fin_main_call6_v3 W) :=
  at_tunary hW 208 W _ _ _ rfl (by decide) (by decide) (finV W) rfl
theorem at_main_call6_v5 : fin_main_call6_v5 W = subf (F := Ideal) (fin_main_v107 W) (fin_main_call6_v4 W) :=
  at_tbinary hW 209 W _ _ _ _ rfl (by decide) (by decide) (by decide) (finV W) rfl
theorem at_main_call6_v6 : fin_main_call6_v6 W = mulf (F := Ideal) (fin_main_call6_v5 W) (fin_main_call6_v5 W) :=
  at_tbinary hW 210 W _ _ _ _ rfl (by decide) (by decide) (by decide) (finV W) rfl
theorem at_main_call6_v7 : fin_main_call6_v7 W = (sitofp (F := Ideal) .f32) (fin_main_c_19 W) :=
  at_tunary hW 211 W _ _ _ rfl (by decide) (by decide) (finV W) rfl
theorem at_main_call6_cst_1 : fin_main_call6_cst_1 W = constant (F := Ideal) S_ .f32 0x459C4000#32 :=
  at_tnullary hW 212 W _ _ rfl (by decide) (finV W) rfl
theorem at_main_call6_v8 : fin_main_call6_v8 W = subf (F := Ideal) (fin_main_call6_cst_1 W) (fin_main_call6_v7 W) :=
  at_tbinary hW 213 W _ _ _ _ rfl (by decide) (by decide) (by decide) (finV W) rfl
theorem at_main_call6_cst_2 : fin_main_call6_cst_2 W = constant (F := Ideal) S_ .f32 0x00000000#32 :=
  at_tnullary hW 214 W _ _ rfl (by decide) (finV W) rfl
theorem at_main_call6_v9 : fin_main_call6_v9 W = Host.reduceAdd (F := Ideal) (fin_main_call6_v6 W) (fin_main_call6_cst_2 W) reducesTo_S5000x10_S10_d0 h_S_ :=
  at_tbinary hW 215 W _ _ _ _ rfl (by decide) (by decide) (by decide) (finV W) rfl
theorem at_main_call6_v10 : fin_main_call6_v10 W = (broadcastInDim S10 ![] bcast_S_S10) (fin_main_call6_v8 W) :=
  at_tunary hW 216 W _ _ _ rfl (by decide) (by decide) (finV W) rfl
theorem at_main_call6_v11 : fin_main_call6_v11 W = Host.divf (F := Ideal) (fin_main_call6_v9 W) (fin_main_call6_v10 W) :=
  at_tbinary hW 217 W _ _ _ _ rfl (by decide) (by decide) (by decide) (finV W) rfl
theorem at_main_call6_cst_3 : fin_main_call6_cst_3 W = constant (F := Ideal) S_ .f32 0x00000000#32 :=
  at_tnullary hW 218 W _ _ rfl (by decide) (finV W) rfl
theorem at_main_call6_v12 : fin_main_call6_v12 W = (cmpf (F := Ideal) .ogt) (fin_main_call6_v8 W) (fin_main_call6_cst_3 W) :=
  at_tbinary hW 219 W _ _ _ _ rfl (by decide) (by decide) (by decide) (finV W) rfl
theorem at_main_call6_cst_4 : fin_main_call6_cst_4 W = constant (F := Ideal) S_ .f32 0x7FC00000#32 :=
  at_tnullary hW 220 W _ _ rfl (by decide) (finV W) rfl
theorem at_main_call6_call0_v0 : fin_main_call6_call0_v0 W = (fin_main_call6_cst_4 W) :=
  at_tunary hW 221 W _ _ _ rfl (by decide) (by decide) (finV W) rfl
theorem at_main_call6_call0_v1 : fin_main_call6_call0_v1 W = (broadcastInDim S10 ![] bcast_S_S10) (fin_main_call6_call0_v0 W) :=
  at_tunary hW 222 W _ _ _ rfl (by decide) (by decide) (finV W) rfl
theorem at_main_v111 : fin_main_v111 W = select (broadcastInDim S10 ![] bcast_S_S10 (fin_main_call6_v12 W)) (fin_main_call6_v11 W) (fin_main_call6_call0_v1 W) :=
  at_tternary hW 223 W _ _ _ _ _ rfl (by decide) (by decide) (by decide) (by decide) (finV W) rfl
theorem at_main_v112 : fin_main_v112 W = broadcastInDim S1x10 ![1] bcast_S10_S1x10_1 (fin_main_v110 W) :=
  at_unary hW 224 W _ _ _ rfl (by decide) (by decide)
theorem at_main_v113 : fin_main_v113 W = broadcastInDim S5000x10 ![0, 1] bcast_S1x10_S5000x10_0_1 (fin_main_v112 W) :=
  at_unary hW 225 W _ _ _ rfl (by decide) (by decide)
theorem at_main_v114 : fin_main_v114 W = subf (F := Ideal) (fin_main_v107 W) (fin_main_v113 W) :=
  at_binary hW 226 W _ _ _ _ rfl (by decide) (by decide) (by decide)
theorem at_main_v115 : fin_main_v115 W = broadcastInDim S1x10 ![1] bcast_S10_S1x10_1 (fin_main_arg20 W) :=
  at_unary hW 227 W _ _ _ rfl (by decide) (by decide)
theorem at_main_v116 : fin_main_v116 W = broadcastInDim S5000x10 ![0, 1] bcast_S1x10_S5000x10_0_1 (fin_main_v115 W) :=
  at_unary hW 228 W _ _ _ rfl (by decide) (by decide)
theorem at_main_v117 : fin_main_v117 W = mulf (F := Ideal) (fin_main_v116 W) (fin_main_v114 W) :=
  at_binary hW 229 W _ _ _ _ rfl (by decide) (by decide) (by decide)
theorem at_main_cst_20 : fin_main_cst_20 W = constant (F := Ideal) S_ .f32 0x3727C5AC#32 :=
  at_nullary hW 230 W _ _ rfl (by decide)
theorem at_main_v118 : fin_main_v118 W = broadcastInDim S10 ![] bcast_S_S10 (fin_main_cst_20 W) :=
  at_unary hW 231 W _ _ _ rfl (by decide) (by decide)
theorem at_main_v119 : fin_main_v119 W = addf (F := Ideal) (fin_main_v111 W) (fin_main_v118 W) :=
  at_binary hW 232 W _ _ _ _ rfl (by decide) (by decide) (by decide)
theorem at_main_v120 : fin_main_v120 W = Host.sqrt (F := Ideal) (fin_main_v119 W) :=
  at_unary hW 233 W _ _ _ rfl (by decide) (by decide)
theorem at_main_v121 : fin_main_v121 W = broadcastInDim S1x10 ![1] bcast_S10_S1x10_1 (fin_main_v120 W) :=
  at_unary hW 234 W _ _ _ rfl (by decide) (by decide)
theorem at_main_v122 : fin_main_v122 W = broadcastInDim S5000x10 ![0, 1] bcast_S1x10_S5000x10_0_1 (fin_main_v121 W) :=
  at_unary hW 235 W _ _ _ rfl (by decide) (by decide)
theorem at_main_v123 : fin_main_v123 W = Host.divf (F := Ideal) (fin_main_v117 W) (fin_main_v122 W) :=
  at_binary hW 236 W _ _ _ _ rfl (by decide) (by decide) (by decide)
theorem at_main_v124 : fin_main_v124 W = broadcastInDim S1x10 ![1] bcast_S10_S1x10_1 (fin_main_arg21 W) :=
  at_unary hW 237 W _ _ _ rfl (by decide) (by decide)
theorem at_main_v125 : fin_main_v125 W = broadcastInDim S5000x10 ![0, 1] bcast_S1x10_S5000x10_0_1 (fin_main_v124 W) :=
  at_unary hW 238 W _ _ _ rfl (by decide) (by decide)
theorem at_main_v126 : fin_main_v126 W = addf (F := Ideal) (fin_main_v123 W) (fin_main_v125 W) :=
  at_binary hW 239 W _ _ _ _ rfl (by decide) (by decide) (by decide)
theorem at_main_v127 : fin_main_v127 W = addf (F := Ideal) (fin_main_v126 W) (fin_main_v77 W) :=
  at_binary hW 240 W _ _ _ _ rfl (by decide) (by decide) (by decide)
theorem at_main_call7_cst : fin_main_call7_cst W = constant (F := Ideal) S_ .f32 0x00000000#32 :=
  at_tnullary hW 241 W _ _ rfl (by decide) (finV W) rfl
theorem at_main_call7_v0 : fin_main_call7_v0 W = (broadcastInDim S5000x10 ![] bcast_S_S5000x10) (fin_main_call7_cst W) :=
  at_tunary hW 242 W _ _ _ rfl (by decide) (by decide) (finV W) rfl
theorem at_main_v128 : fin_main_v128 W = maximumf (F := Ideal) (fin_main_v127 W) (fin_main_call7_v0 W) :=
  at_tbinary hW 243 W _ _ _ _ rfl (by decide) (by decide) (by decide) (finV W) rfl
theorem at_main_v129 : fin_main_v129 W = transpose S10x1 [1, 0] (fin_main_arg12 W) transposes_S1x10_S10x1_1_0 :=
  at_unary hW 244 W _ _ _ rfl (by decide) (by decide)
theorem at_main_v130 : fin_main_v130 W = Host.dotGeneral (F := Ideal) dot_S5000x10_S10x1_S5000x1_1_0_0_1_n_n none (fin_main_v128 W) (fin_main_v129 W) :=
  at_binary hW 245 W _ _ _ _ rfl (by decide) (by decide) (by decide)
theorem at_main_v131 : fin_main_v131 W = broadcastInDim S1x1 ![1] bcast_S1_S1x1_1 (fin_main_arg13 W) :=
  at_unary hW 246 W _ _ _ rfl (by decide) (by decide)
theorem at_main_v132 : fin_main_v132 W = broadcastInDim S5000x1 ![0, 1] bcast_S1x1_S5000x1_0_1 (fin_main_v131 W) :=
  at_unary hW 247 W _ _ _ rfl (by decide) (by decide)
theorem at_main_v133 : fin_main_v133 W = addf (F := Ideal) (fin_main_v130 W) (fin_main_v132 W) :=
  at_binary hW 248 W _ _ _ _ rfl (by decide) (by decide) (by decide)

end Cert.ReferenceIdeal.Hand

end
-- ==== Proof.Ref.ValueHead.lean ====
import proofs.«404605_j2911987826902_2_alg».proof.Proof.Ref.Steps
import proofs.«404605_j2911987826902_2_alg».proof.Proof.RefSpec

noncomputable section

namespace Cert.ReferenceIdeal.Hand

open Cert.ReferenceIdeal Cert.ReferenceIdeal.Gen Idealize.ShloMosaic Idealize.ShloMosaic.TcCoe Idealize.SL.Sem Idealize.ShloMosaic.StableHlo

variable (W : Valuation τ sig (Elt Ideal))

theorem ref_cnt :
    StableHlo.after (ops (F := Ideal)) W (Proc.devRef .tc main_v23) = cntOf (F := Ideal) (W (Proc.devRef .tc main_arg3)) := by
  show fin_main_v23 W = _
  rw [at_main_v23, at_main_v21, at_main_cst_3, at_main_v22, keep_main_arg3, at_main_v20, at_main_cst_2]
  rfl

theorem pool_eq : fin_main_v27 W = meanPool (F := Ideal) (fin_main_v19 W) (fin_main_v23 W) := by
  rw [at_main_v27, at_main_v26, at_main_v25, at_main_v24, at_main_cst_4]
  rfl

-- The one-step equations of a normalised layer compose to the layer function of its input.
theorem bn1 : fin_main_v51 W
    = bnLayer (F := Ideal) (fin_main_v27 W) (W (Proc.devRef .tc main_arg4)) (W (Proc.devRef .tc main_arg5)) (W (Proc.devRef .tc main_arg14)) (W (Proc.devRef .tc main_arg15)) := by
  rw [at_main_v51, at_main_v50, at_main_v49, at_main_v48, at_main_v47, at_main_v46, at_main_v45, at_main_v44, at_main_v43, at_main_cst_8, at_main_v42,
    at_main_v41, at_main_v40, at_main_v39, at_main_v38, at_main_v37, at_main_v36, at_main_call0_call0_v1, at_main_call0_call0_v0,
    at_main_call0_cst_4, at_main_call0_v12, at_main_call0_cst_3, at_main_call0_v11, at_main_call0_v10, at_main_call0_v9, at_main_call0_cst_2,
    at_main_call0_v8, at_main_call0_cst_1, at_main_call0_v7, at_main_call0_v6, at_main_call0_v5, at_main_call0_v4, at_main_call0_v3,
    at_main_call0_v2, at_main_call0_cst_0, at_main_call0_v1, at_main_call0_v0, at_main_call0_cst, at_main_c_7, at_main_v35, at_main_v34,
    at_main_cst_6, at_main_v33, at_main_cst_5, at_main_v32, at_main_v31, at_main_v30, at_main_v29, at_main_v28, keep_main_arg4, keep_main_arg5,
    keep_main_arg14, keep_main_arg15]
  rfl

theorem bn2 : fin_main_v76 W
    = bnLayer (F := Ideal) (fin_main_v52 W) (W (Proc.devRef .tc main_arg6)) (W (Proc.devRef .tc main_arg7)) (W (Proc.devRef .tc main_arg16)) (W (Proc.devRef .tc main_arg17)) := by
  rw [at_main_v76, at_main_v75, at_main_v74, at_main_v73, at_main_v72, at_main_v71, at_main_v70, at_main_v69, at_main_v68, at_main_cst_12, at_main_v67,
    at_main_v66, at_main_v65, at_main_v64, at_main_v63, at_main_v62, at_main_v61, at_main_call2_call0_v1, at_main_call2_call0_v0,
    at_main_call2_cst_4, at_main_call2_v12, at_main_call2_cst_3, at_main_call2_v11, at_main_call2_v10, at_main_call2_v9, at_main_call2_cst_2,
    at_main_call2_v8, at_main_call2_cst_1, at_main_call2_v7, at_main_call2_v6, at_main_call2_v5, at_main_call2_v4, at_main_call2_v3,
    at_main_call2_v2, at_main_call2_cst_0, at_main_call2_v1, at_main_call2_v0, at_main_call2_cst, at_main_c_11, at_main_v60, at_main_v59,
    at_main_cst_10, at_main_v58, at_main_cst_9, at_main_v57, at_main_v56, at_main_v55, at_main_v54, at_main_v53, keep_main_arg6, keep_main_arg7,
    keep_main_arg16, keep_main_arg17]
  rfl

theorem bn3 : fin_main_v101 W
    = bnLayer (F := Ideal) (fin_main_v77 W) (W (Proc.devRef .tc main_arg8)) (W (Proc.devRef .tc main_arg9)) (W (Proc.devRef .tc main_arg18)) (W (Proc.devRef .tc main_arg19)) := by
  rw [at_main_v101, at_main_v100, at_main_v99, at_main_v98, at_main_v97, at_main_v96, at_main_v95, at_main_v94, at_main_v93, at_main_cst_16,
    at_main_v92, at_main_v91, at_main_v90, at_main_v89, at_main_v88, at_main_v87, at_main_v86, at_main_call4_call0_v1, at_main_call4_call0_v0,
    at_main_call4_cst_4, at_main_call4_v12, at_main_call4_cst_3, at_main_call4_v11, at_main_call4_v10, at_main_call4_v9, at_main_call4_cst_2,
    at_main_call4_v8, at_main_call4_cst_1, at_main_call4_v7, at_main_call4_v6, at_main_call4_v5, at_main_call4_v4, at_main_call4_v3,
    at_main_call4_v2, at_main_call4_cst_0, at_main_call4_v1, at_main_call4_v0, at_main_call4_cst, at_main_c_15, at_main_v85, at_main_v84,
    at_main_cst_14, at_main_v83, at_main_cst_13, at_main_v82, at_main_v81, at_main_v80, at_main_v79, at_main_v78, keep_main_arg8, keep_main_arg9,
    keep_main_arg18, keep_main_arg19]
  rfl

theorem bn4 : fin_main_v126 W
    = bnLayer (F := Ideal) (fin_main_v102 W) (W (Proc.devRef .tc main_arg10)) (W (Proc.devRef .tc main_arg11)) (W (Proc.devRef .tc main_arg20)) (W (Proc.devRef .tc main_arg21)) := by
  rw [at_main_v126, at_main_v125, at_main_v124, at_main_v123, at_main_v122, at_main_v121, at_main_v120, at_main_v119, at_main_v118, at_main_cst_20,
    at_main_v117, at_main_v116, at_main_v115, at_main_v114, at_main_v113, at_main_v112, at_main_v111, at_main_call6_call0_v1, at_main_call6_call0_v0,
    at_main_call6_cst_4, at_main_call6_v12, at_main_call6_cst_3, at_main_call6_v11, at_main_call6_v10, at_main_call6_v9, at_main_call6_cst_2,
    at_main_call6_v8, at_main_call6_cst_1, at_main_call6_v7, at_main_call6_v6, at_main_call6_v5, at_main_call6_v4, at_main_call6_v3,
    at_main_call6_v2, at_main_call6_cst_0, at_main_call6_v1, at_main_call6_v0, at_main_call6_cst, at_main_c_19, at_main_v110, at_main_v109,
    at_main_cst_18, at_main_v108, at_main_cst_17, at_main_v107, at_main_v106, at_main_v105, at_main_v104, at_main_v103, keep_main_arg10,
    keep_main_arg11, keep_main_arg20, keep_main_arg21]
  rfl

theorem ref_head :
    StableHlo.after (ops (F := Ideal)) W (Proc.devRef .tc main_v133)
      = head (F := Ideal) (StableHlo.after (ops (F := Ideal)) W (Proc.devRef .tc main_v19))
          (StableHlo.after (ops (F := Ideal)) W (Proc.devRef .tc main_v23))
        (W (Proc.devRef .tc main_arg4)) (W (Proc.devRef .tc main_arg5)) (W (Proc.devRef .tc main_arg6)) (W (Proc.devRef .tc main_arg7)) (W (Proc.devRef .tc main_arg8)) (W (Proc.devRef .tc main_arg9))
        (W (Proc.devRef .tc main_arg10)) (W (Proc.devRef .tc main_arg11)) (W (Proc.devRef .tc main_arg12)) (W (Proc.devRef .tc main_arg13)) (W (Proc.devRef .tc main_arg14)) (W (Proc.devRef .tc main_arg15))
        (W (Proc.devRef .tc main_arg16)) (W (Proc.devRef .tc main_arg17)) (W (Proc.devRef .tc main_arg18)) (W (Proc.devRef .tc main_arg19)) (W (Proc.devRef .tc main_arg20)) (W (Proc.devRef .tc main_arg21)) := by
  refine (at_main_v133 W).trans ?_
  rw [at_main_v132, at_main_v131, at_main_v130, at_main_v129, keep_main_arg12, keep_main_arg13,
    at_main_v128, at_main_call7_v0, at_main_call7_cst, at_main_v127, bn4,
    at_main_v102, at_main_call5_v0, at_main_call5_cst, bn3, at_main_v77, at_main_call3_v0, at_main_call3_cst, bn2,
    at_main_v52, at_main_call1_v0, at_main_call1_cst, bn1, pool_eq]
  rfl

end Cert.ReferenceIdeal.Hand

end
-- ==== Proof.Ref.Facts.lean ====
import Mathlib.Algebra.BigOperators.Fin
import Mathlib.Data.EReal.Basic
import proofs.«404605_j2911987826902_2_alg».proof.Proof.Spec

noncomputable section

open scoped BigOperators

namespace Cert.ReferenceIdeal.Hand

open Idealize.ShloMosaic Idealize.ShloMosaic.ValueIdx

-- Summing over the targets first, each edge is counted once, under its own target.
theorem sum_collapse {N E : ℕ} {M : Type*} [AddCommMonoid M] (p : Fin N → Prop) [DecidablePred p] (d : Fin E → Fin N)
    (f : Fin E → M) :
    (∑ n, if p n then ∑ e, (if d e = n then f e else 0) else 0) = ∑ e, if p (d e) then f e else 0 := by
  refine Eq.trans ?_ (Finset.sum_congr rfl fun e _ =>
    (Finset.sum_ite_eq Finset.univ (d e) fun n => if p n then f e else 0).trans (if_pos (Finset.mem_univ _)))
  rw [Finset.sum_comm]
  refine Finset.sum_congr rfl fun n _ => ?_
  by_cases hp : p n <;> simp [hp]

theorem toInt_eq_iff_rowOf {w : BitVec 32} (h0 : 0 ≤ w.toInt) (h1 : w.toInt < 500000) (n : Fin 500000) :
    w.toInt = (n.val : ℤ) ↔ Cert.Spec.rowOf w = n := by
  rw [← Fin.val_inj]
  show _ ↔ min w.toInt.toNat 499999 = n.val
  omega

end Cert.ReferenceIdeal.Hand

end
-- ==== Proof.LibScatter.lean ====
import Mathlib.Algebra.BigOperators.Fin
import Idealize.ShloMosaic.Lib.ValueIdxRank1

open scoped BigOperators

namespace Cert.LibScatter

open Idealize.ShloMosaic Idealize.ShloMosaic.ValueIdx

-- An update lands at i exactly when, on every axis, its window start plus its window coordinate is i's coordinate.
theorem resultIdx?_eq_some_iff {s si u : Shape} {w : Nat} (d : ScatterDims s si u) (j : u.Idx) (idx : IVec si w)
    (i : s.Idx) : d.resultIdx? j idx = some i ↔ ∀ a, d.start j idx a + (d.window j a : ℤ) = ((i a).val : ℤ) := by
  unfold ScatterDims.resultIdx?
  split
  · next h =>
    rw [Option.some.injEq, funext_iff]
    refine forall_congr' fun a => ?_
    have := h a
    rw [Fin.ext_iff]
    show (_ : ℤ).toNat = _ ↔ _
    omega
  · next h =>
    refine ⟨nofun, fun h' => absurd (fun a => ?_) h⟩
    rw [h' a]
    exact ⟨Int.natCast_nonneg _, Int.ofNat_lt.mpr (i a).isLt⟩

abbrev rowDims (R K C : Nat) (wf : ScatterDims.WF ⟨2, ![R, C]⟩ ⟨2, ![K, 1]⟩ ⟨2, ![K, C]⟩ [1] [0] [0] 1) :
    ScatterDims ⟨2, ![R, C]⟩ ⟨2, ![K, 1]⟩ ⟨2, ![K, C]⟩ where
  updateWindowDims := [1]
  insertedWindowDims := [0]
  scatterDimsToOperandDims := [0]
  indexVectorDim := 1
  wf := wf

-- Update row e lands in the operand row its index names, column by column, so entry (i, c) collects column c of those rows.
theorem rowDims_scatterAdd_apply {R K C w : Nat} {φ : FTy}
    (wf : ScatterDims.WF ⟨2, ![R, C]⟩ ⟨2, ![K, 1]⟩ ⟨2, ![K, C]⟩ [1] [0] [0] 1)
    (x : FVec Ideal ⟨2, ![R, C]⟩ φ) (idx : IVec ⟨2, ![K, 1]⟩ w) (upd : FVec Ideal ⟨2, ![K, C]⟩ φ) (i : Fin R) (c : Fin C) :
    Host.scatterAdd (rowDims R K C wf) x idx upd (ix2 i c)
      = x (ix2 i c) + ∑ e : Fin K, if (idx (ix2 e 0)).toInt = (i.val : ℤ) then upd (ix2 e c) else 0 := by
  show x (ix2 i c) + ∑ j ∈ Finset.univ.filter (fun j => (rowDims R K C wf).resultIdx? j idx = some (ix2 i c)), upd j = _
  congr 1
  rw [Finset.sum_filter, sum_idx2]
  refine Finset.sum_congr rfl fun e _ => ?_
  have hl : ∀ c', (rowDims R K C wf).resultIdx? (ix2 e c') idx = some (ix2 i c)
      ↔ (idx (ix2 e 0)).toInt = (i.val : ℤ) ∧ c' = c := fun c' => by
    have hsi : (rowDims R K C wf).siIdx (ix2 e c') ⟨0, Nat.one_pos⟩ = ix2 e 0 := by
      funext b; refine Fin.ext ?_
      match b with
      | ⟨0, _⟩ => rfl
      | ⟨1, _⟩ => rfl
    rw [resultIdx?_eq_some_iff, Fin.forall_fin_two, ← hsi]
    show (idx _).toInt + ((0 : ℕ) : ℤ) = _ ∧ (0 : ℤ) + ((c'.val : ℕ) : ℤ) = (c.val : ℤ) ↔ _
    rw [Nat.cast_zero, add_zero, zero_add, Nat.cast_inj, Fin.val_inj]
    exact Iff.rfl
  by_cases ht : (idx (ix2 e 0)).toInt = (i.val : ℤ) <;> simp [hl, ht]

end Cert.LibScatter
-- ==== Proof.Ref.ValueAgg.lean ====
import proofs.«404605_j2911987826902_2_alg».proof.Proof.Ref.Steps
import proofs.«404605_j2911987826902_2_alg».proof.Proof.Ref.Facts
import proofs.«404605_j2911987826902_2_alg».proof.Proof.LibScatter
import proofs.«404605_j2911987826902_2_alg».proof.Proof.LibTakeRows
import Idealize.ShloMosaic.Lib.ValueLayout
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Pipeline

variable {α : Type}

theorem bcast_scalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

theorem bcast_col_apply {n : ℕ} (hn : n ≠ 1) (h : (⟨1, ![n]⟩ : Shape).BroadcastsInDim ⟨2, ![n, 1]⟩ ![0])
    (x : (⟨1, ![n]⟩ : Shape).Idx → α) (e : Fin n) (u : Fin 1) :
    broadcastInDim ⟨2, ![n, 1]⟩ ![0] h x (ix2 e u) = x (ix1 e) :=
  broadcastInDim_apply _ h x _ _ (fun a => by
    match a with
    | ⟨0, _⟩ => show e.val = if n = 1 then 0 else e.val; rw [if_neg hn])

theorem bcast_cols_apply {n c : ℕ} (hn : n ≠ 1) (h : (⟨2, ![n, 1]⟩ : Shape).BroadcastsInDim ⟨2, ![n, c]⟩ ![0, 1])
    (x : (⟨2, ![n, 1]⟩ : Shape).Idx → α) (e : Fin n) (k : Fin c) :
    broadcastInDim ⟨2, ![n, c]⟩ ![0, 1] h x (ix2 e k) = x (ix2 e (0 : Fin 1)) :=
  broadcastInDim_apply _ h x _ _ (fun a => by
    match a with
    | ⟨0, _⟩ => show e.val = if n = 1 then 0 else e.val; rw [if_neg hn]
    | ⟨1, _⟩ => show (0 : ℕ) = if (1 : ℕ) = 1 then 0 else k.val; rw [if_pos rfl])

theorem cmpi_slt_zero_of_nonneg {w : BitVec 32} (h : 0 ≤ w.toInt) : IntOp.cmpi .slt w 0#32 = 0#1 := by
  have : w.slt 0#32 = false := by
    rw [BitVec.slt_eq_decide]
    simpa using h
  show BitVec.ofBool (w.slt 0#32) = 0#1
  rw [this]; rfl

abbrev xOf (W : Valuation τ sig (Elt Ideal)) : FVec Ideal S500000x10 .f32 := W (Proc.devRef .tc main_arg0)

abbrev eiOf (W : Valuation τ sig (Elt Ideal)) : IVec S2x8000000 32 := W (Proc.devRef .tc main_arg1)

abbrev eaOf (W : Valuation τ sig (Elt Ideal)) : FVec Ideal S8000000 .f32 := W (Proc.devRef .tc main_arg2)

abbrev batchOf (W : Valuation τ sig (Elt Ideal)) : IVec S500000 32 := W (Proc.devRef .tc main_arg3)

variable (W : Valuation τ sig (Elt Ideal))

theorem src_apply (e : Fin 8000000) : fin_main_v1 W (ix1 e) = eiOf W (ix2 (0 : Fin 2) e) := by
  rw [at_main_v1, at_main_v0, keep_main_arg1]
  refine (shapeCast_1a_a_apply _ _ e).trans ?_
  exact slice2_axis0_apply 0 _ _ (0 : Fin 1) e (0 : Fin 2) rfl

theorem dst_apply (e : Fin 8000000) : fin_main_v3 W (ix1 e) = eiOf W (ix2 (1 : Fin 2) e) := by
  rw [at_main_v3, at_main_v2, keep_main_arg1]
  refine (shapeCast_1a_a_apply _ _ e).trans ?_
  exact slice2_axis0_apply 1 _ _ (0 : Fin 1) e (1 : Fin 2) rfl

theorem dstCol_apply (e : Fin 8000000) (u : Fin 1) : fin_main_v15 W (ix2 e u) = eiOf W (ix2 (1 : Fin 2) e) := by
  rw [at_main_v15]
  refine (bcast_col_apply (by decide) _ _ e u).trans ?_
  exact dst_apply W e

theorem batchCol_apply (n : Fin 500000) (u : Fin 1) : fin_main_v18 W (ix2 n u) = batchOf W (ix1 n) := by
  rw [at_main_v18, keep_main_arg3]
  exact bcast_col_apply (by decide) _ _ n u

theorem zeroWord_apply (e : Fin 8000000) : fin_main_v4 W (ix1 e) = 0#32 := by
  rw [at_main_v4]
  refine (bcast_scalar_apply _ _ _).trans ?_
  rw [at_main_c]
  rfl

theorem start_apply (hr : Cert.Spec.InRange (eiOf W)) (e : Fin 8000000) (u : Fin 1) :
    fin_main_v9 W (ix2 e u) = eiOf W (ix2 (0 : Fin 2) e) := by
  rw [at_main_v9]
  refine (bcast_col_apply (by decide) _ _ e u).trans ?_
  rw [at_main_v8, select_apply, at_main_v5]
  show Scalar.select (IntOp.cmpi .slt (fin_main_v1 W (ix1 e)) (fin_main_v4 W (ix1 e))) _ _ = _
  rw [zeroWord_apply, src_apply, cmpi_slt_zero_of_nonneg (hr _).1, select_zero]

theorem take_apply (hr : Cert.Spec.InRange (eiOf W)) (e : Fin 8000000) (c : Fin 10) :
    fin_main_v10 W (ix2 e c) = xOf W (ix2 (Cert.Spec.rowOf (eiOf W (ix2 (0 : Fin 2) e))) c) := by
  rw [at_main_v10, keep_main_arg0]
  refine (Cert.LibTakeRows.gather_rows_apply (N := 500000) (W := 10) (E := 8000000) (by decide)
    gather_S500000x10_S8000000x1_S8000000x10_1_0_n_n_0_1_110_wf _ _ e c).trans ?_
  exact congrArg (fun w : BitVec 32 => xOf W (ix2 (Cert.Spec.rowOf w) c)) (start_apply W hr e 0)

theorem weight_apply (e : Fin 8000000) (c : Fin 10) : fin_main_v12 W (ix2 e c) = eaOf W (ix1 e) := by
  rw [at_main_v12]
  refine (bcast_cols_apply (by decide) _ _ e c).trans ?_
  rw [at_main_v11, keep_main_arg2]
  exact bcast_col_apply (by decide) _ _ e 0

theorem msg_apply (hr : Cert.Spec.InRange (eiOf W)) (e : Fin 8000000) (c : Fin 10) :
    fin_main_v13 W (ix2 e c)
      = xOf W (ix2 (Cert.Spec.rowOf (eiOf W (ix2 (0 : Fin 2) e))) c) * eaOf W (ix1 e) := by
  rw [at_main_v13, mulf_apply, take_apply W hr, weight_apply]

theorem nodeZero_apply (n : Fin 500000) (c : Fin 10) : fin_main_v14 W (ix2 n c) = 0 := by
  rw [at_main_v14]
  refine (bcast_scalar_apply _ _ _).trans ?_
  rw [at_main_cst]
  exact Ideal.ofBits_zero_f32

theorem graphZero_apply (g : Fin 5000) (c : Fin 10) : fin_main_v17 W (ix2 g c) = 0 := by
  rw [at_main_v17]
  refine (bcast_scalar_apply _ _ _).trans ?_
  rw [at_main_cst_1]
  exact Ideal.ofBits_zero_f32

theorem node_apply (hr : Cert.Spec.InRange (eiOf W)) (n : Fin 500000) (c : Fin 10) :
    fin_main_v16 W (ix2 n c)
      = ∑ e : Fin 8000000, if (eiOf W (ix2 (1 : Fin 2) e)).toInt = (n.val : ℤ)
          then xOf W (ix2 (Cert.Spec.rowOf (eiOf W (ix2 (0 : Fin 2) e))) c) * eaOf W (ix1 e) else 0 := by
  rw [at_main_v16]
  refine (Cert.LibScatter.rowDims_scatterAdd_apply (R := 500000) (K := 8000000) (C := 10)
    scatter_S500000x10_S8000000x1_S8000000x10_1_0_0_1_wf _ _ _ n c).trans ?_
  rw [nodeZero_apply, zero_add]
  refine Finset.sum_congr rfl fun e _ => ?_
  rw [dstCol_apply, msg_apply W hr]

theorem graph_apply (g : Fin 5000) (c : Fin 10) :
    fin_main_v19 W (ix2 g c)
      = ∑ n : Fin 500000, if (batchOf W (ix1 n)).toInt = (g.val : ℤ) then fin_main_v16 W (ix2 n c) else 0 := by
  rw [at_main_v19]
  refine (Cert.LibScatter.rowDims_scatterAdd_apply (R := 5000) (K := 500000) (C := 10)
    scatter_S5000x10_S500000x1_S500000x10_1_0_0_1_wf _ _ _ g c).trans ?_
  rw [graphZero_apply, zero_add]
  refine Finset.sum_congr rfl fun n _ => ?_
  rw [batchCol_apply]

-- With every endpoint a row of the table, "index reads n" is "row is n", and the two nested sums are one sum over the edges.
theorem ref_agg (h : Cert.Spec.InRange (W (Proc.devRef .tc main_arg1))) :
    StableHlo.after (ops (F := Ideal)) W (Proc.devRef .tc main_v19)
      = Cert.Spec.agg (W (Proc.devRef .tc main_arg0)) (W (Proc.devRef .tc main_arg1)) (W (Proc.devRef .tc main_arg2))
          (W (Proc.devRef .tc main_arg3)) := by
  funext i
  obtain ⟨g, c, rfl⟩ : ∃ (g : Fin 5000) (c : Fin 10), i = ix2 g c := ⟨i 0, i 1, eq_ix2 i⟩
  refine (graph_apply W g c).trans ?_
  have hiff : ∀ (e : Fin 8000000) (n : Fin 500000),
      ((eiOf W (ix2 (1 : Fin 2) e)).toInt = (n.val : ℤ)) ↔ (Cert.Spec.rowOf (eiOf W (ix2 (1 : Fin 2) e)) = n) :=
    fun e n => toInt_eq_iff_rowOf (h _).1 (h _).2 n
  simp_rw [node_apply W h, hiff]
  exact sum_collapse (fun n : Fin 500000 => (batchOf W (ix1 n)).toInt = (g.val : ℤ))
    (fun e => Cert.Spec.rowOf (eiOf W (ix2 (1 : Fin 2) e)))
    (fun e => xOf W (ix2 (Cert.Spec.rowOf (eiOf W (ix2 (0 : Fin 2) e))) c) * eaOf W (ix1 e))

end Cert.ReferenceIdeal.Hand

end
-- ==== Proof.lean ====
import proofs.«404605_j2911987826902_2_alg».proof.Defs
import proofs.«404605_j2911987826902_2_alg».proof.Proof.Gen.Kernel
import proofs.«404605_j2911987826902_2_alg».proof.Proof.Gen.KernelIdeal
import proofs.«404605_j2911987826902_2_alg».proof.Proof.Gen.ReferenceIdeal
import proofs.«404605_j2911987826902_2_alg».proof.Proof.Gen.Pre_finite_inputs
import proofs.«404605_j2911987826902_2_alg».proof.Proof.K.Run
import proofs.«404605_j2911987826902_2_alg».proof.Proof.KI.Run
import proofs.«404605_j2911987826902_2_alg».proof.Proof.KI.Pre
import proofs.«404605_j2911987826902_2_alg».proof.Proof.Bridge1
import proofs.«404605_j2911987826902_2_alg».proof.Proof.Ref.Run
import proofs.«404605_j2911987826902_2_alg».proof.Proof.Ref.ValueHead
import proofs.«404605_j2911987826902_2_alg».proof.Proof.Ref.ValueAgg
import Idealize.ShloMosaic.Adequacy
import Idealize.ShloMosaic.Init

noncomputable section

namespace Cert.Proof

open Idealize.ShloMosaic Idealize.ShloMosaic.TcCoe Idealize.SL.Sem

-- Each frame is the program's run with the result dropped.
theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Hand.run (F := Ideal) m ρ)

-- Both runs end at the head network of the pooled messages: the reference's two nested sums are the kernel's one sum.
set_option maxHeartbeats 4000000 in
theorem algebraic : Cert.algebraic_KernelIdeal_ReferenceIdeal := by
  intro m g m' g' hpre hagree
  have hR : ∀ c : Dev Cert.KernelIdeal.nD,
      Cert.Spec.InRange (m ((c.tc : Thread Cert.KernelIdeal.nD Cert.KernelIdeal.τ).loc Cert.KernelIdeal.main_arg1)) :=
    fun c => Cert.KernelIdeal.Hand.inRange_of_pre _ _ _ _ _ _ _ _ _ _ _ _ _ _ _ _ _ _ _ _ _ _ (hpre c)
  refine ⟨fun c => Cert.KernelIdeal.Hand.out7 (F := Ideal) m c, Cert.KernelIdeal.Hand.run_main (F := Ideal) m g, ?_⟩
  refine (θ_run Cert.ReferenceIdeal.defs _ _).mono (fun r h c => ⟨(h c).1.trans ?_, (h c).2⟩)
    (Cert.ReferenceIdeal.Hand.run (F := Ideal) m' g')
  obtain ⟨h0, h1, h2, h3, h4, h5, h6, h7, h8, h9, h10, h11, h12, h13, h14, h15, h16, h17, h18, h19, h20, h21⟩ := hagree c
  have hR' : Cert.Spec.InRange ((fun b => m' (c, b) : Valuation Cert.ReferenceIdeal.τ Cert.ReferenceIdeal.sig (Elt Ideal))
      (Proc.devRef .tc Cert.ReferenceIdeal.main_arg1)) := by
    show Cert.Spec.InRange (m' ((c.tc : Thread Cert.ReferenceIdeal.nD Cert.ReferenceIdeal.τ).loc Cert.ReferenceIdeal.main_arg1))
    rw [h1]; exact hR c
  rw [Cert.ReferenceIdeal.Hand.ref_head, Cert.ReferenceIdeal.Hand.ref_cnt, Cert.ReferenceIdeal.Hand.ref_agg _ hR']
  show _ = Cert.KernelIdeal.Hand.out7 (F := Ideal) m c
  rw [Cert.KernelIdeal.Hand.out7_eq m c (hR c)]
  rw [show m' (c, Proc.devRef .tc Cert.ReferenceIdeal.main_arg0) = _ from h0,
    show m' (c, Proc.devRef .tc Cert.ReferenceIdeal.main_arg1) = _ from h1,
    show m' (c, Proc.devRef .tc Cert.ReferenceIdeal.main_arg2) = _ from h2,
    show m' (c, Proc.devRef .tc Cert.ReferenceIdeal.main_arg3) = _ from h3,
    show m' (c, Proc.devRef .tc Cert.ReferenceIdeal.main_arg4) = _ from h4,
    show m' (c, Proc.devRef .tc Cert.ReferenceIdeal.main_arg5) = _ from h5,
    show m' (c, Proc.devRef .tc Cert.ReferenceIdeal.main_arg6) = _ from h6,
    show m' (c, Proc.devRef .tc Cert.ReferenceIdeal.main_arg7) = _ from h7,
    show m' (c, Proc.devRef .tc Cert.ReferenceIdeal.main_arg8) = _ from h8,
    show m' (c, Proc.devRef .tc Cert.ReferenceIdeal.main_arg9) = _ from h9,
    show m' (c, Proc.devRef .tc Cert.ReferenceIdeal.main_arg10) = _ from h10,
    show m' (c, Proc.devRef .tc Cert.ReferenceIdeal.main_arg11) = _ from h11,
    show m' (c, Proc.devRef .tc Cert.ReferenceIdeal.main_arg12) = _ from h12,
    show m' (c, Proc.devRef .tc Cert.ReferenceIdeal.main_arg13) = _ from h13,
    show m' (c, Proc.devRef .tc Cert.ReferenceIdeal.main_arg14) = _ from h14,
    show m' (c, Proc.devRef .tc Cert.ReferenceIdeal.main_arg15) = _ from h15,
    show m' (c, Proc.devRef .tc Cert.ReferenceIdeal.main_arg16) = _ from h16,
    show m' (c, Proc.devRef .tc Cert.ReferenceIdeal.main_arg17) = _ from h17,
    show m' (c, Proc.devRef .tc Cert.ReferenceIdeal.main_arg18) = _ from h18,
    show m' (c, Proc.devRef .tc Cert.ReferenceIdeal.main_arg19) = _ from h19,
    show m' (c, Proc.devRef .tc Cert.ReferenceIdeal.main_arg20) = _ from h20,
    show m' (c, Proc.devRef .tc Cert.ReferenceIdeal.main_arg21) = _ from h21]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
